-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x151643 : Shape := ⟨3, ![2, 512, 151643]⟩
abbrev S512 : Shape := ⟨1, ![512]⟩
abbrev S2x512 : Shape := ⟨2, ![2, 512]⟩
abbrev S_ : Shape := ⟨0, ![]⟩

class Facts : Prop where
  bcast_S_S2x512x151643 : S_.BroadcastsInDim S2x512x151643 (![] : Fin 0 → Fin S2x512x151643.rank)
  reducesTo_S2x512x151643_S_d0_1_2 : S2x512x151643.ReducesTo [0, 1, 2] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S2x512x151643 .f32) (main_arg1 : FVec F S512 .f32) (main_arg2 : IVec S2x512 32) (main_arg3 : IVec S2x512 32) : IVec S_ 1 :=
  let main_v0 : FVec F S2x512x151643 .f32 := Host.absf main_arg0
  let main_cst : FVec F S_ .f32 := constant S_ .f32 0x7F800000#32
  let main_v1 : FVec F S2x512x151643 .f32 := broadcastInDim S2x512x151643 ![] bcast_S_S2x512x151643 main_cst
  let main_v2 : IVec S2x512x151643 1 := cmpf .olt main_v0 main_v1
  let main_c : IVec S_ 1 := constantI S_ 1 1#1
  let main_v3 : IVec S_ 1 := (fun x v => Host.reduce IntOp.andi x v reducesTo_S2x512x151643_S_d0_1_2 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  main_v8
-- ==== Kernel.lean ====
abbrev S2x512x151643 : Shape := ⟨3, ![2, 512, 151643]⟩
abbrev S512 : Shape := ⟨1, ![512]⟩
abbrev S2x512 : Shape := ⟨2, ![2, 512]⟩
abbrev S512x1 : Shape := ⟨2, ![512, 1]⟩
abbrev S2x512x1 : Shape := ⟨3, ![2, 512, 1]⟩
abbrev S1x128x12288 : Shape := ⟨3, ![1, 128, 12288]⟩
abbrev S128x1 : Shape := ⟨2, ![128, 1]⟩
abbrev S1x128x1 : Shape := ⟨3, ![1, 128, 1]⟩
abbrev S128x12288 : Shape := ⟨2, ![128, 12288]⟩
abbrev S128 : Shape := ⟨1, ![128]⟩
abbrev S_ : Shape := ⟨0, ![]⟩
abbrev S2x512x1x1 : Shape := ⟨4, ![2, 512, 1, 1]⟩
abbrev S1 : Shape := ⟨1, ![1]⟩
abbrev S1x1x1x1 : Shape := ⟨4, ![1, 1, 1, 1]⟩

abbrev nBuf : Space → Nat
  | .hbm => 73
  | .vmem => 12
  | .smem => 0
  | _ => 0

abbrev bufTy : (tb : Table) → Fin (tcTables nBuf tb) → BufTy
  | .hbm, ⟨0, _⟩ => ⟨S2x512x151643, .f32⟩
  | .hbm, ⟨1, _⟩ => ⟨S512, .f32⟩
  | .hbm, ⟨2, _⟩ => ⟨S2x512, .i32⟩
  | .hbm, ⟨3, _⟩ => ⟨S2x512, .i32⟩
  | .hbm, ⟨4, _⟩ => ⟨S512x1, .f32⟩
  | .hbm, ⟨5, _⟩ => ⟨S2x512x1, .f32⟩
  | .hbm, ⟨6, _⟩ => ⟨S2x512x1, .f32⟩
  | .hbm, ⟨7, _⟩ => ⟨S2x512, .f32⟩
  | .hbm, ⟨8, _⟩ => ⟨S2x512, .f32⟩
  | .hbm, ⟨9, _⟩ => ⟨S_, .i32⟩
  | .hbm, ⟨10, _⟩ => ⟨S2x512, .i32⟩
  | .hbm, ⟨11, _⟩ => ⟨S2x512, .i1⟩
  | .hbm, ⟨12, _⟩ => ⟨S_, .i32⟩
  | .hbm, ⟨13, _⟩ => ⟨S_, .i32⟩
  | .hbm, ⟨14, _⟩ => ⟨S2x512, .i32⟩
  | .hbm, ⟨15, _⟩ => ⟨S2x512, .i32⟩
  | .hbm, ⟨16, _⟩ => ⟨S2x512x1, .i32⟩
  | .hbm, ⟨17, _⟩ => ⟨S_, .i32⟩
  | .hbm, ⟨18, _⟩ => ⟨S2x512x1, .i32⟩
  | .hbm, ⟨19, _⟩ => ⟨S2x512x1, .i1⟩
  | .hbm, ⟨20, _⟩ => ⟨S_, .i32⟩
  | .hbm, ⟨21, _⟩ => ⟨S2x512x1, .i32⟩
  | .hbm, ⟨22, _⟩ => ⟨S2x512x1, .i32⟩
  | .hbm, ⟨23, _⟩ => ⟨S2x512x1, .i32⟩
  | .hbm, ⟨24, _⟩ => ⟨S2x512x1x1, .i32⟩
  | .hbm, ⟨25, _⟩ => ⟨S1, .i32⟩
  | .hbm, ⟨26, _⟩ => ⟨S_, .i32⟩
  | .hbm, ⟨27, _⟩ => ⟨S2x512x1x1, .i32⟩
  | .hbm, ⟨28, _⟩ => ⟨S2x512x1x1, .i1⟩
  | .hbm, ⟨29, _⟩ => ⟨S1x1x1x1, .i32⟩
  | .hbm, ⟨30, _⟩ => ⟨S2x512x1x1, .i32⟩
  | .hbm, ⟨31, _⟩ => ⟨S2x512x1x1, .i1⟩
  | .hbm, ⟨32, _⟩ => ⟨S2x512x1x1, .i1⟩
  | .hbm, ⟨33, _⟩ => ⟨S_, .i1⟩
  | .hbm, ⟨34, _⟩ => ⟨S2x512x1, .i1⟩
  | .hbm, ⟨35, _⟩ => ⟨S2x512x1, .f32⟩
  | .hbm, ⟨36, _⟩ => ⟨S_, .f32⟩
  | .hbm, ⟨37, _⟩ => ⟨S2x512x1, .f32⟩
  | .hbm, ⟨38, _⟩ => ⟨S2x512x1, .f32⟩
  | .hbm, ⟨39, _⟩ => ⟨S2x512, .f32⟩
  | .hbm, ⟨40, _⟩ => ⟨S2x512, .f32⟩
  | .hbm, ⟨41, _⟩ => ⟨S_, .i32⟩
  | .hbm, ⟨42, _⟩ => ⟨S2x512, .i32⟩
  | .hbm, ⟨43, _⟩ => ⟨S2x512, .i1⟩
  | .hbm, ⟨44, _⟩ => ⟨S2x512, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .f32⟩
  | .hbm, ⟨50, _⟩ => ⟨S_, .f32⟩
  | .hbm, ⟨51, _⟩ => ⟨S2x512, .f32⟩
  | .hbm, ⟨52, _⟩ => ⟨S2x512, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S2x512, .f32⟩
  | .hbm, ⟨57, _⟩ => ⟨S2x512, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .i1⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .local _ .vmem, ⟨0, _⟩ => ⟨S1x128x12288, .f32⟩
  | .local _ .vmem, ⟨1, _⟩ => ⟨S1x128x12288, .f32⟩
  | .local _ .vmem, ⟨2, _⟩ => ⟨S128x1, .f32⟩
  | .local _ .vmem, ⟨3, _⟩ => ⟨S128x1, .f32⟩
  | .local _ .vmem, ⟨4, _⟩ => ⟨S1x128x1, .f32⟩
  | .local _ .vmem, ⟨5, _⟩ => ⟨S1x128x1, .f32⟩
  | .local _ .vmem, ⟨6, _⟩ => ⟨S1x128x1, .f32⟩
  | .local _ .vmem, ⟨7, _⟩ => ⟨S1x128x1, .f32⟩
  | .local _ .vmem, ⟨8, _⟩ => ⟨S128x1, .f32⟩
  | .local _ .vmem, ⟨9, _⟩ => ⟨S128x1, .f32⟩
  | .local _ .vmem, ⟨10, _⟩ => ⟨S128x1, .f32⟩
  | .local _ .vmem, ⟨11, _⟩ => ⟨S128x1, .f32⟩
  | _, _ => ⟨S2x512x151643, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_v7 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_3 : Ref sig .tc := ⟨.hbm, 33, rfl⟩
abbrev main_call1_v12 : Ref sig .tc := ⟨.hbm, 34, rfl⟩
abbrev main_call1_v13 : Ref sig .tc := ⟨.hbm, 35, rfl⟩
abbrev main_call1_cst : Ref sig .tc := ⟨.hbm, 36, rfl⟩
abbrev main_call1_v14 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_c_1 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_c_2 : Ref sig .tc := ⟨.hbm, 45, rfl⟩
abbrev main_v14 : Ref sig .tc := ⟨.hbm, 46, rfl⟩
abbrev main_c_3 : Ref sig .tc := ⟨.hbm, 47, rfl⟩
abbrev main_v15 : Ref sig .tc := ⟨.hbm, 48, rfl⟩
abbrev main_v16 : Ref sig .tc := ⟨.hbm, 49, rfl⟩
abbrev main_cst : Ref sig .tc := ⟨.hbm, 50, rfl⟩
abbrev main_call2_v0 : Ref sig .tc := ⟨.hbm, 51, rfl⟩
abbrev main_v17 : Ref sig .tc := ⟨.hbm, 52, rfl⟩
abbrev main_cst_4 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_5 : Ref sig .tc := ⟨.hbm, 58, rfl⟩
abbrev main_v22 : Ref sig .tc := ⟨.hbm, 59, rfl⟩
abbrev main_cst_6 : Ref sig .tc := ⟨.hbm, 60, rfl⟩
abbrev main_v23 : Ref sig .tc := ⟨.hbm, 61, rfl⟩
abbrev main_cst_7 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_cst_8 : Ref sig .tc := ⟨.hbm, 66, rfl⟩
abbrev main_v27 : Ref sig .tc := ⟨.hbm, 67, rfl⟩
abbrev main_cst_9 : Ref sig .tc := ⟨.hbm, 68, rfl⟩
abbrev main_v28 : Ref sig .tc := ⟨.hbm, 69, rfl⟩
abbrev main_cst_10 : Ref sig .tc := ⟨.hbm, 70, rfl⟩
abbrev main_v29 : Ref sig .tc := ⟨.hbm, 71, rfl⟩
abbrev main_v30 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 13], ![false, false, false]⟩

def k0_cond3 (i : grid0.Coords) : BitVec 1 :=
  let arg2 : BitVec 32 := BitVec.ofNat 32 (i 2).val
  let c12_i32 : BitVec 32 := 12#32
  let v6 : BitVec 1 := Scalar.cmpi .eq arg2 c12_i32
  let v10 : BitVec 32 := Scalar.extui v6
  let c0_i32_5 : BitVec 32 := 0#32
  let v11 : BitVec 1 := Scalar.cmpi .ne v10 c0_i32_5
  v11

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x128x12288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S512_S512x1_0 : S512.BroadcastsInDim S512x1 (![0] : Fin 1 → Fin S512x1.rank)
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x128x12288_S1x128x12288_0_0_0 : ∀ a, (![0, 0, 0] : Fin 3 → Nat) a + S1x128x12288.size a ≤ S1x128x12288.size a
  h_S1x128x12288 : 0 < S1x128x12288.numel
  shapeCasts_S1x128x12288_S128x12288 : S1x128x12288.ShapeCasts S128x12288
  reduces_S128x12288_S128 : S128x12288.Reduces [1] S128
  shapeCasts_S128_S128x1 : S128.ShapeCasts S128x1
  broadcasts_S128x1_S128x12288 : S128x1.Broadcasts S128x12288
  iota_S128x12288_d1_w32 : S128x12288.Iotas .tc 32 [1]
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  shapeCasts_S2x512x1_S2x512 : S2x512x1.ShapeCasts S2x512
  bcast_S_S2x512 : S_.BroadcastsInDim S2x512 (![] : Fin 0 → Fin S2x512.rank)
  bcast_S2x512_S2x512x1_0_1 : S2x512.BroadcastsInDim S2x512x1 (![0, 1] : Fin 2 → Fin S2x512x1.rank)
  bcast_S_S2x512x1 : S_.BroadcastsInDim S2x512x1 (![] : Fin 0 → Fin S2x512x1.rank)
  shapeCasts_S2x512x1_S2x512x1x1 : S2x512x1.ShapeCasts S2x512x1x1
  bcast_S_S2x512x1x1 : S_.BroadcastsInDim S2x512x1x1 (![] : Fin 0 → Fin S2x512x1x1.rank)
  bcast_S1_S1x1x1x1_3 : S1.BroadcastsInDim S1x1x1x1 (![3] : Fin 1 → Fin S1x1x1x1.rank)
  bcast_S1x1x1x1_S2x512x1x1_0_1_2_3 : S1x1x1x1.BroadcastsInDim S2x512x1x1 (![0, 1, 2, 3] : Fin 4 → Fin S2x512x1x1.rank)
  reducesTo_S2x512x1x1_S2x512x1_d3 : S2x512x1x1.ReducesTo [3] S2x512x1
  h_S_ : 0 < S_.numel
  natLt_1_32 : 1 < 32
  reducesTo_S2x512_S_d0_1 : S2x512.ReducesTo [0, 1] S_
  gather_S2x512x151643_S2x512x1x1_S2x512x1_n_2_01_01_2_3_111_wf : GatherDims.WF S2x512x151643 S2x512x1x1 S2x512x1 [] [2] [0, 1] [2] [0, 1] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x128x12288.size a < S2x512x151643.size a
  hwx0_0 : ∀ i : grid0.Coords, EltTy.bits .f32 = 32 ∨ (Rect.unit (s := S2x512x151643) (fun a => cc0_transform_0 i a * S1x128x12288.size a) (fun a => (Pipeline.Clip.of (cc0_transform_0 i a) (S1x128x12288.size a) (S2x512x151643.size a)).extent (S1x128x12288.size a)) fun a => Pipeline.Clip.inb (Pipeline.Clip.ok_of (hstart0_0 i a))).WholeWords (EltTy.packing .f32)
  hwxs0_0 : ∀ i : grid0.Coords, EltTy.bits .f32 = 32 ∨ (Rect.unit (s := S1x128x12288) (fun _ => 0) (fun a => (Pipeline.Clip.of (cc0_transform_0 i a) (S1x128x12288.size a) (S2x512x151643.size a)).extent (S1x128x12288.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S512x1.size a
  hwx0_1 : ∀ i : grid0.Coords, EltTy.bits .f32 = 32 ∨ (Rect.block (s := S512x1) S128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S2x512x1.size a
  hwx0_2 : ∀ i : grid0.Coords, EltTy.bits .f32 = 32 ∨ (Rect.block (s := S2x512x1) S1x128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1.size a ≤ S2x512x1.size a
  hwx0_3 : ∀ i : grid0.Coords, EltTy.bits .f32 = 32 ∨ (Rect.block (s := S2x512x1) S1x128x1.size (cc0_transform_3 i) (hinb0_3 i)).WholeWords (EltTy.packing .f32)

variable [Facts₀]

def gather_S2x512x151643_S2x512x1x1_S2x512x1_n_2_01_01_2_3_111 : GatherDims S2x512x151643 S2x512x1x1 S2x512x1 where
  offsetDims := []
  collapsedSliceDims := [2]
  operandBatchingDims := [0, 1]
  startIndicesBatchingDims := [0, 1]
  startIndexMap := [2]
  indexVectorDim := 3
  sliceSizes := ![1, 1, 1]
  wf := gather_S2x512x151643_S2x512x1x1_S2x512x1_n_2_01_01_2_3_111_wf

abbrev win0_0 : Pipeline.Window sig grid0 :=
  Pipeline.Window.ofSpecClip (Memref.whole main_arg0) S1x128x12288.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x128x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond3 i == 1#1) | ⟨_ + 4, h⟩ => absurd h (Nat.not_lt.2 (Nat.le_add_left _ _))

class Facts : Prop extends Facts₀ where

variable [Facts]
-- ==== ReferenceIdeal.lean ====
abbrev S2x512x151643 : Shape := ⟨3, ![2, 512, 151643]⟩
abbrev S512 : Shape := ⟨1, ![512]⟩
abbrev S2x512 : Shape := ⟨2, ![2, 512]⟩
abbrev S_ : Shape := ⟨0, ![]⟩
abbrev S2x512x1 : Shape := ⟨3, ![2, 512, 1]⟩
abbrev S2x512x1x1 : Shape := ⟨4, ![2, 512, 1, 1]⟩
abbrev S1 : Shape := ⟨1, ![1]⟩
abbrev S1x1x1x1 : Shape := ⟨4, ![1, 1, 1, 1]⟩
abbrev S1x512 : Shape := ⟨2, ![1, 512]⟩

abbrev nBuf : Space → Nat
  | .hbm => 124
  | .vmem => 0
  | .smem => 0
  | _ => 0

abbrev bufTy : (tb : Table) → Fin (tcTables nBuf tb) → BufTy
  | .hbm, ⟨0, _⟩ => ⟨S2x512x151643, .f32⟩
  | .hbm, ⟨1, _⟩ => ⟨S512, .f32⟩
  | .hbm, ⟨2, _⟩ => ⟨S2x512, .i32⟩
  | .hbm, ⟨3, _⟩ => ⟨S2x512, .i32⟩
  | .hbm, ⟨4, _⟩ => ⟨S_, .f32⟩
  | .hbm, ⟨5, _⟩ => ⟨S2x512, .f32⟩
  | .hbm, ⟨6, _⟩ => ⟨S_, .f32⟩
  | .hbm, ⟨7, _⟩ => ⟨S2x512, .f32⟩
  | .hbm, ⟨8, _⟩ => ⟨S2x512, .f32⟩
  | .hbm, ⟨9, _⟩ => ⟨S2x512x1, .f32⟩
  | .hbm, ⟨10, _⟩ => ⟨S2x512x151643, .f32⟩
  | .hbm, ⟨11, _⟩ => ⟨S2x512x151643, .f32⟩
  | .hbm, ⟨12, _⟩ => ⟨S2x512x151643, .f32⟩
  | .hbm, ⟨13, _⟩ => ⟨S_, .f32⟩
  | .hbm, ⟨14, _⟩ => ⟨S2x512, .f32⟩
  | .hbm, ⟨15, _⟩ => ⟨S2x512x1, .f32⟩
  | .hbm, ⟨16, _⟩ => ⟨S2x512x1, .f32⟩
  | .hbm, ⟨17, _⟩ => ⟨S2x512x151643, .f32⟩
  | .hbm, ⟨18, _⟩ => ⟨S2x512x151643, .f32⟩
  | .hbm, ⟨19, _⟩ => ⟨S_, .i32⟩
  | .hbm, ⟨20, _⟩ => ⟨S2x512, .i32⟩
  | .hbm, ⟨21, _⟩ => ⟨S2x512, .i1⟩
  | .hbm, ⟨22, _⟩ => ⟨S_, .i32⟩
  | .hbm, ⟨23, _⟩ => ⟨S_, .i32⟩
  | .hbm, ⟨24, _⟩ => ⟨S2x512, .i32⟩
  | .hbm, ⟨25, _⟩ => ⟨S2x512, .i32⟩
  | .hbm, ⟨26, _⟩ => ⟨S2x512x1, .i32⟩
  | .hbm, ⟨27, _⟩ => ⟨S_, .i32⟩
  | .hbm, ⟨28, _⟩ => ⟨S2x512x1, .i32⟩
  | .hbm, ⟨29, _⟩ => ⟨S2x512x1, .i1⟩
  | .hbm, ⟨30, _⟩ => ⟨S_, .i32⟩
  | .hbm, ⟨31, _⟩ => ⟨S2x512x1, .i32⟩
  | .hbm, ⟨32, _⟩ => ⟨S2x512x1, .i32⟩
  | .hbm, ⟨33, _⟩ => ⟨S2x512x1, .i32⟩
  | .hbm, ⟨34, _⟩ => ⟨S2x512x1x1, .i32⟩
  | .hbm, ⟨35, _⟩ => ⟨S1, .i32⟩
  | .hbm, ⟨36, _⟩ => ⟨S_, .i32⟩
  | .hbm, ⟨37, _⟩ => ⟨S2x512x1x1, .i32⟩
  | .hbm, ⟨38, _⟩ => ⟨S2x512x1x1, .i1⟩
  | .hbm, ⟨39, _⟩ => ⟨S1x1x1x1, .i32⟩
  | .hbm, ⟨40, _⟩ => ⟨S2x512x1x1, .i32⟩
  | .hbm, ⟨41, _⟩ => ⟨S2x512x1x1, .i1⟩
  | .hbm, ⟨42, _⟩ => ⟨S2x512x1x1, .i1⟩
  | .hbm, ⟨43, _⟩ => ⟨S_, .i1⟩
  | .hbm, ⟨44, _⟩ => ⟨S2x512x1, .i1⟩
  | .hbm, ⟨45, _⟩ => ⟨S2x512x1, .f32⟩
  | .hbm, ⟨46, _⟩ => ⟨S_, .f32⟩
  | .hbm, ⟨47, _⟩ => ⟨S2x512x1, .f32⟩
  | .hbm, ⟨48, _⟩ => ⟨S2x512x1, .f32⟩
  | .hbm, ⟨49, _⟩ => ⟨S2x512, .f32⟩
  | .hbm, ⟨50, _⟩ => ⟨S2x512, .f32⟩
  | .hbm, ⟨51, _⟩ => ⟨S_, .i32⟩
  | .hbm, ⟨52, _⟩ => ⟨S2x512, .i32⟩
  | .hbm, ⟨53, _⟩ => ⟨S2x512, .i1⟩
  | .hbm, ⟨54, _⟩ => ⟨S2x512, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .f32⟩
  | .hbm, ⟨60, _⟩ => ⟨S_, .f32⟩
  | .hbm, ⟨61, _⟩ => ⟨S2x512, .f32⟩
  | .hbm, ⟨62, _⟩ => ⟨S2x512, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S2x512x151643, .f32⟩
  | .hbm, ⟨68, _⟩ => ⟨S2x512x151643, .f32⟩
  | .hbm, ⟨69, _⟩ => ⟨S_, .f32⟩
  | .hbm, ⟨70, _⟩ => ⟨S2x512, .f32⟩
  | .hbm, ⟨71, _⟩ => ⟨S_, .f32⟩
  | .hbm, ⟨72, _⟩ => ⟨S2x512, .f32⟩
  | .hbm, ⟨73, _⟩ => ⟨S2x512, .f32⟩
  | .hbm, ⟨74, _⟩ => ⟨S2x512x1, .f32⟩
  | .hbm, ⟨75, _⟩ => ⟨S2x512x151643, .f32⟩
  | .hbm, ⟨76, _⟩ => ⟨S2x512x151643, .f32⟩
  | .hbm, ⟨77, _⟩ => ⟨S2x512x151643, .f32⟩
  | .hbm, ⟨78, _⟩ => ⟨S_, .f32⟩
  | .hbm, ⟨79, _⟩ => ⟨S2x512, .f32⟩
  | .hbm, ⟨80, _⟩ => ⟨S2x512x1, .f32⟩
  | .hbm, ⟨81, _⟩ => ⟨S2x512x1, .f32⟩
  | .hbm, ⟨82, _⟩ => ⟨S2x512x151643, .f32⟩
  | .hbm, ⟨83, _⟩ => ⟨S2x512x151643, .f32⟩
  | .hbm, ⟨84, _⟩ => ⟨S_, .f32⟩
  | .hbm, ⟨85, _⟩ => ⟨S2x512, .f32⟩
  | .hbm, ⟨86, _⟩ => ⟨S512, .f32⟩
  | .hbm, ⟨87, _⟩ => ⟨S_, .f32⟩
  | .hbm, ⟨88, _⟩ => ⟨S512, .f32⟩
  | .hbm, ⟨89, _⟩ => ⟨S512, .f32⟩
  | .hbm, ⟨90, _⟩ => ⟨S_, .f32⟩
  | .hbm, ⟨91, _⟩ => ⟨S512, .f32⟩
  | .hbm, ⟨92, _⟩ => ⟨S512, .f32⟩
  | .hbm, ⟨93, _⟩ => ⟨S_, .f32⟩
  | .hbm, ⟨94, _⟩ => ⟨S512, .f32⟩
  | .hbm, ⟨95, _⟩ => ⟨S512, .f32⟩
  | .hbm, ⟨96, _⟩ => ⟨S_, .f32⟩
  | .hbm, ⟨97, _⟩ => ⟨S512, .f32⟩
  | .hbm, ⟨98, _⟩ => ⟨S512, .f32⟩
  | .hbm, ⟨99, _⟩ => ⟨S512, .f32⟩
  | .hbm, ⟨100, _⟩ => ⟨S512, .f32⟩
  | .hbm, ⟨101, _⟩ => ⟨S1x512, .f32⟩
  | .hbm, ⟨102, _⟩ => ⟨S1x512, .f32⟩
  | .hbm, ⟨103, _⟩ => ⟨S2x512, .f32⟩
  | .hbm, ⟨104, _⟩ => ⟨S2x512, .f32⟩
  | .hbm, ⟨105, _⟩ => ⟨S2x512, .f32⟩
  | .hbm, ⟨106, _⟩ => ⟨S2x512, .f32⟩
  | .hbm, ⟨107, _⟩ => ⟨S2x512, .f32⟩
  | .hbm, ⟨108, _⟩ => ⟨S2x512, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .i1⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | _, _ => ⟨S2x512x151643, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_call1_v0 : Ref sig .tc := ⟨.hbm, 23, rfl⟩
abbrev main_call1_v1 : Ref sig .tc := ⟨.hbm, 24, rfl⟩
abbrev main_v3 : Ref sig .tc := ⟨.hbm, 25, rfl⟩
abbrev main_v4 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_cst : Ref sig .tc := ⟨.hbm, 46, rfl⟩
abbrev main_call2_v14 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_c_1 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_c_2 : Ref sig .tc := ⟨.hbm, 55, rfl⟩
abbrev main_v11 : Ref sig .tc := ⟨.hbm, 56, rfl⟩
abbrev main_c_3 : Ref sig .tc := ⟨.hbm, 57, rfl⟩
abbrev main_v12 : Ref sig .tc := ⟨.hbm, 58, rfl⟩
abbrev main_v13 : Ref sig .tc := ⟨.hbm, 59, rfl⟩
abbrev main_cst : Ref sig .tc := ⟨.hbm, 60, rfl⟩
abbrev main_call3_v0 : Ref sig .tc := ⟨.hbm, 61, rfl⟩
abbrev main_v14 : Ref sig .tc := ⟨.hbm, 62, rfl⟩
abbrev main_cst_4 : Ref sig .tc := ⟨.hbm, 63, rfl⟩
abbrev main_v15 : Ref sig .tc := ⟨.hbm, 64, rfl⟩
abbrev main_v16 : Ref sig .tc := ⟨.hbm, 65, rfl⟩
abbrev main_cst_5 : Ref sig .tc := ⟨.hbm, 66, rfl⟩
abbrev main_v17 : Ref sig .tc := ⟨.hbm, 67, rfl⟩
abbrev main_v18 : Ref sig .tc := ⟨.hbm, 68, rfl⟩
abbrev main_call4_cst : Ref sig .tc := ⟨.hbm, 69, rfl⟩
abbrev main_call4_v0 : Ref sig .tc := ⟨.hbm, 70, rfl⟩
abbrev main_call4_cst_0 : Ref sig .tc := ⟨.hbm, 71, rfl⟩
abbrev main_call4_v1 : Ref sig .tc := ⟨.hbm, 72, rfl⟩
abbrev main_call4_v2 : Ref sig .tc := ⟨.hbm, 73, rfl⟩
abbrev main_call4_v3 : Ref sig .tc := ⟨.hbm, 74, rfl⟩
abbrev main_call4_v4 : Ref sig .tc := ⟨.hbm, 75, rfl⟩
abbrev main_call4_v5 : Ref sig .tc := ⟨.hbm, 76, rfl⟩
abbrev main_call4_v6 : Ref sig .tc := ⟨.hbm, 77, rfl⟩
abbrev main_call4_cst_1 : Ref sig .tc := ⟨.hbm, 78, rfl⟩
abbrev main_call4_v7 : Ref sig .tc := ⟨.hbm, 79, rfl⟩
abbrev main_call4_v8 : Ref sig .tc := ⟨.hbm, 80, rfl⟩
abbrev main_call4_v9 : Ref sig .tc := ⟨.hbm, 81, rfl⟩
abbrev main_call4_v10 : Ref sig .tc := ⟨.hbm, 82, rfl⟩
abbrev main_v19 : Ref sig .tc := ⟨.hbm, 83, rfl⟩
abbrev main_cst_6 : Ref sig .tc := ⟨.hbm, 84, rfl⟩
abbrev main_v20 : Ref sig .tc := ⟨.hbm, 85, rfl⟩
abbrev main_v21 : Ref sig .tc := ⟨.hbm, 86, rfl⟩
abbrev main_cst_7 : Ref sig .tc := ⟨.hbm, 87, rfl⟩
abbrev main_v22 : Ref sig .tc := ⟨.hbm, 88, rfl⟩
abbrev main_v23 : Ref sig .tc := ⟨.hbm, 89, rfl⟩
abbrev main_cst_8 : Ref sig .tc := ⟨.hbm, 90, rfl⟩
abbrev main_v24 : Ref sig .tc := ⟨.hbm, 91, rfl⟩
abbrev main_v25 : Ref sig .tc := ⟨.hbm, 92, rfl⟩
abbrev main_cst_9 : Ref sig .tc := ⟨.hbm, 93, rfl⟩
abbrev main_v26 : Ref sig .tc := ⟨.hbm, 94, rfl⟩
abbrev main_v27 : Ref sig .tc := ⟨.hbm, 95, rfl⟩
abbrev main_cst_10 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_cst_11 : Ref sig .tc := ⟨.hbm, 109, rfl⟩
abbrev main_v40 : Ref sig .tc := ⟨.hbm, 110, rfl⟩
abbrev main_cst_12 : Ref sig .tc := ⟨.hbm, 111, rfl⟩
abbrev main_v41 : Ref sig .tc := ⟨.hbm, 112, rfl⟩
abbrev main_cst_13 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_cst_14 : Ref sig .tc := ⟨.hbm, 117, rfl⟩
abbrev main_v45 : Ref sig .tc := ⟨.hbm, 118, rfl⟩
abbrev main_cst_15 : Ref sig .tc := ⟨.hbm, 119, rfl⟩
abbrev main_v46 : Ref sig .tc := ⟨.hbm, 120, rfl⟩
abbrev main_cst_16 : Ref sig .tc := ⟨.hbm, 121, rfl⟩
abbrev main_v47 : Ref sig .tc := ⟨.hbm, 122, rfl⟩
abbrev main_v48 : Ref sig .tc := ⟨.hbm, 123, rfl⟩

abbrev nD : Nat := 1
abbrev τ : Topo := Topo.v7x

variable {F : FTy → Type} [FloatOps F]

class Facts₀ : Prop where
  reducesTo_S2x512x151643_S2x512_d2 : S2x512x151643.ReducesTo [2] S2x512
  h_S_ : 0 < S_.numel
  bcast_S_S2x512 : S_.BroadcastsInDim S2x512 (![] : Fin 0 → Fin S2x512.rank)
  bcast_S2x512_S2x512x1_0_1 : S2x512.BroadcastsInDim S2x512x1 (![0, 1] : Fin 2 → Fin S2x512x1.rank)
  bcast_S2x512x1_S2x512x151643_0_1_2 : S2x512x1.BroadcastsInDim S2x512x151643 (![0, 1, 2] : Fin 3 → Fin S2x512x151643.rank)
  bcast_S_S2x512x1 : S_.BroadcastsInDim S2x512x1 (![] : Fin 0 → Fin S2x512x1.rank)
  shapeCasts_S2x512x1_S2x512x1x1 : S2x512x1.ShapeCasts S2x512x1x1
  bcast_S_S2x512x1x1 : S_.BroadcastsInDim S2x512x1x1 (![] : Fin 0 → Fin S2x512x1x1.rank)
  bcast_S1_S1x1x1x1_3 : S1.BroadcastsInDim S1x1x1x1 (![3] : Fin 1 → Fin S1x1x1x1.rank)
  bcast_S1x1x1x1_S2x512x1x1_0_1_2_3 : S1x1x1x1.BroadcastsInDim S2x512x1x1 (![0, 1, 2, 3] : Fin 4 → Fin S2x512x1x1.rank)
  reducesTo_S2x512x1x1_S2x512x1_d3 : S2x512x1x1.ReducesTo [3] S2x512x1
  shapeCasts_S2x512x1_S2x512 : S2x512x1.ShapeCasts S2x512
  natLt_1_32 : 1 < 32
  reducesTo_S2x512_S_d0_1 : S2x512.ReducesTo [0, 1] S_
  bcast_S_S2x512x151643 : S_.BroadcastsInDim S2x512x151643 (![] : Fin 0 → Fin S2x512x151643.rank)
  bcast_S_S512 : S_.BroadcastsInDim S512 (![] : Fin 0 → Fin S512.rank)
  bcast_S512_S1x512_1 : S512.BroadcastsInDim S1x512 (![1] : Fin 1 → Fin S1x512.rank)
  bcast_S1x512_S2x512_0_1 : S1x512.BroadcastsInDim S2x512 (![0, 1] : Fin 2 → Fin S2x512.rank)
  gather_S2x512x151643_S2x512x1x1_S2x512x1_n_2_01_01_2_3_111_wf : GatherDims.WF S2x512x151643 S2x512x1x1 S2x512x1 [] [2] [0, 1] [2] [0, 1] 3 ![1, 1, 1]

variable [Facts₀]

def gather_S2x512x151643_S2x512x1x1_S2x512x1_n_2_01_01_2_3_111 : GatherDims S2x512x151643 S2x512x1x1 S2x512x1 where
  offsetDims := []
  collapsedSliceDims := [2]
  operandBatchingDims := [0, 1]
  startIndicesBatchingDims := [0, 1]
  startIndexMap := [2]
  indexVectorDim := 3
  sliceSizes := ![1, 1, 1]
  wf := gather_S2x512x151643_S2x512x1x1_S2x512x1_n_2_01_01_2_3_111_wf

class Facts : Prop extends Facts₀ where

variable [Facts]
-- ==== Proof.K.Conds.lean ====
import proofs.«429975_j11527692223274_3_alg».proof.Proof.Gen.Kernel.Launch
import proofs.«429975_j11527692223274_3_alg».proof.Proof.Gen.Kernel.Skeleton
import proofs.«429975_j11527692223274_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 2).val) 0#32)) 0#32) = 1#1

theorem hcond0_0 : ∀ t : Fin cfg0.N, cond0_0 (grid0.coords t) ↔ t.val % 13 = 0 :=
  (by decide +kernel : ∀ t : Fin grid0.N, cond0_0 (grid0.coords t) ↔ t.val % 13 = 0)

abbrev cond0_1 (i : grid0.Coords) : Prop := (Scalar.cmpi .ne (Scalar.extui (Scalar.cmpi .slt (BitVec.ofNat 32 (i 2).val) 12#32)) 0#32) = 1#1

theorem hcond0_1 : ∀ t : Fin cfg0.N, cond0_1 (grid0.coords t) ↔ t.val % 13 < 12 :=
  (by decide +kernel : ∀ t : Fin grid0.N, cond0_1 (grid0.coords t) ↔ t.val % 13 < 12)

abbrev cond0_2 (i : grid0.Coords) : Prop := k0_cond3 i = 1#1

theorem hcond0_2 : ∀ t : Fin cfg0.N, cond0_2 (grid0.coords t) ↔ t.val % 13 = 12 :=
  (by decide +kernel : ∀ t : Fin grid0.N, cond0_2 (grid0.coords t) ↔ t.val % 13 = 12)

theorem liveAt0_0 : ∀ t : Fin cfg0.N, cfg0.idle 0 (grid0.coords t) = false := by decide +kernel

theorem liveAt0_1 : ∀ t : Fin cfg0.N, cfg0.idle 1 (grid0.coords t) = false := by decide +kernel
theorem idleAt0 : ∀ t : Fin cfg0.N, t.val % 13 ≠ 12 → (cfg0.idle 2 (grid0.coords t) = true ∧ (cfg0.win 2).flush t = false)
    ∧ (cfg0.idle 3 (grid0.coords t) = true ∧ (cfg0.win 3).flush t = false) := by decide +kernel
theorem liveAt0 : ∀ t : Fin cfg0.N, t.val % 13 = 12 → cfg0.idle 2 (grid0.coords t) = false ∧ cfg0.idle 3 (grid0.coords t) = false := by decide +kernel

abbrev VO0_2 : View sig .tc .vmem S1x128x1 .f32 := (Memref.whole cc0_stg2_0 : Memref sig .tc .vmem S1x128x1 .f32).view

abbrev VO0_3 : View sig .tc .vmem S1x128x1 .f32 := (Memref.whole cc0_stg3_0 : Memref sig .tc .vmem S1x128x1 .f32).view

abbrev ms0_0 (t : Fin cfg0.N) : Memref sig .tc .vmem S1x128x12288 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x1 .f32 := win0_3.stage (cfg0.slots t 3)
abbrev hs0_3 (t : Fin cfg0.N) : (ms0_3 t).IsWhole := hstage0_3 ((cfg0.slots t 3).cast nbuf0_3)

abbrev scM0_0 : Memref sig .tc .vmem S128x1 .f32 := Memref.whole cc0_scratch0

abbrev VS0_0 : View sig .tc .vmem S128x1 .f32 := scM0_0.view

abbrev scM0_1 : Memref sig .tc .vmem S128x1 .f32 := Memref.whole cc0_scratch1

abbrev VS0_1 : View sig .tc .vmem S128x1 .f32 := scM0_1.view

abbrev scM0_2 : Memref sig .tc .vmem S128x1 .f32 := Memref.whole cc0_scratch2

abbrev VS0_2 : View sig .tc .vmem S128x1 .f32 := scM0_2.view

abbrev scM0_3 : Memref sig .tc .vmem S128x1 .f32 := Memref.whole cc0_scratch3

abbrev VS0_3 : View sig .tc .vmem S128x1 .f32 := scM0_3.view

/-- The eight whole buffers the body is called on: one per window, then the four row statistics. -/
structure Bufs where
  arg3 : Memref sig .tc .vmem S1x128x12288 .f32
  harg3 : arg3.IsWhole
  arg4 : Memref sig .tc .vmem S128x1 .f32
  harg4 : arg4.IsWhole
  arg5 : Memref sig .tc .vmem S1x128x1 .f32
  harg5 : arg5.IsWhole
  arg6 : Memref sig .tc .vmem S1x128x1 .f32
  harg6 : arg6.IsWhole
  arg7 : Memref sig .tc .vmem S128x1 .f32
  harg7 : arg7.IsWhole
  arg8 : Memref sig .tc .vmem S128x1 .f32
  harg8 : arg8.IsWhole
  arg9 : Memref sig .tc .vmem S128x1 .f32
  harg9 : arg9.IsWhole
  arg10 : Memref sig .tc .vmem S128x1 .f32
  harg10 : arg10.IsWhole

/-- The buffers the body is called on at point `t`. -/
abbrev bufsAt (t : Fin cfg0.N) : Bufs :=
  ⟨ms0_0 t, hs0_0 t, ms0_1 t, hs0_1 t, ms0_2 t, hs0_2 t, ms0_3 t, hs0_3 t, scM0_0, Memref.isWhole_whole _, scM0_1, Memref.isWhole_whole _,
    scM0_2, Memref.isWhole_whole _, scM0_3, Memref.isWhole_whole _⟩

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Fr

end
-- ==== Proof.K.RunA.lean ====
import proofs.«429975_j11527692223274_3_alg».proof.Proof.K.Conds

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun0_A (c : Dev nD) (i : grid0.Coords) (B : Bufs) (hc0 : cond0_0 i) (hc1 : cond0_1 i) (hc2 : ¬cond0_2 i)
    (x0 : Vec F S1x128x12288 .f32) (x1 : Vec F S128x1 .f32) :
    Σ' (L2 : List (View.Piece (Elt F) S1x128x1 .f32)) (L3 : List (View.Piece (Elt F) S1x128x1 .f32)) (LS0 : List (View.Piece (Elt F) S128x1 .f32)) (LS1 : List (View.Piece (Elt F) S128x1 .f32)) (LS2 : List (View.Piece (Elt F) S128x1 .f32)), { LS3 : List (View.Piece (Elt F) S128x1 .f32) //
      ∀ (xi2 : Vec F S1x128x1 .f32) (xi3 : Vec F S1x128x1 .f32) (E : Set ℕ) (K : PUnit → sProp 𝕄),
        iprop(owns (c : Thread nD τ) B.arg3 fullShare x0 ∗ owns (c : Thread nD τ) B.arg4 fullShare x1 ∗ owns (c : Thread nD τ) B.arg5 fullShare xi2 ∗ owns (c : Thread nD τ) B.arg6 fullShare xi3 ∗ (∃ d, owns (c : Thread nD τ) B.arg7 fullShare d) ∗ (∃ d, owns (c : Thread nD τ) B.arg8 fullShare d) ∗ (∃ d, owns (c : Thread nD τ) B.arg9 fullShare d) ∗ (∃ d, owns (c : Thread nD τ) B.arg10 fullShare d)
            ∗ (iprop(owns (c : Thread nD τ) B.arg3 fullShare x0 ∗ owns (c : Thread nD τ) B.arg4 fullShare x1 ∗ owns (c : Thread nD τ) B.arg5 fullShare xi2 ∗ owns (c : Thread nD τ) B.arg6 fullShare xi3 ∗ (∃ f, B.arg7.view.loc (c : Thread nD τ) ↦[B.arg7.view.set]{fullShare} B.arg7.view.writes (Elt F) f LS0) ∗ (∃ f, B.arg8.view.loc (c : Thread nD τ) ↦[B.arg8.view.set]{fullShare} B.arg8.view.writes (Elt F) f LS1) ∗ (∃ f, B.arg9.view.loc (c : Thread nD τ) ↦[B.arg9.view.set]{fullShare} B.arg9.view.writes (Elt F) f LS2) ∗ (∃ f, B.arg10.view.loc (c : Thread nD τ) ↦[B.arg10.view.set]{fullShare} B.arg10.view.writes (Elt F) f LS3)) -∗ K ⟨⟩))
          ⊢ wp frame (wpE (defs₀ (F := F)) Variants.none c none) E (cc0__ce_kl_kernel i B.arg3 B.harg3 B.arg4 B.harg4 B.arg5 B.harg5 B.arg6 B.harg6 B.arg7 B.harg7 B.arg8 B.harg8 B.arg9 B.harg9 B.arg10 B.harg10) K } := by
  refine ⟨[], [], ?_, ?_, ?_, ?_, fun xi2 xi3 E K => ?run⟩
  case run =>
    simp only [cc0__ce_kl_kernel_eq_skeleton]; unfold cc0__ce_kl_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, Hk⟩
    obtain rfl := B.harg3.eq_unread hf0; obtain rfl := B.harg4.eq_unread hf1; obtain rfl := B.harg5.eq_unread hf2; obtain rfl := B.harg6.eq_unread hf3
    sl_exec (disch := first | sl_exact hc0 | sl_exact hc1 | sl_exact hc2)
    sl_step
    iapply Hk
    isplitl [H0]
    · iexists _; isplitr; · ipureintro; exact B.harg3.read_unread _
      iexact H0
    isplitl [H1]
    · iexists _; isplitr; · ipureintro; exact B.harg4.read_unread _
      iexact H1
    isplitl [H2]
    · iexists _; isplitr; · ipureintro; exact B.harg5.read_unread _
      iexact H2
    isplitl [H3]
    · iexists _; isplitr; · ipureintro; exact B.harg6.read_unread _
      iexact H3
    isplitl [HS0]; · iexists _; iexact HS0
    isplitl [HS1]; · iexists _; iexact HS1
    isplitl [HS2]; · iexists _; iexact HS2
    iexists _; iexact HS3

end Cert.Kernel.Fr

end
-- ==== Proof.K.RunB.lean ====
import proofs.«429975_j11527692223274_3_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun0_B (c : Dev nD) (i : grid0.Coords) (B : Bufs) (hc0 : ¬cond0_0 i) (hc1 : cond0_1 i) (hc2 : ¬cond0_2 i)
    (x0 : Vec F S1x128x12288 .f32) (x1 : Vec F S128x1 .f32) (xs0 : Vec F S128x1 .f32) (xs1 : Vec F S128x1 .f32) (xs2 : Vec F S128x1 .f32) (xs3 : Vec F S128x1 .f32) :
    Σ' (L2 : List (View.Piece (Elt F) S1x128x1 .f32)) (L3 : List (View.Piece (Elt F) S1x128x1 .f32)) (LS0 : List (View.Piece (Elt F) S128x1 .f32)) (LS1 : List (View.Piece (Elt F) S128x1 .f32)) (LS2 : List (View.Piece (Elt F) S128x1 .f32)), { LS3 : List (View.Piece (Elt F) S128x1 .f32) //
      ∀ (xi2 : Vec F S1x128x1 .f32) (xi3 : Vec F S1x128x1 .f32) (E : Set ℕ) (K : PUnit → sProp 𝕄),
        iprop(owns (c : Thread nD τ) B.arg3 fullShare x0 ∗ owns (c : Thread nD τ) B.arg4 fullShare x1 ∗ owns (c : Thread nD τ) B.arg5 fullShare xi2 ∗ owns (c : Thread nD τ) B.arg6 fullShare xi3 ∗ owns (c : Thread nD τ) B.arg7 fullShare xs0 ∗ owns (c : Thread nD τ) B.arg8 fullShare xs1 ∗ owns (c : Thread nD τ) B.arg9 fullShare xs2 ∗ owns (c : Thread nD τ) B.arg10 fullShare xs3
            ∗ (iprop(owns (c : Thread nD τ) B.arg3 fullShare x0 ∗ owns (c : Thread nD τ) B.arg4 fullShare x1 ∗ owns (c : Thread nD τ) B.arg5 fullShare xi2 ∗ owns (c : Thread nD τ) B.arg6 fullShare xi3 ∗ (∃ f, B.arg7.view.loc (c : Thread nD τ) ↦[B.arg7.view.set]{fullShare} B.arg7.view.writes (Elt F) f LS0) ∗ (∃ f, B.arg8.view.loc (c : Thread nD τ) ↦[B.arg8.view.set]{fullShare} B.arg8.view.writes (Elt F) f LS1) ∗ (∃ f, B.arg9.view.loc (c : Thread nD τ) ↦[B.arg9.view.set]{fullShare} B.arg9.view.writes (Elt F) f LS2) ∗ (∃ f, B.arg10.view.loc (c : Thread nD τ) ↦[B.arg10.view.set]{fullShare} B.arg10.view.writes (Elt F) f LS3)) -∗ K ⟨⟩))
          ⊢ wp frame (wpE (defs₀ (F := F)) Variants.none c none) E (cc0__ce_kl_kernel i B.arg3 B.harg3 B.arg4 B.harg4 B.arg5 B.harg5 B.arg6 B.harg6 B.arg7 B.harg7 B.arg8 B.harg8 B.arg9 B.harg9 B.arg10 B.harg10) K } := by
  refine ⟨[], [], ?_, ?_, ?_, ?_, fun xi2 xi3 E K => ?run⟩
  case run =>
    simp only [cc0__ce_kl_kernel_eq_skeleton]; unfold cc0__ce_kl_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := B.harg3.eq_unread hf0; obtain rfl := B.harg4.eq_unread hf1; obtain rfl := B.harg5.eq_unread hf2; obtain rfl := B.harg6.eq_unread hf3
    obtain rfl := B.harg7.eq_unread hfs0; obtain rfl := B.harg8.eq_unread hfs1; obtain rfl := B.harg9.eq_unread hfs2; obtain rfl := B.harg10.eq_unread hfs3
    sl_exec (disch := first | sl_exact hc0 | sl_exact hc1 | sl_exact hc2)
    sl_step
    iapply Hk
    isplitl [H0]
    · iexists _; isplitr; · ipureintro; exact B.harg3.read_unread _
      iexact H0
    isplitl [H1]
    · iexists _; isplitr; · ipureintro; exact B.harg4.read_unread _
      iexact H1
    isplitl [H2]
    · iexists _; isplitr; · ipureintro; exact B.harg5.read_unread _
      iexact H2
    isplitl [H3]
    · iexists _; isplitr; · ipureintro; exact B.harg6.read_unread _
      iexact H3
    isplitl [HS0]; · iexists _; iexact HS0
    isplitl [HS1]; · iexists _; iexact HS1
    isplitl [HS2]; · iexists _; iexact HS2
    iexists _; iexact HS3

end Cert.Kernel.Fr

end
-- ==== Proof.K.RunC.lean ====
import proofs.«429975_j11527692223274_3_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun0_C (c : Dev nD) (i : grid0.Coords) (B : Bufs) (hc0 : ¬cond0_0 i) (hc1 : ¬cond0_1 i) (hc2 : cond0_2 i)
    (x0 : Vec F S1x128x12288 .f32) (x1 : Vec F S128x1 .f32) (xs0 : Vec F S128x1 .f32) (xs1 : Vec F S128x1 .f32) (xs2 : Vec F S128x1 .f32) (xs3 : Vec F S128x1 .f32) :
    Σ' (L2 : List (View.Piece (Elt F) S1x128x1 .f32)) (L3 : List (View.Piece (Elt F) S1x128x1 .f32)) (LS0 : List (View.Piece (Elt F) S128x1 .f32)) (LS1 : List (View.Piece (Elt F) S128x1 .f32)) (LS2 : List (View.Piece (Elt F) S128x1 .f32)), { LS3 : List (View.Piece (Elt F) S128x1 .f32) //
      ∀ (E : Set ℕ) (K : PUnit → sProp 𝕄),
        iprop(owns (c : Thread nD τ) B.arg3 fullShare x0 ∗ owns (c : Thread nD τ) B.arg4 fullShare x1 ∗ (∃ d, owns (c : Thread nD τ) B.arg5 fullShare d) ∗ (∃ d, owns (c : Thread nD τ) B.arg6 fullShare d) ∗ owns (c : Thread nD τ) B.arg7 fullShare xs0 ∗ owns (c : Thread nD τ) B.arg8 fullShare xs1 ∗ owns (c : Thread nD τ) B.arg9 fullShare xs2 ∗ owns (c : Thread nD τ) B.arg10 fullShare xs3
            ∗ (iprop(owns (c : Thread nD τ) B.arg3 fullShare x0 ∗ owns (c : Thread nD τ) B.arg4 fullShare x1 ∗ (∃ f, B.arg5.view.loc (c : Thread nD τ) ↦[B.arg5.view.set]{fullShare} B.arg5.view.writes (Elt F) f L2) ∗ (∃ f, B.arg6.view.loc (c : Thread nD τ) ↦[B.arg6.view.set]{fullShare} B.arg6.view.writes (Elt F) f L3) ∗ (∃ f, B.arg7.view.loc (c : Thread nD τ) ↦[B.arg7.view.set]{fullShare} B.arg7.view.writes (Elt F) f LS0) ∗ (∃ f, B.arg8.view.loc (c : Thread nD τ) ↦[B.arg8.view.set]{fullShare} B.arg8.view.writes (Elt F) f LS1) ∗ (∃ f, B.arg9.view.loc (c : Thread nD τ) ↦[B.arg9.view.set]{fullShare} B.arg9.view.writes (Elt F) f LS2) ∗ (∃ f, B.arg10.view.loc (c : Thread nD τ) ↦[B.arg10.view.set]{fullShare} B.arg10.view.writes (Elt F) f LS3)) -∗ K ⟨⟩))
          ⊢ wp frame (wpE (defs₀ (F := F)) Variants.none c none) E (cc0__ce_kl_kernel i B.arg3 B.harg3 B.arg4 B.harg4 B.arg5 B.harg5 B.arg6 B.harg6 B.arg7 B.harg7 B.arg8 B.harg8 B.arg9 B.harg9 B.arg10 B.harg10) K } := by
  refine ⟨?_, ?_, ?_, ?_, ?_, ?_, fun E K => ?run⟩
  case run =>
    simp only [cc0__ce_kl_kernel_eq_skeleton]; unfold cc0__ce_kl_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, ⟨%fs2, %hfs2, HS2⟩, ⟨%fs3, %hfs3, HS3⟩, Hk⟩
    obtain rfl := B.harg3.eq_unread hf0; obtain rfl := B.harg4.eq_unread hf1
    obtain rfl := B.harg7.eq_unread hfs0; obtain rfl := B.harg8.eq_unread hfs1; obtain rfl := B.harg9.eq_unread hfs2; obtain rfl := B.harg10.eq_unread hfs3
    sl_exec (disch := first | sl_exact hc0 | sl_exact hc1 | sl_exact hc2)
    sl_step
    iapply Hk
    isplitl [H0]
    · iexists _; isplitr; · ipureintro; exact B.harg3.read_unread _
      iexact H0
    isplitl [H1]
    · iexists _; isplitr; · ipureintro; exact B.harg4.read_unread _
      iexact H1
    isplitl [H2]; · iexists _; iexact H2
    isplitl [H3]; · iexists _; iexact H3
    isplitl [HS0]; · iexists _; iexact HS0
    isplitl [HS1]; · iexists _; iexact HS1
    isplitl [HS2]; · iexists _; iexact HS2
    iexists _; iexact HS3

end Cert.Kernel.Fr

end
-- ==== Proof.K.Outs.lean ====
import proofs.«429975_j11527692223274_3_alg».proof.Proof.K.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The two result blocks, then the four row statistics. -/
abbrev Outs6 (F : FTy → Type) : Type :=
  Vec F S1x128x1 .f32 × Vec F S1x128x1 .f32 × Vec F S128x1 .f32 × Vec F S128x1 .f32 × Vec F S128x1 .f32 × Vec F S128x1 .f32

variable (c : Dev nD) (i : grid0.Coords) (B : Bufs)

section A
variable (hc0 : cond0_0 i) (hc1 : cond0_1 i) (hc2 : ¬cond0_2 i) (x0 : Vec F S1x128x12288 .f32) (x1 : Vec F S128x1 .f32)

def out0_A_2 : Vec F S1x128x1 .f32 := VO0_2.read (Elt F) (VO0_2.writes (Elt F) VO0_2.junk (kernelRun0_A c i B hc0 hc1 hc2 x0 x1).1)
def out0_A_3 : Vec F S1x128x1 .f32 := VO0_3.read (Elt F) (VO0_3.writes (Elt F) VO0_3.junk (kernelRun0_A c i B hc0 hc1 hc2 x0 x1).2.1)
theorem scover0_A_0 (y : S128x1.Idx) : ∃ pc ∈ (kernelRun0_A c i B hc0 hc1 hc2 x0 x1).2.2.1, y ∈ pc.1.set :=
  View.cover_of_tiledL _ S128x1.size (by sl_kernel_rfl) y
def sout0_A_0 : Vec F S128x1 .f32 := VS0_0.read (Elt F) (VS0_0.writes (Elt F) VS0_0.junk (kernelRun0_A c i B hc0 hc1 hc2 x0 x1).2.2.1)
theorem scover0_A_1 (y : S128x1.Idx) : ∃ pc ∈ (kernelRun0_A c i B hc0 hc1 hc2 x0 x1).2.2.2.1, y ∈ pc.1.set :=
  View.cover_of_tiledL _ S128x1.size (by sl_kernel_rfl) y
def sout0_A_1 : Vec F S128x1 .f32 := VS0_1.read (Elt F) (VS0_1.writes (Elt F) VS0_1.junk (kernelRun0_A c i B hc0 hc1 hc2 x0 x1).2.2.2.1)
theorem scover0_A_2 (y : S128x1.Idx) : ∃ pc ∈ (kernelRun0_A c i B hc0 hc1 hc2 x0 x1).2.2.2.2.1, y ∈ pc.1.set :=
  View.cover_of_tiledL _ S128x1.size (by sl_kernel_rfl) y
def sout0_A_2 : Vec F S128x1 .f32 := VS0_2.read (Elt F) (VS0_2.writes (Elt F) VS0_2.junk (kernelRun0_A c i B hc0 hc1 hc2 x0 x1).2.2.2.2.1)
theorem scover0_A_3 (y : S128x1.Idx) : ∃ pc ∈ (kernelRun0_A c i B hc0 hc1 hc2 x0 x1).2.2.2.2.2.1, y ∈ pc.1.set :=
  View.cover_of_tiledL _ S128x1.size (by sl_kernel_rfl) y
def sout0_A_3 : Vec F S128x1 .f32 := VS0_3.read (Elt F) (VS0_3.writes (Elt F) VS0_3.junk (kernelRun0_A c i B hc0 hc1 hc2 x0 x1).2.2.2.2.2.1)
def outsA : Outs6 F :=
  (out0_A_2 c i B hc0 hc1 hc2 x0 x1, out0_A_3 c i B hc0 hc1 hc2 x0 x1, sout0_A_0 c i B hc0 hc1 hc2 x0 x1,
   sout0_A_1 c i B hc0 hc1 hc2 x0 x1, sout0_A_2 c i B hc0 hc1 hc2 x0 x1, sout0_A_3 c i B hc0 hc1 hc2 x0 x1)

end A

section B
variable (hc0 : ¬cond0_0 i) (hc1 : cond0_1 i) (hc2 : ¬cond0_2 i) (x0 : Vec F S1x128x12288 .f32) (x1 : Vec F S128x1 .f32) (xs0 xs1 xs2 xs3 : Vec F S128x1 .f32)

def out0_B_2 : Vec F S1x128x1 .f32 := VO0_2.read (Elt F) (VO0_2.writes (Elt F) VO0_2.junk (kernelRun0_B c i B hc0 hc1 hc2 x0 x1 xs0 xs1 xs2 xs3).1)
def out0_B_3 : Vec F S1x128x1 .f32 := VO0_3.read (Elt F) (VO0_3.writes (Elt F) VO0_3.junk (kernelRun0_B c i B hc0 hc1 hc2 x0 x1 xs0 xs1 xs2 xs3).2.1)
theorem scover0_B_0 (y : S128x1.Idx) : ∃ pc ∈ (kernelRun0_B c i B hc0 hc1 hc2 x0 x1 xs0 xs1 xs2 xs3).2.2.1, y ∈ pc.1.set :=
  View.cover_of_tiledL _ S128x1.size (by sl_kernel_rfl) y
def sout0_B_0 : Vec F S128x1 .f32 := VS0_0.read (Elt F) (VS0_0.writes (Elt F) VS0_0.junk (kernelRun0_B c i B hc0 hc1 hc2 x0 x1 xs0 xs1 xs2 xs3).2.2.1)
theorem scover0_B_1 (y : S128x1.Idx) : ∃ pc ∈ (kernelRun0_B c i B hc0 hc1 hc2 x0 x1 xs0 xs1 xs2 xs3).2.2.2.1, y ∈ pc.1.set :=
  View.cover_of_tiledL _ S128x1.size (by sl_kernel_rfl) y
def sout0_B_1 : Vec F S128x1 .f32 := VS0_1.read (Elt F) (VS0_1.writes (Elt F) VS0_1.junk (kernelRun0_B c i B hc0 hc1 hc2 x0 x1 xs0 xs1 xs2 xs3).2.2.2.1)
theorem scover0_B_2 (y : S128x1.Idx) : ∃ pc ∈ (kernelRun0_B c i B hc0 hc1 hc2 x0 x1 xs0 xs1 xs2 xs3).2.2.2.2.1, y ∈ pc.1.set :=
  View.cover_of_tiledL _ S128x1.size (by sl_kernel_rfl) y
def sout0_B_2 : Vec F S128x1 .f32 := VS0_2.read (Elt F) (VS0_2.writes (Elt F) VS0_2.junk (kernelRun0_B c i B hc0 hc1 hc2 x0 x1 xs0 xs1 xs2 xs3).2.2.2.2.1)
theorem scover0_B_3 (y : S128x1.Idx) : ∃ pc ∈ (kernelRun0_B c i B hc0 hc1 hc2 x0 x1 xs0 xs1 xs2 xs3).2.2.2.2.2.1, y ∈ pc.1.set :=
  View.cover_of_tiledL _ S128x1.size (by sl_kernel_rfl) y
def sout0_B_3 : Vec F S128x1 .f32 := VS0_3.read (Elt F) (VS0_3.writes (Elt F) VS0_3.junk (kernelRun0_B c i B hc0 hc1 hc2 x0 x1 xs0 xs1 xs2 xs3).2.2.2.2.2.1)
def outsB : Outs6 F :=
  (out0_B_2 c i B hc0 hc1 hc2 x0 x1 xs0 xs1 xs2 xs3, out0_B_3 c i B hc0 hc1 hc2 x0 x1 xs0 xs1 xs2 xs3, sout0_B_0 c i B hc0 hc1 hc2 x0 x1 xs0 xs1 xs2 xs3,
   sout0_B_1 c i B hc0 hc1 hc2 x0 x1 xs0 xs1 xs2 xs3, sout0_B_2 c i B hc0 hc1 hc2 x0 x1 xs0 xs1 xs2 xs3, sout0_B_3 c i B hc0 hc1 hc2 x0 x1 xs0 xs1 xs2 xs3)

end B

section C
variable (hc0 : ¬cond0_0 i) (hc1 : ¬cond0_1 i) (hc2 : cond0_2 i) (x0 : Vec F S1x128x12288 .f32) (x1 : Vec F S128x1 .f32) (xs0 xs1 xs2 xs3 : Vec F S128x1 .f32)

-- The stores of the last step tile every buffer, so reading the pieces back is reading the last store at each index.
theorem cover0_C_2 (y : S1x128x1.Idx) : ∃ pc ∈ (kernelRun0_C c i B hc0 hc1 hc2 x0 x1 xs0 xs1 xs2 xs3).1, y ∈ pc.1.set :=
  View.cover_of_tiledL _ S1x128x1.size (by sl_kernel_rfl) y
def out0_C_2 : Vec F S1x128x1 .f32 := VO0_2.read (Elt F) (VO0_2.writes (Elt F) VO0_2.junk (kernelRun0_C c i B hc0 hc1 hc2 x0 x1 xs0 xs1 xs2 xs3).1)
theorem cover0_C_3 (y : S1x128x1.Idx) : ∃ pc ∈ (kernelRun0_C c i B hc0 hc1 hc2 x0 x1 xs0 xs1 xs2 xs3).2.1, y ∈ pc.1.set :=
  View.cover_of_tiledL _ S1x128x1.size (by sl_kernel_rfl) y
def out0_C_3 : Vec F S1x128x1 .f32 := VO0_3.read (Elt F) (VO0_3.writes (Elt F) VO0_3.junk (kernelRun0_C c i B hc0 hc1 hc2 x0 x1 xs0 xs1 xs2 xs3).2.1)
theorem scover0_C_0 (y : S128x1.Idx) : ∃ pc ∈ (kernelRun0_C c i B hc0 hc1 hc2 x0 x1 xs0 xs1 xs2 xs3).2.2.1, y ∈ pc.1.set :=
  View.cover_of_tiledL _ S128x1.size (by sl_kernel_rfl) y
def sout0_C_0 : Vec F S128x1 .f32 := VS0_0.read (Elt F) (VS0_0.writes (Elt F) VS0_0.junk (kernelRun0_C c i B hc0 hc1 hc2 x0 x1 xs0 xs1 xs2 xs3).2.2.1)
theorem scover0_C_1 (y : S128x1.Idx) : ∃ pc ∈ (kernelRun0_C c i B hc0 hc1 hc2 x0 x1 xs0 xs1 xs2 xs3).2.2.2.1, y ∈ pc.1.set :=
  View.cover_of_tiledL _ S128x1.size (by sl_kernel_rfl) y
def sout0_C_1 : Vec F S128x1 .f32 := VS0_1.read (Elt F) (VS0_1.writes (Elt F) VS0_1.junk (kernelRun0_C c i B hc0 hc1 hc2 x0 x1 xs0 xs1 xs2 xs3).2.2.2.1)
theorem scover0_C_2 (y : S128x1.Idx) : ∃ pc ∈ (kernelRun0_C c i B hc0 hc1 hc2 x0 x1 xs0 xs1 xs2 xs3).2.2.2.2.1, y ∈ pc.1.set :=
  View.cover_of_tiledL _ S128x1.size (by sl_kernel_rfl) y
def sout0_C_2 : Vec F S128x1 .f32 := VS0_2.read (Elt F) (VS0_2.writes (Elt F) VS0_2.junk (kernelRun0_C c i B hc0 hc1 hc2 x0 x1 xs0 xs1 xs2 xs3).2.2.2.2.1)
theorem scover0_C_3 (y : S128x1.Idx) : ∃ pc ∈ (kernelRun0_C c i B hc0 hc1 hc2 x0 x1 xs0 xs1 xs2 xs3).2.2.2.2.2.1, y ∈ pc.1.set :=
  View.cover_of_tiledL _ S128x1.size (by sl_kernel_rfl) y
def sout0_C_3 : Vec F S128x1 .f32 := VS0_3.read (Elt F) (VS0_3.writes (Elt F) VS0_3.junk (kernelRun0_C c i B hc0 hc1 hc2 x0 x1 xs0 xs1 xs2 xs3).2.2.2.2.2.1)
def outsC : Outs6 F :=
  (out0_C_2 c i B hc0 hc1 hc2 x0 x1 xs0 xs1 xs2 xs3, out0_C_3 c i B hc0 hc1 hc2 x0 x1 xs0 xs1 xs2 xs3, sout0_C_0 c i B hc0 hc1 hc2 x0 x1 xs0 xs1 xs2 xs3,
   sout0_C_1 c i B hc0 hc1 hc2 x0 x1 xs0 xs1 xs2 xs3, sout0_C_2 c i B hc0 hc1 hc2 x0 x1 xs0 xs1 xs2 xs3, sout0_C_3 c i B hc0 hc1 hc2 x0 x1 xs0 xs1 xs2 xs3)

end C

end Cert.Kernel.Fr

end
-- ==== Proof.K.Around.lean ====
import proofs.«429975_j11527692223274_3_alg».proof.Proof.Gen.Kernel.Launch
import proofs.«429975_j11527692223274_3_alg».proof.Proof.Gen.Kernel.Skeleton
import proofs.«429975_j11527692223274_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev tailOpss : List (List (HloOp τ sig (Elt F))) :=
  [hostOps1, hostOps1_1, hostOps1_2, hostOps1_3, hostOps1_4, hostOps1_5, hostOps1_6, hostOps1_7, hostOps1_8]

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [hostOps0] tailOpss (by simp only [List.Forall]; exact hostOps0_sub)
    (by simp only [List.Forall]; exact hostOps0_fresh) main_chain

theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

theorem sfx_fresh : ∀ ops ∈ (tailOpss : List (List (HloOp τ sig (Elt F)))), ∀ op ∈ ops, op.fresh = ∅ := by
  intro ops hops
  simp only [List.mem_cons, List.mem_nil_iff, or_false] at hops
  rcases hops with rfl | rfl | rfl | rfl | rfl | rfl | rfl | rfl | rfl <;>
    (refine List.forall_iff_forall_mem.mp ?_; simp only [List.Forall]; repeat' constructor)

/-- Each operation after the region writes its own result only, and those are the buffers numbered from 7 up. -/
theorem tail_keeps (b : Ref sig .tc) (hb : b.idx.val < 7) :
    ∀ op ∈ (tailOpss : List (List (HloOp τ sig (Elt F)))).flatten, Proc.devRef .tc b ∉ op.writes := by
  refine List.forall_iff_forall_mem.mp ?_
  simp only [tailOpss, hostOps1, hostOps1_1, hostOps1_2, hostOps1_3, hostOps1_4, hostOps1_5, hostOps1_6, hostOps1_7, hostOps1_8, List.flatten_cons, List.flatten_nil, List.append_nil, List.cons_append,
    List.nil_append, List.Forall, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton]
  repeat' apply And.intro
  all_goals
    intro e
    have h := Proc.devRef_injective _ e
    subst h
    exact absurd hb (by decide)

theorem sfx_keeps : ∀ ops ∈ (tailOpss : List (List (HloOp τ sig (Elt F)))), ∀ op ∈ ops,
    ∀ w, Proc.devRef .tc (Pipeline.arrRef spec0 w) ∉ op.writes :=
  fun ops hops op hop w => tail_keeps _ ((by decide : ∀ w, (Pipeline.arrRef spec0 w).idx.val < 7) w) op (List.mem_flatten.mpr ⟨ops, hops, hop⟩)

set_option maxHeartbeats 1000000 in
theorem V_main_arg0 (c : Dev nD) : V m c main_arg0 = m ((c : Thread nD τ).loc main_arg0) := by
  dsimp only [V, V0]; simp only [hostOps0, List.flatten_cons, List.flatten_nil, List.append_nil]; after_results
set_option maxHeartbeats 1000000 in
theorem V_main_arg1 (c : Dev nD) : V m c main_arg1 = m ((c : Thread nD τ).loc main_arg1) := by
  dsimp only [V, V0]; simp only [hostOps0, List.flatten_cons, List.flatten_nil, List.append_nil]; after_results
set_option maxHeartbeats 1000000 in
theorem V_main_arg2 (c : Dev nD) : V m c main_arg2 = m ((c : Thread nD τ).loc main_arg2) := by
  dsimp only [V, V0]; simp only [hostOps0, List.flatten_cons, List.flatten_nil, List.append_nil]; after_results
set_option maxHeartbeats 1000000 in
theorem V_main_arg3 (c : Dev nD) : V m c main_arg3 = m ((c : Thread nD τ).loc main_arg3) := by
  dsimp only [V, V0]; simp only [hostOps0, List.flatten_cons, List.flatten_nil, List.append_nil]; after_results

theorem V_main_v0 (c : Dev nD) : (V m c main_v0 : S512x1.Idx → Elt F .f32)
    = broadcastInDim S512x1 ![0] bcast_S512_S512x1_0 (m ((c : Thread nD τ).loc main_arg1)) := by
  dsimp only [V, V0]; simp only [hostOps0, List.flatten_cons, List.flatten_nil, List.append_nil]; after_results

theorem W_keeps (dats : (p : Fin _) → (c : Dev nD) → Dat τ (Elt F) Unit ℕ (UR sig nD τ) ℕ (cfgs p) c) (c : Dev nD) (b : Ref sig .tc)
    (hb : b.idx.val < 7) (hne : ∀ w, Pipeline.arrRef spec0 w ≠ b) :
    Pipeline.afterTail₀ cfgs dats 0 (V0 m) tailOpss c b = V m c b := by
  unfold Pipeline.afterTail₀
  rw [StableHlo.after_of_forall_not_mem _ _ (tail_keeps b hb), Pipeline.withArrays_of_ne _ c (V0 m c) _ b hne]

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans ((W_keeps m dats c main_arg1 (by decide) (by decide)).trans (V_main_arg1 m c)),
     ((h c).2 main_arg2 (Pipeline.mem_restRefs_of main_arg2 (by decide) (by decide))).trans ((W_keeps m dats c main_arg2 (by decide) (by decide)).trans (V_main_arg2 m c)),
     ((h c).2 main_arg3 (Pipeline.mem_restRefs_of main_arg3 (by decide) (by decide))).trans ((W_keeps m dats c main_arg3 (by decide) (by decide)).trans (V_main_arg3 m c))⟩) h

end Cert.Kernel.Fr

end
-- ==== Proof.K.FrameDefs.lean ====
import proofs.«429975_j11527692223274_3_alg».proof.Proof.K.Outs
import proofs.«429975_j11527692223274_3_alg».proof.Proof.K.Around

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

def xfill (c : Dev nD) (t : Fin cfg0.N) : Vec F S1x128x12288 .f32 :=
  win0_0.fill (grid0.coords t) (fun _ => Scalar.ofBits .f32 0#32) (iblk m c 0 t)

def stepA (c : Dev nD) (t : Fin cfg0.N) (h0 : t.val % 13 = 0) : Outs6 F :=
  outsA c (grid0.coords t) (bufsAt t) ((hcond0_0 t).mpr h0) ((hcond0_1 t).mpr (by omega)) (fun h => by have := (hcond0_2 t).mp h; omega) (xfill m c t) (iblk m c 1 t)

def stepB (c : Dev nD) (t : Fin cfg0.N) (h0 : ¬t.val % 13 = 0) (h1 : t.val % 13 < 12) (prev : Outs6 F) : Outs6 F :=
  outsB c (grid0.coords t) (bufsAt t) (fun h => h0 ((hcond0_0 t).mp h)) ((hcond0_1 t).mpr h1) (fun h => by have := (hcond0_2 t).mp h; omega) (xfill m c t) (iblk m c 1 t) prev.2.2.1 prev.2.2.2.1 prev.2.2.2.2.1 prev.2.2.2.2.2

def stepC (c : Dev nD) (t : Fin cfg0.N) (h2 : t.val % 13 = 12) (prev : Outs6 F) : Outs6 F :=
  outsC c (grid0.coords t) (bufsAt t) (fun h => by have := (hcond0_0 t).mp h; omega) (fun h => by have := (hcond0_1 t).mp h; omega) ((hcond0_2 t).mpr h2) (xfill m c t) (iblk m c 1 t) prev.2.2.1 prev.2.2.2.1 prev.2.2.2.2.1 prev.2.2.2.2.2

def outsAt0 (c : Dev nD) : (n : ℕ) → n < cfg0.N → Outs6 F
  | 0, hn => stepA m c ⟨0, hn⟩ (Nat.zero_mod _)
  | n + 1, hn =>
    if h0 : (n + 1) % 13 = 0 then stepA m c ⟨n + 1, hn⟩ h0
    else if h2 : (n + 1) % 13 = 12 then stepC m c ⟨n + 1, hn⟩ h2 (outsAt0 c n (Nat.lt_of_succ_lt hn))
    else stepB m c ⟨n + 1, hn⟩ h0 (by show (n + 1) % 13 < 12; have := Nat.mod_lt (n + 1) (show 0 < 13 by decide); omega) (outsAt0 c n (Nat.lt_of_succ_lt hn))

theorem outsAt0_A (c : Dev nD) (t : Fin cfg0.N) (h0 : t.val % 13 = 0) :
    outsAt0 m c t.val t.isLt = stepA m c t h0 := by
  obtain ⟨n, hn⟩ := t
  cases n with
  | zero => rfl
  | succ n => exact dif_pos h0

theorem outsAt0_B (c : Dev nD) (t : Fin cfg0.N) (h0 : ¬t.val % 13 = 0) (h1 : t.val % 13 < 12) :
    outsAt0 m c t.val t.isLt = stepB m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_neg (by dsimp only at h1 ⊢; omega))

theorem outsAt0_C (c : Dev nD) (t : Fin cfg0.N) (h2 : t.val % 13 = 12) :
    outsAt0 m c t.val t.isLt = stepC m c t h2 (outsAt0 m c (t.val - 1) (Nat.lt_of_le_of_lt (Nat.sub_le _ _) t.isLt)) := by
  obtain ⟨n, hn⟩ := t
  cases n with
  | zero => exact absurd h2 (by show ¬(0 % 13 = 12); decide)
  | succ n => exact (dif_neg (by dsimp only at h2 ⊢; omega)).trans (dif_pos h2)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2.1) ∗ owns (c : Thread nD τ) scM0_3 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2.1) ∗ owns (c : Thread nD τ) scM0_3 fullShare ((outsAt0 m c n hn).2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1) ∗ owns (c : Thread nD τ) scM0_2 fullShare ((outsAt0 m c (n - 1) (by omega)).2.2.2.2.1) ∗ owns (c : Thread nD τ) scM0_3 fullShare ((outsAt0 m c (n - 1) (by omega)).2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => xfill m c t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = xfill m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

theorem before0_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk; rw [A_eq]

theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

end Cert.Kernel.Fr

end
-- ==== Proof.K.Pieces.lean ====
import proofs.«429975_j11527692223274_3_alg».proof.Proof.K.Outs
import Idealize.ShloMosaic.Lib.Pipeline.Value
import Mathlib.Tactic.FinCases

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := funext fun a => by fin_cases a <;> rfl

theorem hz3 : (![0, 0, 0] : Fin 3 → Nat) = fun _ => 0 := funext fun a => by fin_cases a <;> rfl

abbrev v5of (i : grid0.Coords) : BitVec 32 := Scalar.muli (BitVec.ofNat 32 (i 2).val) 12288#32

variable (c : Dev nD) (i : grid0.Coords) (B : Bufs)

-- Each buffer's pieces, read back, are one payload of the loaded blocks and of the statistics the step before left:
-- a buffer stored once holds that store's payload; one reset and then updated holds the update, which read the reset value.

section C
variable (hc0 : ¬cond0_0 i) (hc1 : ¬cond0_1 i) (hc2 : cond0_2 i) (x0 : Vec F S1x128x12288 .f32) (x1 : Vec F S128x1 .f32) (xs0 xs1 xs2 xs3 : Vec F S128x1 .f32)

theorem sout0_C_0_eq :
    sout0_C_0 c i B hc0 hc1 hc2 x0 x1 xs0 xs1 xs2 xs3 = k0_pay20 (k0_pay15 (k0_pay5 x0) (v5of i) xs0) := by
  unfold sout0_C_0
  rw [View.read_writes_eq_canon _ _ _ (scover0_C_0 c i B hc0 hc1 hc2 x0 x1 xs0 xs1 xs2 xs3)]
  unfold kernelRun0_C
  dsimp only
  sl_unfold_words
  rw [View.canon_unit_zero hz2]
  simp only [View.readAt_eq_ld, B.harg3.read_unread, B.harg7.read_unread, View.ld_unit_zero (S := S128x1) hz2, View.ld_unit_zero (S := S1x128x12288) hz3]

theorem sout0_C_1_eq :
    sout0_C_1 c i B hc0 hc1 hc2 x0 x1 xs0 xs1 xs2 xs3 = k0_pay17 (k0_pay5 x0) (v5of i) xs0 xs0 xs1 := by
  unfold sout0_C_1
  rw [View.read_writes_eq_canon _ _ _ (scover0_C_1 c i B hc0 hc1 hc2 x0 x1 xs0 xs1 xs2 xs3)]
  unfold kernelRun0_C
  dsimp only
  sl_unfold_words
  rw [View.canon_unit_zero hz2]
  simp only [View.readAt_eq_ld, B.harg3.read_unread, B.harg7.read_unread, B.harg8.read_unread, View.ld_unit_zero (S := S128x1) hz2, View.ld_unit_zero (S := S1x128x12288) hz3]

theorem sout0_C_2_eq :
    sout0_C_2 c i B hc0 hc1 hc2 x0 x1 xs0 xs1 xs2 xs3 = k0_pay19 (k0_pay18 (k0_pay5 x0) (v5of i) xs0 xs0 xs2) := by
  unfold sout0_C_2
  rw [View.read_writes_eq_canon _ _ _ (scover0_C_2 c i B hc0 hc1 hc2 x0 x1 xs0 xs1 xs2 xs3)]
  unfold kernelRun0_C
  dsimp only
  sl_unfold_words
  rw [View.canon_unit_zero hz2]
  simp only [View.readAt_eq_ld, B.harg3.read_unread, B.harg7.read_unread, B.harg9.read_unread, View.ld_unit_zero (S := S128x1) hz2, View.ld_unit_zero (S := S1x128x12288) hz3]

theorem sout0_C_3_eq :
    sout0_C_3 c i B hc0 hc1 hc2 x0 x1 xs0 xs1 xs2 xs3 = k0_pay21 (k0_pay5 x0) (k0_pay13 (v5of i)) xs3 := by
  unfold sout0_C_3
  rw [View.read_writes_eq_canon _ _ _ (scover0_C_3 c i B hc0 hc1 hc2 x0 x1 xs0 xs1 xs2 xs3)]
  unfold kernelRun0_C
  dsimp only
  sl_unfold_words
  rw [View.canon_unit_zero hz2]
  simp only [View.readAt_eq_ld, B.harg3.read_unread, B.harg10.read_unread, View.ld_unit_zero (S := S128x1) hz2, View.ld_unit_zero (S := S1x128x12288) hz3]

theorem out0_C_2_eq :
    out0_C_2 c i B hc0 hc1 hc2 x0 x1 xs0 xs1 xs2 xs3 = k0_pay22 (k0_pay20 (k0_pay15 (k0_pay5 x0) (v5of i) xs0)) (k0_pay17 (k0_pay5 x0) (v5of i) xs0 xs0 xs1) := by
  unfold out0_C_2
  rw [View.read_writes_eq_canon _ _ _ (cover0_C_2 c i B hc0 hc1 hc2 x0 x1 xs0 xs1 xs2 xs3)]
  unfold kernelRun0_C
  dsimp only
  sl_unfold_words
  rw [View.canon_unit_zero hz3]
  simp only [View.readAt_eq_ld, B.harg3.read_unread, B.harg7.read_unread, B.harg8.read_unread, View.ld_unit_zero (S := S128x1) hz2, View.ld_unit_zero (S := S1x128x12288) hz3, View.readCov_unit_zero (S := S128x1) _ hz2]

theorem out0_C_3_eq :
    out0_C_3 c i B hc0 hc1 hc2 x0 x1 xs0 xs1 xs2 xs3 = k0_pay7 (k0_pay23 (k0_pay20 (k0_pay15 (k0_pay5 x0) (v5of i) xs0)) (k0_pay19 (k0_pay18 (k0_pay5 x0) (v5of i) xs0 xs0 xs2))) (k0_pay24 (k0_pay21 (k0_pay5 x0) (k0_pay13 (v5of i)) xs3)) (k0_pay25 (F := F)) x1 := by
  unfold out0_C_3
  rw [View.read_writes_eq_canon _ _ _ (cover0_C_3 c i B hc0 hc1 hc2 x0 x1 xs0 xs1 xs2 xs3)]
  unfold kernelRun0_C
  dsimp only
  sl_unfold_words
  rw [View.canon_unit_zero hz3]
  simp only [View.readAt_eq_ld, B.harg3.read_unread, B.harg4.read_unread, B.harg7.read_unread, B.harg9.read_unread, B.harg10.read_unread, View.ld_unit_zero (S := S128x1) hz2, View.ld_unit_zero (S := S1x128x12288) hz3, View.readCov_unit_zero (S := S128x1) _ hz2]

end C

section B
variable (hc0 : ¬cond0_0 i) (hc1 : cond0_1 i) (hc2 : ¬cond0_2 i) (x0 : Vec F S1x128x12288 .f32) (x1 : Vec F S128x1 .f32) (xs0 xs1 xs2 xs3 : Vec F S128x1 .f32)

theorem sout0_B_0_eq :
    sout0_B_0 c i B hc0 hc1 hc2 x0 x1 xs0 xs1 xs2 xs3 = k0_pay12 (k0_pay5 x0) xs0 := by
  unfold sout0_B_0
  rw [View.read_writes_eq_canon _ _ _ (scover0_B_0 c i B hc0 hc1 hc2 x0 x1 xs0 xs1 xs2 xs3)]
  unfold kernelRun0_B
  dsimp only
  sl_unfold_words
  rw [View.canon_unit_zero hz2]
  simp only [View.readAt_eq_ld, B.harg3.read_unread, B.harg7.read_unread, View.ld_unit_zero (S := S128x1) hz2, View.ld_unit_zero (S := S1x128x12288) hz3]

theorem sout0_B_1_eq :
    sout0_B_1 c i B hc0 hc1 hc2 x0 x1 xs0 xs1 xs2 xs3 = k0_pay10 (k0_pay5 x0) xs0 xs0 xs1 := by
  unfold sout0_B_1
  rw [View.read_writes_eq_canon _ _ _ (scover0_B_1 c i B hc0 hc1 hc2 x0 x1 xs0 xs1 xs2 xs3)]
  unfold kernelRun0_B
  dsimp only
  sl_unfold_words
  rw [View.canon_unit_zero hz2]
  simp only [View.readAt_eq_ld, B.harg3.read_unread, B.harg7.read_unread, B.harg8.read_unread, View.ld_unit_zero (S := S128x1) hz2, View.ld_unit_zero (S := S1x128x12288) hz3]

theorem sout0_B_2_eq :
    sout0_B_2 c i B hc0 hc1 hc2 x0 x1 xs0 xs1 xs2 xs3 = k0_pay11 (k0_pay5 x0) xs0 xs0 xs2 := by
  unfold sout0_B_2
  rw [View.read_writes_eq_canon _ _ _ (scover0_B_2 c i B hc0 hc1 hc2 x0 x1 xs0 xs1 xs2 xs3)]
  unfold kernelRun0_B
  dsimp only
  sl_unfold_words
  rw [View.canon_unit_zero hz2]
  simp only [View.readAt_eq_ld, B.harg3.read_unread, B.harg7.read_unread, B.harg9.read_unread, View.ld_unit_zero (S := S128x1) hz2, View.ld_unit_zero (S := S1x128x12288) hz3]

theorem sout0_B_3_eq :
    sout0_B_3 c i B hc0 hc1 hc2 x0 x1 xs0 xs1 xs2 xs3 = k0_pay6 x0 xs3 := by
  unfold sout0_B_3
  rw [View.read_writes_eq_canon _ _ _ (scover0_B_3 c i B hc0 hc1 hc2 x0 x1 xs0 xs1 xs2 xs3)]
  unfold kernelRun0_B
  dsimp only
  sl_unfold_words
  rw [View.canon_unit_zero hz2]
  simp only [View.readAt_eq_ld, B.harg3.read_unread, B.harg10.read_unread, View.ld_unit_zero (S := S128x1) hz2, View.ld_unit_zero (S := S1x128x12288) hz3]

end B

section A
variable (hc0 : cond0_0 i) (hc1 : cond0_1 i) (hc2 : ¬cond0_2 i) (x0 : Vec F S1x128x12288 .f32) (x1 : Vec F S128x1 .f32)

theorem sout0_A_0_eq :
    sout0_A_0 c i B hc0 hc1 hc2 x0 x1 = k0_pay12 (k0_pay5 x0) (k0_pay1 (F := F)) := by
  unfold sout0_A_0
  rw [View.read_writes_eq_canon _ _ _ (scover0_A_0 c i B hc0 hc1 hc2 x0 x1)]
  unfold kernelRun0_A
  dsimp only
  sl_unfold_words
  rw [View.canon_cons_unit_zero (S := S128x1) hz2]
  simp only [View.readAt_eq_ld, B.harg3.read_unread, View.ld_unit_zero (S := S128x1) hz2, View.ld_unit_zero (S := S1x128x12288) hz3, View.readCov_unit_zero (S := S128x1) _ hz2]

theorem sout0_A_1_eq :
    sout0_A_1 c i B hc0 hc1 hc2 x0 x1 = k0_pay10 (k0_pay5 x0) (k0_pay1 (F := F)) (k0_pay1 (F := F)) (k0_pay2 (F := F)) := by
  unfold sout0_A_1
  rw [View.read_writes_eq_canon _ _ _ (scover0_A_1 c i B hc0 hc1 hc2 x0 x1)]
  unfold kernelRun0_A
  dsimp only
  sl_unfold_words
  rw [View.canon_cons_unit_zero (S := S128x1) hz2]
  simp only [View.readAt_eq_ld, B.harg3.read_unread, View.ld_unit_zero (S := S128x1) hz2, View.ld_unit_zero (S := S1x128x12288) hz3, View.readCov_unit_zero (S := S128x1) _ hz2]

theorem sout0_A_2_eq :
    sout0_A_2 c i B hc0 hc1 hc2 x0 x1 = k0_pay11 (k0_pay5 x0) (k0_pay1 (F := F)) (k0_pay1 (F := F)) (k0_pay3 (F := F)) := by
  unfold sout0_A_2
  rw [View.read_writes_eq_canon _ _ _ (scover0_A_2 c i B hc0 hc1 hc2 x0 x1)]
  unfold kernelRun0_A
  dsimp only
  sl_unfold_words
  rw [View.canon_cons_unit_zero (S := S128x1) hz2]
  simp only [View.readAt_eq_ld, B.harg3.read_unread, View.ld_unit_zero (S := S128x1) hz2, View.ld_unit_zero (S := S1x128x12288) hz3, View.readCov_unit_zero (S := S128x1) _ hz2]

theorem sout0_A_3_eq :
    sout0_A_3 c i B hc0 hc1 hc2 x0 x1 = k0_pay6 x0 (k0_pay4 (F := F)) := by
  unfold sout0_A_3
  rw [View.read_writes_eq_canon _ _ _ (scover0_A_3 c i B hc0 hc1 hc2 x0 x1)]
  unfold kernelRun0_A
  dsimp only
  sl_unfold_words
  rw [View.canon_cons_unit_zero (S := S128x1) hz2]
  simp only [View.readAt_eq_ld, B.harg3.read_unread, View.ld_unit_zero (S := S128x1) hz2, View.ld_unit_zero (S := S1x128x12288) hz3, View.readCov_unit_zero (S := S128x1) _ hz2]

end A

end Cert.Kernel.Fr

end
-- ==== Proof.K.Mask.lean ====
import proofs.«429975_j11527692223274_3_alg».proof.Proof.Gen.Kernel.Skeleton
import proofs.«429975_j11527692223274_3_alg».proof.Proof.Gen.Kernel.Launch
import proofs.«429975_j11527692223274_3_alg».proof.Proof.Gen.Kernel.Points
import Idealize.ShloMosaic.Lib.Pipeline.Kit
import Idealize.ShloMosaic.Lib.ValueIdx
import Idealize.ShloMosaic.Lib.StableHlo.Predicate
import Idealize.ShloMosaic.Lib.Pipeline.Value

noncomputable section

namespace Cert.Kernel.Msk

open Idealize.ShloMosaic Idealize.SL.Sem
open Cert.Kernel Cert.Kernel.Gen
open Idealize.ShloMosaic.ValueIdx

variable {F : FTy → Type} [FloatOps F]

theorem clip_none_of_ne (t : Fin cfg0.N) (h : t.val % 13 ≠ 12) : ∀ a, (cfg0.win 0).clip (grid0.coords t) a = none :=
  (by decide +kernel : ∀ t : Fin grid0.N, t.val % 13 ≠ 12 → ∀ a, win0_0.clip (grid0.coords t) a = none) t h

theorem fill_eq_of_moved {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

theorem fill_eq_of_clip_none {G : Pipeline.Grid} (w : Pipeline.Window sig G) {α : Type} (i : G.Coords) (hn : ∀ a, w.clip i a = none)
    (d d' : w.block.Idx → α) (g : (w.xblock i).Idx → α) : w.fill i d g = w.fill i d' g := by
  funext j
  refine fill_eq_of_moved w i d d' g j ((w.moved_iff i j).mpr fun a => ?_)
  show (j a).val < (w.clip i a).extent (w.size a)
  rw [hn a]; exact (j a).isLt

theorem fill_of_ne (t : Fin cfg0.N) (h : t.val % 13 ≠ 12) {α : Type} (d d' : (cfg0.win 0).block.Idx → α)
    (g : ((cfg0.win 0).xblock (grid0.coords t)).Idx → α) :
    (cfg0.win 0).fill (grid0.coords t) d g = (cfg0.win 0).fill (grid0.coords t) d' g :=
  fill_eq_of_clip_none (cfg0.win 0) (grid0.coords t) (clip_none_of_ne t h) d d' g

theorem coord2_last (t : Fin cfg0.N) (h : t.val % 13 = 12) : ((grid0.coords t) 2).val = 12 :=
  (by decide +kernel : ∀ t : Fin grid0.N, t.val % 13 = 12 → ((grid0.coords t) 2).val = 12) t h

theorem xsize_last (t : Fin cfg0.N) (h : t.val % 13 = 12) :
    ∀ a, (cfg0.win 0).xsize (grid0.coords t) a = (![1, 128, 4187] : Fin 3 → Nat) a :=
  (by decide +kernel : ∀ t : Fin grid0.N, t.val % 13 = 12 → ∀ a, win0_0.xsize (grid0.coords t) a = (![1, 128, 4187] : Fin 3 → Nat) a) t h

theorem moved_last (t : Fin cfg0.N) (h : t.val % 13 = 12) (j : (cfg0.win 0).block.Idx) :
    (cfg0.win 0).moved (grid0.coords t) j = true ↔ (j 2).val < 4187 := by
  rw [Pipeline.Window.moved_iff]
  constructor
  · intro hm
    have := hm 2
    rw [xsize_last t h 2] at this
    exact this
  · intro hj a
    rw [xsize_last t h a]
    match a with
    | ⟨0, _⟩ => exact (j 0).isLt
    | ⟨1, _⟩ => exact (j 1).isLt
    | ⟨2, _⟩ => exact hj

theorem iota_col (r : Fin 128) (j : Fin 12288) :
    iota .tc S128x12288 32 [1] iota_S128x12288_d1_w32 (ix2 r j) = BitVec.ofNat 32 j.val := by
  simp [iota]

theorem pay13_apply (v5 : BitVec 32) (r : Fin 128) (j : Fin 12288) :
    k0_pay13 v5 (ix2 r j) = IntOp.cmpi .slt (IntOp.addi v5 (BitVec.ofNat 32 j.val)) 151643#32 := by
  unfold k0_pay13
  show IntOp.cmpi .slt (IntOp.addi v5 (iota .tc S128x12288 32 [1] iota_S128x12288_d1_w32 (ix2 r j))) 151643#32 = _
  rw [iota_col]

theorem off_last : Scalar.muli (BitVec.ofNat 32 12) 12288#32 = 147456#32 := by decide

theorem mask_last (r : Fin 128) (j : Fin 12288) :
    k0_pay13 (Scalar.muli (BitVec.ofNat 32 12) 12288#32) (ix2 r j) = 1#1 ↔ j.val < 4187 := by
  rw [pay13_apply, off_last]
  have hj := j.isLt
  have hsum : (IntOp.addi 147456#32 (BitVec.ofNat 32 j.val)).toNat = 147456 + j.val := by
    unfold IntOp.addi
    rw [BitVec.toNat_add, BitVec.toNat_ofNat, BitVec.toNat_ofNat]
    omega
  have hc : (151643#32 : BitVec 32).toNat = 151643 := by decide
  rw [StableHlo.Predicate.slt_iff_toNat (by rw [hsum]; omega) (by rw [hc]; omega), hsum, hc]
  omega

theorem mask_last_at (i : grid0.Coords) (hi : (i 2).val = 12) (r : Fin 128) (j : Fin 12288) :
    k0_pay13 (Scalar.muli (BitVec.ofNat 32 (i 2).val) 12288#32) (ix2 r j) = 1#1 ↔ j.val < 4187 := by
  rw [hi]; exact mask_last r j

theorem select_indep {α : Type} (c : IVec S128x12288 1)
    (hc : ∀ (r : Fin 128) (j : Fin 12288), c (ix2 r j) = 1#1 → j.val < 4187)
    (v4 v4' z : S128x12288.Idx → α)
    (hagree : ∀ (r : Fin 128) (j : Fin 12288), j.val < 4187 → v4 (ix2 r j) = v4' (ix2 r j)) :
    select c v4 z = select c v4' z := by
  funext x
  obtain ⟨r, j, rfl⟩ : ∃ (r : Fin 128) (j : Fin 12288), x = ix2 r j := ⟨x 0, x 1, eq_ix2 x⟩
  rw [select_apply, select_apply]
  by_cases h : c (ix2 r j) = 1#1
  · rw [h, select_one, select_one]; exact hagree r j (hc r j h)
  · rw [eq_zero_of_ne_one h, select_zero, select_zero]

section Indep

variable (v5 : BitVec 32)
  (hmask : ∀ (r : Fin 128) (j : Fin 12288), k0_pay13 v5 (ix2 r j) = 1#1 ↔ j.val < 4187)
  (v4 v4' : FVec F S128x12288 .f32)
  (hagree : ∀ (r : Fin 128) (j : Fin 12288), j.val < 4187 → v4 (ix2 r j) = v4' (ix2 r j))

include hmask hagree

theorem pay14_indep : k0_pay14 v4 v5 = k0_pay14 v4' v5 := by
  unfold k0_pay14
  exact select_indep (k0_pay13 v5) (fun r j h => (hmask r j).mp h) v4 v4' _ hagree

theorem pay15_indep (v21 : Vec F S128x1 .f32) : k0_pay15 v4 v5 v21 = k0_pay15 v4' v5 v21 := by
  unfold k0_pay15
  rw [pay14_indep v5 hmask v4 v4' hagree]

theorem pay16_indep (v21 : Vec F S128x1 .f32) : k0_pay16 v4 v5 v21 = k0_pay16 v4' v5 v21 := by
  unfold k0_pay16
  rw [pay15_indep v5 hmask v4 v4' hagree, pay14_indep v5 hmask v4 v4' hagree]

theorem pay17_indep (v21 v29 v37 : Vec F S128x1 .f32) : k0_pay17 v4 v5 v21 v29 v37 = k0_pay17 v4' v5 v21 v29 v37 := by
  unfold k0_pay17
  rw [pay16_indep v5 hmask v4 v4' hagree, pay15_indep v5 hmask v4 v4' hagree]

theorem pay18_indep (v21 v32 v45 : Vec F S128x1 .f32) : k0_pay18 v4 v5 v21 v32 v45 = k0_pay18 v4' v5 v21 v32 v45 := by
  unfold k0_pay18
  rw [pay16_indep v5 hmask v4 v4' hagree, pay15_indep v5 hmask v4 v4' hagree]

theorem pay21_indep (v58 : Vec F S128x1 .f32) : k0_pay21 v4 (k0_pay13 v5) v58 = k0_pay21 v4' (k0_pay13 v5) v58 := by
  unfold k0_pay21
  dsimp only
  rw [select_indep (k0_pay13 v5) (fun r j h => (hmask r j).mp h) v4 v4' _ hagree]

end Indep

theorem pay5_apply (X : Vec F S1x128x12288 .f32) (r : Fin 128) (j : Fin 12288) :
    k0_pay5 X (ix2 r j) = X (ix3 (0 : Fin 1) r j) := by
  unfold k0_pay5
  refine (shapeCast_dropUnit_apply ![128, 12288] X shapeCasts_S1x128x12288_S128x12288 (ix2 r j)).trans ?_
  refine congrArg X ?_
  funext a
  match a with
  | ⟨0, _⟩ => rfl
  | ⟨1, _⟩ => rfl
  | ⟨2, _⟩ => rfl

theorem pay5_agree (t : Fin cfg0.N) (h : t.val % 13 = 12) (X X' : Vec F S1x128x12288 .f32)
    (hX : ∀ j : (cfg0.win 0).block.Idx, (cfg0.win 0).moved (grid0.coords t) j = true → X j = X' j)
    (r : Fin 128) (j : Fin 12288) (hj : j.val < 4187) : k0_pay5 X (ix2 r j) = k0_pay5 X' (ix2 r j) := by
  rw [pay5_apply, pay5_apply]
  exact hX _ ((moved_last t h _).mpr hj)

theorem pay5_fill_agree (t : Fin cfg0.N) (h : t.val % 13 = 12) (d d' : (cfg0.win 0).block.Idx → F .f32)
    (g : ((cfg0.win 0).xblock (grid0.coords t)).Idx → F .f32) (r : Fin 128) (j : Fin 12288) (hj : j.val < 4187) :
    k0_pay5 ((cfg0.win 0).fill (grid0.coords t) d g) (ix2 r j) = k0_pay5 ((cfg0.win 0).fill (grid0.coords t) d' g) (ix2 r j) :=
  pay5_agree t h _ _ (fun j hm => fill_eq_of_moved (cfg0.win 0) (grid0.coords t) d d' g j hm) r j hj

section Fill

variable (t : Fin cfg0.N) (h : t.val % 13 = 12) (d d' : (cfg0.win 0).block.Idx → F .f32)
  (g : ((cfg0.win 0).xblock (grid0.coords t)).Idx → F .f32)

include h

-- The lane mask of the last vocab step keeps the lanes below 4187, and those lie inside the array.
theorem pay15_fill (v21 : Vec F S128x1 .f32) :
    k0_pay15 (k0_pay5 ((cfg0.win 0).fill (grid0.coords t) d g)) (Scalar.muli (BitVec.ofNat 32 ((grid0.coords t) 2).val) 12288#32) v21 = k0_pay15 (k0_pay5 ((cfg0.win 0).fill (grid0.coords t) d' g)) (Scalar.muli (BitVec.ofNat 32 ((grid0.coords t) 2).val) 12288#32) v21 :=
  pay15_indep _ (mask_last_at (grid0.coords t) (coord2_last t h)) _ _ (pay5_fill_agree t h d d' g) v21

theorem pay17_fill (v21 v29 v37 : Vec F S128x1 .f32) :
    k0_pay17 (k0_pay5 ((cfg0.win 0).fill (grid0.coords t) d g)) (Scalar.muli (BitVec.ofNat 32 ((grid0.coords t) 2).val) 12288#32) v21 v29 v37 = k0_pay17 (k0_pay5 ((cfg0.win 0).fill (grid0.coords t) d' g)) (Scalar.muli (BitVec.ofNat 32 ((grid0.coords t) 2).val) 12288#32) v21 v29 v37 :=
  pay17_indep _ (mask_last_at (grid0.coords t) (coord2_last t h)) _ _ (pay5_fill_agree t h d d' g) v21 v29 v37

theorem pay18_fill (v21 v32 v45 : Vec F S128x1 .f32) :
    k0_pay18 (k0_pay5 ((cfg0.win 0).fill (grid0.coords t) d g)) (Scalar.muli (BitVec.ofNat 32 ((grid0.coords t) 2).val) 12288#32) v21 v32 v45 = k0_pay18 (k0_pay5 ((cfg0.win 0).fill (grid0.coords t) d' g)) (Scalar.muli (BitVec.ofNat 32 ((grid0.coords t) 2).val) 12288#32) v21 v32 v45 :=
  pay18_indep _ (mask_last_at (grid0.coords t) (coord2_last t h)) _ _ (pay5_fill_agree t h d d' g) v21 v32 v45

theorem pay21_fill (v58 : Vec F S128x1 .f32) :
    k0_pay21 (k0_pay5 ((cfg0.win 0).fill (grid0.coords t) d g)) (k0_pay13 (Scalar.muli (BitVec.ofNat 32 ((grid0.coords t) 2).val) 12288#32)) v58 = k0_pay21 (k0_pay5 ((cfg0.win 0).fill (grid0.coords t) d' g)) (k0_pay13 (Scalar.muli (BitVec.ofNat 32 ((grid0.coords t) 2).val) 12288#32)) v58 :=
  pay21_indep _ (mask_last_at (grid0.coords t) (coord2_last t h)) _ _ (pay5_fill_agree t h d d' g) v58

end Fill

end Cert.Kernel.Msk

end
-- ==== Proof.K.Frame.lean ====
import proofs.«429975_j11527692223274_3_alg».proof.Proof.K.FrameDefs
import proofs.«429975_j11527692223274_3_alg».proof.Proof.K.Pieces
import proofs.«429975_j11527692223274_3_alg».proof.Proof.K.Mask

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body masks exactly the lanes of the last block that lie past the array's end. -/
theorem stepC_fill (c : Dev nD) (t : Fin cfg0.N) (h2 : t.val % 13 = 12) (d : S1x128x12288.Idx → Elt F .f32)
    (x1 xs0 xs1 xs2 xs3 : Vec F S128x1 .f32) :
    outsC c (grid0.coords t) (bufsAt t) (fun h => by have := (hcond0_0 t).mp h; omega) (fun h => by have := (hcond0_1 t).mp h; omega) ((hcond0_2 t).mpr h2) (xfill m c t) x1 xs0 xs1 xs2 xs3
      = outsC c (grid0.coords t) (bufsAt t) (fun h => by have := (hcond0_0 t).mp h; omega) (fun h => by have := (hcond0_1 t).mp h; omega) ((hcond0_2 t).mpr h2) (win0_0.fill (grid0.coords t) d (iblk m c 0 t)) x1 xs0 xs1 xs2 xs3 := by
  unfold xfill outsC
  rw [out0_C_2_eq, out0_C_2_eq, out0_C_3_eq, out0_C_3_eq, sout0_C_0_eq, sout0_C_0_eq, sout0_C_1_eq, sout0_C_1_eq,
    sout0_C_2_eq, sout0_C_2_eq, sout0_C_3_eq, sout0_C_3_eq,
    Msk.pay15_fill (F := F) t h2 (fun _ => Scalar.ofBits .f32 0#32) d (iblk m c 0 t) xs0,
    Msk.pay17_fill (F := F) t h2 (fun _ => Scalar.ofBits .f32 0#32) d (iblk m c 0 t) xs0 xs0 xs1,
    Msk.pay18_fill (F := F) t h2 (fun _ => Scalar.ofBits .f32 0#32) d (iblk m c 0 t) xs0 xs0 xs2,
    Msk.pay21_fill (F := F) t h2 (fun _ => Scalar.ofBits .f32 0#32) d (iblk m c 0 t) xs3]

theorem fill_eq_xfill (c : Dev nD) (t : Fin cfg0.N) (h : t.val % 13 ≠ 12) (d : S1x128x12288.Idx → Elt F .f32) :
    win0_0.fill (grid0.coords t) d (iblk m c 0 t) = xfill m c t := by
  unfold xfill
  exact Msk.fill_of_ne t h d _ (iblk m c 0 t)

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-- Before the first point the invariant is the launch's. -/
theorem Phi_any (c : Dev nD) (t : Fin (cfg0.N + 1)) : (dats m 0 c).Φ t ⊢ Pipeline.ΦA spec0 c := by
  by_cases ht : t.val = 0
  · rw [show (dats m 0 c).Φ t = PhiS m c t.val (Nat.le_of_lt_succ t.isLt) from rfl, PhiS_zero m c _ _ ht]
  · exact Phi_out m c t ht

theorem hout (c : Dev nD) : (dats m 0 c).Φ (Fin.last cfg0.N) ⊢ Pipeline.ΦA spec0 c := Phi_any m c _

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

theorem leaves0_0 (c : Dev nD) (t : Fin cfg0.N) :
    (dats m 0 c).leaves 0 t = iprop(∃ d, owns (c : Thread nD τ) (ms0_0 t) fullShare (win0_0.fill (grid0.coords t) d (iblk m c 0 t))) := by
  unfold Dat.leaves; rw [liveAt0_0 t]; dsimp only
  rw [after0_0]; unfold xfill; rw [win0_0.cut_fill]; rfl

theorem leaves0_1 (c : Dev nD) (t : Fin cfg0.N) :
    (dats m 0 c).leaves 1 t = owns (c : Thread nD τ) (ms0_1 t) fullShare (iblk m c 1 t) := by
  unfold Dat.leaves; rw [liveAt0_1 t]; dsimp only; rw [after0_1]

set_option maxHeartbeats 4800000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_1, before0_0]
  rw [show (dats m 0 c).owesAt () t.succ = (dats m 0 c).owesAt () t.castSucc from rfl]
  rw [show (dats m 0 c).Φ t.succ = PhiS m c (t.val + 1) t.isLt from rfl, PhiS_succ]
  rw [leaves0_0, leaves0_1]
  have hN : t.val < 104 := lt_of_lt_of_eq t.isLt (show cfg0.N = 104 from N_0)
  have hlt : t.val % 13 < 13 := Nat.mod_lt _ (by decide)
  by_cases h0 : t.val % 13 = 0
  ·
    rw [Dat.leaves_idle (dats m 0 c) 2 t (idleAt0 t (by omega)).1.1 (idleAt0 t (by omega)).1.2,
      Dat.leaves_idle (dats m 0 c) 3 t (idleAt0 t (by omega)).2.1 (idleAt0 t (by omega)).2.2]
    rw [outsAt0_A m c t h0]
    unfold stepA outsA; dsimp only
    unfold sout0_A_0 sout0_A_1 sout0_A_2 sout0_A_3
    refine BIBase.Entails.trans (sep_mono_left (Phi_any m c t.castSucc)) ?_
    rw [PhiA0_eq]
    iintro ⟨⟨⟨HS0, HS1, HS2, HS3⟩, Hg⟩, Ho, ⟨%d0, H0⟩, ⟨%d1, H1⟩, ⟨%d2, H2⟩, ⟨%d3, H3⟩⟩
    rw [fill_eq_xfill m c t (by omega) d0]
    iapply ((kernelRun0_A c (grid0.coords t) (bufsAt t) ((hcond0_0 t).mpr h0) ((hcond0_1 t).mpr (by omega)) (fun h => by have := (hcond0_2 t).mp h; omega) (xfill m c t) (iblk m c 1 t)).2.2.2.2.2.2 _ _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, H2, H3, ⟨%es0, HS0⟩, ⟨%es1, HS1⟩, ⟨%es2, HS2⟩, ⟨%es3, HS3⟩⟩
    isplitl [HS0 HS1 HS2 HS3 Hg]
    · isplitl [HS0 HS1 HS2 HS3]
      ·
        isplitl [HS0]
        · unfold owns; iexists _; isplitr
          swap; · iexact HS0
          ipureintro; exact View.read_writes_of_cover _ _ _ _ _ (scover0_A_0 c _ _ _ _ _ _ _)
        isplitl [HS1]
        · unfold owns; iexists _; isplitr
          swap; · iexact HS1
          ipureintro; exact View.read_writes_of_cover _ _ _ _ _ (scover0_A_1 c _ _ _ _ _ _ _)
        isplitl [HS2]
        · unfold owns; iexists _; isplitr
          swap; · iexact HS2
          ipureintro; exact View.read_writes_of_cover _ _ _ _ _ (scover0_A_2 c _ _ _ _ _ _ _)
        · unfold owns; iexists _; isplitr
          swap; · iexact HS3
          ipureintro; exact View.read_writes_of_cover _ _ _ _ _ (scover0_A_3 c _ _ _ _ _ _ _)
      iexact Hg
    isplitl [Ho]; · iexact Ho
    isplitl [H0]
    · iexists xfill m c t; unfold xfill; rw [win0_0.fill_fill]; iexact H0
    isplitl [H1]; · iexact H1
    isplitl [H2]; · iexists _; iexact H2
    iexists _; iexact H3
  · have hz : t.val ≠ 0 := fun e => h0 (by rw [e])
    by_cases h2 : t.val % 13 = 12
    ·
      rw [show (dats m 0 c).leaves 2 t = owns (c : Thread nD τ) (ms0_2 t) fullShare ((dats m 0 c).after 2 t) from by
          unfold Dat.leaves; rw [(liveAt0 t h2).1],
        show (dats m 0 c).leaves 3 t = owns (c : Thread nD τ) (ms0_3 t) fullShare ((dats m 0 c).after 3 t) from by
          unfold Dat.leaves; rw [(liveAt0 t h2).2], after0_2, after0_3]
      rw [outsAt0_C m c t h2]
      unfold stepC
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩⟩
      rw [stepC_fill m c t h2 d0]
      unfold outsC; dsimp only
      unfold out0_C_2 out0_C_3 sout0_C_0 sout0_C_1 sout0_C_2 sout0_C_3
      iapply ((kernelRun0_C c (grid0.coords t) (bufsAt t) (fun h => by have := (hcond0_0 t).mp h; omega) (fun h => by have := (hcond0_1 t).mp h; omega) ((hcond0_2 t).mpr h2) (win0_0.fill (grid0.coords t) d0 (iblk m c 0 t)) (iblk m c 1 t) _ _ _ _).2.2.2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      isplitl [HS3]; · iexact HS3
      iintro ⟨H0, H1, ⟨%e2', H2⟩, ⟨%e3', H3⟩, ⟨%es0', HS0⟩, ⟨%es1', HS1⟩, ⟨%es2', HS2⟩, ⟨%es3', HS3⟩⟩
      isplitl [HS0 HS1 HS2 HS3 Hg]
      · isplitl [HS0 HS1 HS2 HS3]
        ·
          isplitl [HS0]
          · unfold owns; iexists _; isplitr
            swap; · iexact HS0
            ipureintro; exact View.read_writes_of_cover _ _ _ _ _ (scover0_C_0 c _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _)
          isplitl [HS2]
          · unfold owns; iexists _; isplitr
            swap; · iexact HS2
            ipureintro; exact View.read_writes_of_cover _ _ _ _ _ (scover0_C_2 c _ _ _ _ _ _ _ _ _ _ _)
          · unfold owns; iexists _; isplitr
            swap; · iexact HS3
            ipureintro; exact View.read_writes_of_cover _ _ _ _ _ (scover0_C_3 c _ _ _ _ _ _ _ _ _ _ _)
        iexact Hg
      isplitl [Ho]; · iexact Ho
      isplitl [H0]; · iexists d0; iexact H0
      isplitl [H1]; · iexact H1
      isplitl [H2]
      · unfold owns; iexists _; isplitr
        swap; · iexact H2
        ipureintro; exact View.read_writes_of_cover _ _ _ _ _ (cover0_C_2 c _ _ _ _ _ _ _ _ _ _ _)
      · unfold owns; iexists _; isplitr
        swap; · iexact H3
        ipureintro; exact View.read_writes_of_cover _ _ _ _ _ (cover0_C_3 c _ _ _ _ _ _ _ _ _ _ _)
    ·
      have h1 : t.val % 13 < 12 := by omega
      rw [Dat.leaves_idle (dats m 0 c) 2 t (idleAt0 t (by omega)).1.1 (idleAt0 t (by omega)).1.2,
        Dat.leaves_idle (dats m 0 c) 3 t (idleAt0 t (by omega)).2.1 (idleAt0 t (by omega)).2.2]
      rw [outsAt0_B m c t h0 h1]
      unfold stepB outsB; dsimp only
      unfold sout0_B_0 sout0_B_1 sout0_B_2 sout0_B_3
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩⟩
      rw [fill_eq_xfill m c t h2 d0]
      iapply ((kernelRun0_B c (grid0.coords t) (bufsAt t) (fun h => h0 ((hcond0_0 t).mp h)) ((hcond0_1 t).mpr h1) (fun h => by have := (hcond0_2 t).mp h; omega) (xfill m c t) (iblk m c 1 t) _ _ _ _).2.2.2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, ⟨%es0, HS0⟩, ⟨%es1, HS1⟩, ⟨%es2, HS2⟩, ⟨%es3, HS3⟩⟩
      isplitl [HS0 HS1 HS2 HS3 Hg]
      · isplitl [HS0 HS1 HS2 HS3]
        ·
          isplitl [HS0]
          · unfold owns; iexists _; isplitr
            swap; · iexact HS0
            ipureintro; exact View.read_writes_of_cover _ _ _ _ _ (scover0_B_0 c _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _)
          · unfold owns; iexists _; isplitr
            swap; · iexact HS3
            ipureintro; exact View.read_writes_of_cover _ _ _ _ _ (scover0_B_3 c _ _ _ _ _ _ _ _ _ _ _)
        iexact Hg
      isplitl [Ho]; · iexact Ho
      isplitl [H0]
      · iexists xfill m c t; unfold xfill; rw [win0_0.fill_fill]; iexact H0
      isplitl [H1]; · iexact H1
      isplitl [H2]; · iexists _; iexact H2
      iexists _; iexact H3

theorem body_obligation (c : Dev nD) : BodyObligationLoose (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

set_option backward.isDefEq.respectTransparency.types false in

theorem run_main : θ_run defs (onTc (τ := τ) (main (F := F))) (s₀ m ρ) (Pipeline.FramePost cfgs (dats m) 0 (Pipeline.afterTail₀ cfgs (dats m) 0 (V0 m) tailOpss)) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Fr

end
-- ==== Proof.KI.Conds.lean ====
import proofs.«429975_j11527692223274_3_alg».proof.Proof.Gen.KernelIdeal.Launch
import proofs.«429975_j11527692223274_3_alg».proof.Proof.Gen.KernelIdeal.Skeleton
import proofs.«429975_j11527692223274_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 2).val) 0#32)) 0#32) = 1#1

theorem hcond0_0 : ∀ t : Fin cfg0.N, cond0_0 (grid0.coords t) ↔ t.val % 13 = 0 :=
  (by decide +kernel : ∀ t : Fin grid0.N, cond0_0 (grid0.coords t) ↔ t.val % 13 = 0)

abbrev cond0_1 (i : grid0.Coords) : Prop := (Scalar.cmpi .ne (Scalar.extui (Scalar.cmpi .slt (BitVec.ofNat 32 (i 2).val) 12#32)) 0#32) = 1#1

theorem hcond0_1 : ∀ t : Fin cfg0.N, cond0_1 (grid0.coords t) ↔ t.val % 13 < 12 :=
  (by decide +kernel : ∀ t : Fin grid0.N, cond0_1 (grid0.coords t) ↔ t.val % 13 < 12)

abbrev cond0_2 (i : grid0.Coords) : Prop := k0_cond3 i = 1#1

theorem hcond0_2 : ∀ t : Fin cfg0.N, cond0_2 (grid0.coords t) ↔ t.val % 13 = 12 :=
  (by decide +kernel : ∀ t : Fin grid0.N, cond0_2 (grid0.coords t) ↔ t.val % 13 = 12)

theorem liveAt0_0 : ∀ t : Fin cfg0.N, cfg0.idle 0 (grid0.coords t) = false := by decide +kernel

theorem liveAt0_1 : ∀ t : Fin cfg0.N, cfg0.idle 1 (grid0.coords t) = false := by decide +kernel
theorem idleAt0 : ∀ t : Fin cfg0.N, t.val % 13 ≠ 12 → (cfg0.idle 2 (grid0.coords t) = true ∧ (cfg0.win 2).flush t = false)
    ∧ (cfg0.idle 3 (grid0.coords t) = true ∧ (cfg0.win 3).flush t = false) := by decide +kernel
theorem liveAt0 : ∀ t : Fin cfg0.N, t.val % 13 = 12 → cfg0.idle 2 (grid0.coords t) = false ∧ cfg0.idle 3 (grid0.coords t) = false := by decide +kernel

abbrev VO0_2 : View sig .tc .vmem S1x128x1 .f32 := (Memref.whole cc0_stg2_0 : Memref sig .tc .vmem S1x128x1 .f32).view

abbrev VO0_3 : View sig .tc .vmem S1x128x1 .f32 := (Memref.whole cc0_stg3_0 : Memref sig .tc .vmem S1x128x1 .f32).view

abbrev ms0_0 (t : Fin cfg0.N) : Memref sig .tc .vmem S1x128x12288 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x1 .f32 := win0_3.stage (cfg0.slots t 3)
abbrev hs0_3 (t : Fin cfg0.N) : (ms0_3 t).IsWhole := hstage0_3 ((cfg0.slots t 3).cast nbuf0_3)

abbrev scM0_0 : Memref sig .tc .vmem S128x1 .f32 := Memref.whole cc0_scratch0

abbrev VS0_0 : View sig .tc .vmem S128x1 .f32 := scM0_0.view

abbrev scM0_1 : Memref sig .tc .vmem S128x1 .f32 := Memref.whole cc0_scratch1

abbrev VS0_1 : View sig .tc .vmem S128x1 .f32 := scM0_1.view

abbrev scM0_2 : Memref sig .tc .vmem S128x1 .f32 := Memref.whole cc0_scratch2

abbrev VS0_2 : View sig .tc .vmem S128x1 .f32 := scM0_2.view

abbrev scM0_3 : Memref sig .tc .vmem S128x1 .f32 := Memref.whole cc0_scratch3

abbrev VS0_3 : View sig .tc .vmem S128x1 .f32 := scM0_3.view

/-- The eight whole buffers the body is called on: one per window, then the four row statistics. -/
structure Bufs where
  arg3 : Memref sig .tc .vmem S1x128x12288 .f32
  harg3 : arg3.IsWhole
  arg4 : Memref sig .tc .vmem S128x1 .f32
  harg4 : arg4.IsWhole
  arg5 : Memref sig .tc .vmem S1x128x1 .f32
  harg5 : arg5.IsWhole
  arg6 : Memref sig .tc .vmem S1x128x1 .f32
  harg6 : arg6.IsWhole
  arg7 : Memref sig .tc .vmem S128x1 .f32
  harg7 : arg7.IsWhole
  arg8 : Memref sig .tc .vmem S128x1 .f32
  harg8 : arg8.IsWhole
  arg9 : Memref sig .tc .vmem S128x1 .f32
  harg9 : arg9.IsWhole
  arg10 : Memref sig .tc .vmem S128x1 .f32
  harg10 : arg10.IsWhole

/-- The buffers the body is called on at point `t`. -/
abbrev bufsAt (t : Fin cfg0.N) : Bufs :=
  ⟨ms0_0 t, hs0_0 t, ms0_1 t, hs0_1 t, ms0_2 t, hs0_2 t, ms0_3 t, hs0_3 t, scM0_0, Memref.isWhole_whole _, scM0_1, Memref.isWhole_whole _,
    scM0_2, Memref.isWhole_whole _, scM0_3, Memref.isWhole_whole _⟩

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Fr

end
-- ==== Proof.KI.RunA.lean ====
import proofs.«429975_j11527692223274_3_alg».proof.Proof.KI.Conds

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun0_A (c : Dev nD) (i : grid0.Coords) (B : Bufs) (hc0 : cond0_0 i) (hc1 : cond0_1 i) (hc2 : ¬cond0_2 i)
    (x0 : Vec F S1x128x12288 .f32) (x1 : Vec F S128x1 .f32) :
    Σ' (L2 : List (View.Piece (Elt F) S1x128x1 .f32)) (L3 : List (View.Piece (Elt F) S1x128x1 .f32)) (LS0 : List (View.Piece (Elt F) S128x1 .f32)) (LS1 : List (View.Piece (Elt F) S128x1 .f32)) (LS2 : List (View.Piece (Elt F) S128x1 .f32)), { LS3 : List (View.Piece (Elt F) S128x1 .f32) //
      ∀ (xi2 : Vec F S1x128x1 .f32) (xi3 : Vec F S1x128x1 .f32) (E : Set ℕ) (K : PUnit → sProp 𝕄),
        iprop(owns (c : Thread nD τ) B.arg3 fullShare x0 ∗ owns (c : Thread nD τ) B.arg4 fullShare x1 ∗ owns (c : Thread nD τ) B.arg5 fullShare xi2 ∗ owns (c : Thread nD τ) B.arg6 fullShare xi3 ∗ (∃ d, owns (c : Thread nD τ) B.arg7 fullShare d) ∗ (∃ d, owns (c : Thread nD τ) B.arg8 fullShare d) ∗ (∃ d, owns (c : Thread nD τ) B.arg9 fullShare d) ∗ (∃ d, owns (c : Thread nD τ) B.arg10 fullShare d)
            ∗ (iprop(owns (c : Thread nD τ) B.arg3 fullShare x0 ∗ owns (c : Thread nD τ) B.arg4 fullShare x1 ∗ owns (c : Thread nD τ) B.arg5 fullShare xi2 ∗ owns (c : Thread nD τ) B.arg6 fullShare xi3 ∗ (∃ f, B.arg7.view.loc (c : Thread nD τ) ↦[B.arg7.view.set]{fullShare} B.arg7.view.writes (Elt F) f LS0) ∗ (∃ f, B.arg8.view.loc (c : Thread nD τ) ↦[B.arg8.view.set]{fullShare} B.arg8.view.writes (Elt F) f LS1) ∗ (∃ f, B.arg9.view.loc (c : Thread nD τ) ↦[B.arg9.view.set]{fullShare} B.arg9.view.writes (Elt F) f LS2) ∗ (∃ f, B.arg10.view.loc (c : Thread nD τ) ↦[B.arg10.view.set]{fullShare} B.arg10.view.writes (Elt F) f LS3)) -∗ K ⟨⟩))
          ⊢ wp frame (wpE (defs₀ (F := F)) Variants.none c none) E (cc0__ce_kl_kernel i B.arg3 B.harg3 B.arg4 B.harg4 B.arg5 B.harg5 B.arg6 B.harg6 B.arg7 B.harg7 B.arg8 B.harg8 B.arg9 B.harg9 B.arg10 B.harg10) K } := by
  refine ⟨[], [], ?_, ?_, ?_, ?_, fun xi2 xi3 E K => ?run⟩
  case run =>
    simp only [cc0__ce_kl_kernel_eq_skeleton]; unfold cc0__ce_kl_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, Hk⟩
    obtain rfl := B.harg3.eq_unread hf0; obtain rfl := B.harg4.eq_unread hf1; obtain rfl := B.harg5.eq_unread hf2; obtain rfl := B.harg6.eq_unread hf3
    sl_exec (disch := first | sl_exact hc0 | sl_exact hc1 | sl_exact hc2)
    sl_step
    iapply Hk
    isplitl [H0]
    · iexists _; isplitr; · ipureintro; exact B.harg3.read_unread _
      iexact H0
    isplitl [H1]
    · iexists _; isplitr; · ipureintro; exact B.harg4.read_unread _
      iexact H1
    isplitl [H2]
    · iexists _; isplitr; · ipureintro; exact B.harg5.read_unread _
      iexact H2
    isplitl [H3]
    · iexists _; isplitr; · ipureintro; exact B.harg6.read_unread _
      iexact H3
    isplitl [HS0]; · iexists _; iexact HS0
    isplitl [HS1]; · iexists _; iexact HS1
    isplitl [HS2]; · iexists _; iexact HS2
    iexists _; iexact HS3

end Cert.KernelIdeal.Fr

end
-- ==== Proof.KI.RunB.lean ====
import proofs.«429975_j11527692223274_3_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun0_B (c : Dev nD) (i : grid0.Coords) (B : Bufs) (hc0 : ¬cond0_0 i) (hc1 : cond0_1 i) (hc2 : ¬cond0_2 i)
    (x0 : Vec F S1x128x12288 .f32) (x1 : Vec F S128x1 .f32) (xs0 : Vec F S128x1 .f32) (xs1 : Vec F S128x1 .f32) (xs2 : Vec F S128x1 .f32) (xs3 : Vec F S128x1 .f32) :
    Σ' (L2 : List (View.Piece (Elt F) S1x128x1 .f32)) (L3 : List (View.Piece (Elt F) S1x128x1 .f32)) (LS0 : List (View.Piece (Elt F) S128x1 .f32)) (LS1 : List (View.Piece (Elt F) S128x1 .f32)) (LS2 : List (View.Piece (Elt F) S128x1 .f32)), { LS3 : List (View.Piece (Elt F) S128x1 .f32) //
      ∀ (xi2 : Vec F S1x128x1 .f32) (xi3 : Vec F S1x128x1 .f32) (E : Set ℕ) (K : PUnit → sProp 𝕄),
        iprop(owns (c : Thread nD τ) B.arg3 fullShare x0 ∗ owns (c : Thread nD τ) B.arg4 fullShare x1 ∗ owns (c : Thread nD τ) B.arg5 fullShare xi2 ∗ owns (c : Thread nD τ) B.arg6 fullShare xi3 ∗ owns (c : Thread nD τ) B.arg7 fullShare xs0 ∗ owns (c : Thread nD τ) B.arg8 fullShare xs1 ∗ owns (c : Thread nD τ) B.arg9 fullShare xs2 ∗ owns (c : Thread nD τ) B.arg10 fullShare xs3
            ∗ (iprop(owns (c : Thread nD τ) B.arg3 fullShare x0 ∗ owns (c : Thread nD τ) B.arg4 fullShare x1 ∗ owns (c : Thread nD τ) B.arg5 fullShare xi2 ∗ owns (c : Thread nD τ) B.arg6 fullShare xi3 ∗ (∃ f, B.arg7.view.loc (c : Thread nD τ) ↦[B.arg7.view.set]{fullShare} B.arg7.view.writes (Elt F) f LS0) ∗ (∃ f, B.arg8.view.loc (c : Thread nD τ) ↦[B.arg8.view.set]{fullShare} B.arg8.view.writes (Elt F) f LS1) ∗ (∃ f, B.arg9.view.loc (c : Thread nD τ) ↦[B.arg9.view.set]{fullShare} B.arg9.view.writes (Elt F) f LS2) ∗ (∃ f, B.arg10.view.loc (c : Thread nD τ) ↦[B.arg10.view.set]{fullShare} B.arg10.view.writes (Elt F) f LS3)) -∗ K ⟨⟩))
          ⊢ wp frame (wpE (defs₀ (F := F)) Variants.none c none) E (cc0__ce_kl_kernel i B.arg3 B.harg3 B.arg4 B.harg4 B.arg5 B.harg5 B.arg6 B.harg6 B.arg7 B.harg7 B.arg8 B.harg8 B.arg9 B.harg9 B.arg10 B.harg10) K } := by
  refine ⟨[], [], ?_, ?_, ?_, ?_, fun xi2 xi3 E K => ?run⟩
  case run =>
    simp only [cc0__ce_kl_kernel_eq_skeleton]; unfold cc0__ce_kl_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := B.harg3.eq_unread hf0; obtain rfl := B.harg4.eq_unread hf1; obtain rfl := B.harg5.eq_unread hf2; obtain rfl := B.harg6.eq_unread hf3
    obtain rfl := B.harg7.eq_unread hfs0; obtain rfl := B.harg8.eq_unread hfs1; obtain rfl := B.harg9.eq_unread hfs2; obtain rfl := B.harg10.eq_unread hfs3
    sl_exec (disch := first | sl_exact hc0 | sl_exact hc1 | sl_exact hc2)
    sl_step
    iapply Hk
    isplitl [H0]
    · iexists _; isplitr; · ipureintro; exact B.harg3.read_unread _
      iexact H0
    isplitl [H1]
    · iexists _; isplitr; · ipureintro; exact B.harg4.read_unread _
      iexact H1
    isplitl [H2]
    · iexists _; isplitr; · ipureintro; exact B.harg5.read_unread _
      iexact H2
    isplitl [H3]
    · iexists _; isplitr; · ipureintro; exact B.harg6.read_unread _
      iexact H3
    isplitl [HS0]; · iexists _; iexact HS0
    isplitl [HS1]; · iexists _; iexact HS1
    isplitl [HS2]; · iexists _; iexact HS2
    iexists _; iexact HS3

end Cert.KernelIdeal.Fr

end
-- ==== Proof.KI.RunC.lean ====
import proofs.«429975_j11527692223274_3_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun0_C (c : Dev nD) (i : grid0.Coords) (B : Bufs) (hc0 : ¬cond0_0 i) (hc1 : ¬cond0_1 i) (hc2 : cond0_2 i)
    (x0 : Vec F S1x128x12288 .f32) (x1 : Vec F S128x1 .f32) (xs0 : Vec F S128x1 .f32) (xs1 : Vec F S128x1 .f32) (xs2 : Vec F S128x1 .f32) (xs3 : Vec F S128x1 .f32) :
    Σ' (L2 : List (View.Piece (Elt F) S1x128x1 .f32)) (L3 : List (View.Piece (Elt F) S1x128x1 .f32)) (LS0 : List (View.Piece (Elt F) S128x1 .f32)) (LS1 : List (View.Piece (Elt F) S128x1 .f32)) (LS2 : List (View.Piece (Elt F) S128x1 .f32)), { LS3 : List (View.Piece (Elt F) S128x1 .f32) //
      ∀ (E : Set ℕ) (K : PUnit → sProp 𝕄),
        iprop(owns (c : Thread nD τ) B.arg3 fullShare x0 ∗ owns (c : Thread nD τ) B.arg4 fullShare x1 ∗ (∃ d, owns (c : Thread nD τ) B.arg5 fullShare d) ∗ (∃ d, owns (c : Thread nD τ) B.arg6 fullShare d) ∗ owns (c : Thread nD τ) B.arg7 fullShare xs0 ∗ owns (c : Thread nD τ) B.arg8 fullShare xs1 ∗ owns (c : Thread nD τ) B.arg9 fullShare xs2 ∗ owns (c : Thread nD τ) B.arg10 fullShare xs3
            ∗ (iprop(owns (c : Thread nD τ) B.arg3 fullShare x0 ∗ owns (c : Thread nD τ) B.arg4 fullShare x1 ∗ (∃ f, B.arg5.view.loc (c : Thread nD τ) ↦[B.arg5.view.set]{fullShare} B.arg5.view.writes (Elt F) f L2) ∗ (∃ f, B.arg6.view.loc (c : Thread nD τ) ↦[B.arg6.view.set]{fullShare} B.arg6.view.writes (Elt F) f L3) ∗ (∃ f, B.arg7.view.loc (c : Thread nD τ) ↦[B.arg7.view.set]{fullShare} B.arg7.view.writes (Elt F) f LS0) ∗ (∃ f, B.arg8.view.loc (c : Thread nD τ) ↦[B.arg8.view.set]{fullShare} B.arg8.view.writes (Elt F) f LS1) ∗ (∃ f, B.arg9.view.loc (c : Thread nD τ) ↦[B.arg9.view.set]{fullShare} B.arg9.view.writes (Elt F) f LS2) ∗ (∃ f, B.arg10.view.loc (c : Thread nD τ) ↦[B.arg10.view.set]{fullShare} B.arg10.view.writes (Elt F) f LS3)) -∗ K ⟨⟩))
          ⊢ wp frame (wpE (defs₀ (F := F)) Variants.none c none) E (cc0__ce_kl_kernel i B.arg3 B.harg3 B.arg4 B.harg4 B.arg5 B.harg5 B.arg6 B.harg6 B.arg7 B.harg7 B.arg8 B.harg8 B.arg9 B.harg9 B.arg10 B.harg10) K } := by
  refine ⟨?_, ?_, ?_, ?_, ?_, ?_, fun E K => ?run⟩
  case run =>
    simp only [cc0__ce_kl_kernel_eq_skeleton]; unfold cc0__ce_kl_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, ⟨%fs2, %hfs2, HS2⟩, ⟨%fs3, %hfs3, HS3⟩, Hk⟩
    obtain rfl := B.harg3.eq_unread hf0; obtain rfl := B.harg4.eq_unread hf1
    obtain rfl := B.harg7.eq_unread hfs0; obtain rfl := B.harg8.eq_unread hfs1; obtain rfl := B.harg9.eq_unread hfs2; obtain rfl := B.harg10.eq_unread hfs3
    sl_exec (disch := first | sl_exact hc0 | sl_exact hc1 | sl_exact hc2)
    sl_step
    iapply Hk
    isplitl [H0]
    · iexists _; isplitr; · ipureintro; exact B.harg3.read_unread _
      iexact H0
    isplitl [H1]
    · iexists _; isplitr; · ipureintro; exact B.harg4.read_unread _
      iexact H1
    isplitl [H2]; · iexists _; iexact H2
    isplitl [H3]; · iexists _; iexact H3
    isplitl [HS0]; · iexists _; iexact HS0
    isplitl [HS1]; · iexists _; iexact HS1
    isplitl [HS2]; · iexists _; iexact HS2
    iexists _; iexact HS3

end Cert.KernelIdeal.Fr

end
-- ==== Proof.KI.Outs.lean ====
import proofs.«429975_j11527692223274_3_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The two result blocks, then the four row statistics. -/
abbrev Outs6 (F : FTy → Type) : Type :=
  Vec F S1x128x1 .f32 × Vec F S1x128x1 .f32 × Vec F S128x1 .f32 × Vec F S128x1 .f32 × Vec F S128x1 .f32 × Vec F S128x1 .f32

variable (c : Dev nD) (i : grid0.Coords) (B : Bufs)

section A
variable (hc0 : cond0_0 i) (hc1 : cond0_1 i) (hc2 : ¬cond0_2 i) (x0 : Vec F S1x128x12288 .f32) (x1 : Vec F S128x1 .f32)

def out0_A_2 : Vec F S1x128x1 .f32 := VO0_2.read (Elt F) (VO0_2.writes (Elt F) VO0_2.junk (kernelRun0_A c i B hc0 hc1 hc2 x0 x1).1)
def out0_A_3 : Vec F S1x128x1 .f32 := VO0_3.read (Elt F) (VO0_3.writes (Elt F) VO0_3.junk (kernelRun0_A c i B hc0 hc1 hc2 x0 x1).2.1)
theorem scover0_A_0 (y : S128x1.Idx) : ∃ pc ∈ (kernelRun0_A c i B hc0 hc1 hc2 x0 x1).2.2.1, y ∈ pc.1.set :=
  View.cover_of_tiledL _ S128x1.size (by sl_kernel_rfl) y
def sout0_A_0 : Vec F S128x1 .f32 := VS0_0.read (Elt F) (VS0_0.writes (Elt F) VS0_0.junk (kernelRun0_A c i B hc0 hc1 hc2 x0 x1).2.2.1)
theorem scover0_A_1 (y : S128x1.Idx) : ∃ pc ∈ (kernelRun0_A c i B hc0 hc1 hc2 x0 x1).2.2.2.1, y ∈ pc.1.set :=
  View.cover_of_tiledL _ S128x1.size (by sl_kernel_rfl) y
def sout0_A_1 : Vec F S128x1 .f32 := VS0_1.read (Elt F) (VS0_1.writes (Elt F) VS0_1.junk (kernelRun0_A c i B hc0 hc1 hc2 x0 x1).2.2.2.1)
theorem scover0_A_2 (y : S128x1.Idx) : ∃ pc ∈ (kernelRun0_A c i B hc0 hc1 hc2 x0 x1).2.2.2.2.1, y ∈ pc.1.set :=
  View.cover_of_tiledL _ S128x1.size (by sl_kernel_rfl) y
def sout0_A_2 : Vec F S128x1 .f32 := VS0_2.read (Elt F) (VS0_2.writes (Elt F) VS0_2.junk (kernelRun0_A c i B hc0 hc1 hc2 x0 x1).2.2.2.2.1)
theorem scover0_A_3 (y : S128x1.Idx) : ∃ pc ∈ (kernelRun0_A c i B hc0 hc1 hc2 x0 x1).2.2.2.2.2.1, y ∈ pc.1.set :=
  View.cover_of_tiledL _ S128x1.size (by sl_kernel_rfl) y
def sout0_A_3 : Vec F S128x1 .f32 := VS0_3.read (Elt F) (VS0_3.writes (Elt F) VS0_3.junk (kernelRun0_A c i B hc0 hc1 hc2 x0 x1).2.2.2.2.2.1)
def outsA : Outs6 F :=
  (out0_A_2 c i B hc0 hc1 hc2 x0 x1, out0_A_3 c i B hc0 hc1 hc2 x0 x1, sout0_A_0 c i B hc0 hc1 hc2 x0 x1,
   sout0_A_1 c i B hc0 hc1 hc2 x0 x1, sout0_A_2 c i B hc0 hc1 hc2 x0 x1, sout0_A_3 c i B hc0 hc1 hc2 x0 x1)

end A

section B
variable (hc0 : ¬cond0_0 i) (hc1 : cond0_1 i) (hc2 : ¬cond0_2 i) (x0 : Vec F S1x128x12288 .f32) (x1 : Vec F S128x1 .f32) (xs0 xs1 xs2 xs3 : Vec F S128x1 .f32)

def out0_B_2 : Vec F S1x128x1 .f32 := VO0_2.read (Elt F) (VO0_2.writes (Elt F) VO0_2.junk (kernelRun0_B c i B hc0 hc1 hc2 x0 x1 xs0 xs1 xs2 xs3).1)
def out0_B_3 : Vec F S1x128x1 .f32 := VO0_3.read (Elt F) (VO0_3.writes (Elt F) VO0_3.junk (kernelRun0_B c i B hc0 hc1 hc2 x0 x1 xs0 xs1 xs2 xs3).2.1)
theorem scover0_B_0 (y : S128x1.Idx) : ∃ pc ∈ (kernelRun0_B c i B hc0 hc1 hc2 x0 x1 xs0 xs1 xs2 xs3).2.2.1, y ∈ pc.1.set :=
  View.cover_of_tiledL _ S128x1.size (by sl_kernel_rfl) y
def sout0_B_0 : Vec F S128x1 .f32 := VS0_0.read (Elt F) (VS0_0.writes (Elt F) VS0_0.junk (kernelRun0_B c i B hc0 hc1 hc2 x0 x1 xs0 xs1 xs2 xs3).2.2.1)
theorem scover0_B_1 (y : S128x1.Idx) : ∃ pc ∈ (kernelRun0_B c i B hc0 hc1 hc2 x0 x1 xs0 xs1 xs2 xs3).2.2.2.1, y ∈ pc.1.set :=
  View.cover_of_tiledL _ S128x1.size (by sl_kernel_rfl) y
def sout0_B_1 : Vec F S128x1 .f32 := VS0_1.read (Elt F) (VS0_1.writes (Elt F) VS0_1.junk (kernelRun0_B c i B hc0 hc1 hc2 x0 x1 xs0 xs1 xs2 xs3).2.2.2.1)
theorem scover0_B_2 (y : S128x1.Idx) : ∃ pc ∈ (kernelRun0_B c i B hc0 hc1 hc2 x0 x1 xs0 xs1 xs2 xs3).2.2.2.2.1, y ∈ pc.1.set :=
  View.cover_of_tiledL _ S128x1.size (by sl_kernel_rfl) y
def sout0_B_2 : Vec F S128x1 .f32 := VS0_2.read (Elt F) (VS0_2.writes (Elt F) VS0_2.junk (kernelRun0_B c i B hc0 hc1 hc2 x0 x1 xs0 xs1 xs2 xs3).2.2.2.2.1)
theorem scover0_B_3 (y : S128x1.Idx) : ∃ pc ∈ (kernelRun0_B c i B hc0 hc1 hc2 x0 x1 xs0 xs1 xs2 xs3).2.2.2.2.2.1, y ∈ pc.1.set :=
  View.cover_of_tiledL _ S128x1.size (by sl_kernel_rfl) y
def sout0_B_3 : Vec F S128x1 .f32 := VS0_3.read (Elt F) (VS0_3.writes (Elt F) VS0_3.junk (kernelRun0_B c i B hc0 hc1 hc2 x0 x1 xs0 xs1 xs2 xs3).2.2.2.2.2.1)
def outsB : Outs6 F :=
  (out0_B_2 c i B hc0 hc1 hc2 x0 x1 xs0 xs1 xs2 xs3, out0_B_3 c i B hc0 hc1 hc2 x0 x1 xs0 xs1 xs2 xs3, sout0_B_0 c i B hc0 hc1 hc2 x0 x1 xs0 xs1 xs2 xs3,
   sout0_B_1 c i B hc0 hc1 hc2 x0 x1 xs0 xs1 xs2 xs3, sout0_B_2 c i B hc0 hc1 hc2 x0 x1 xs0 xs1 xs2 xs3, sout0_B_3 c i B hc0 hc1 hc2 x0 x1 xs0 xs1 xs2 xs3)

end B

section C
variable (hc0 : ¬cond0_0 i) (hc1 : ¬cond0_1 i) (hc2 : cond0_2 i) (x0 : Vec F S1x128x12288 .f32) (x1 : Vec F S128x1 .f32) (xs0 xs1 xs2 xs3 : Vec F S128x1 .f32)

-- The stores of the last step tile every buffer, so reading the pieces back is reading the last store at each index.
theorem cover0_C_2 (y : S1x128x1.Idx) : ∃ pc ∈ (kernelRun0_C c i B hc0 hc1 hc2 x0 x1 xs0 xs1 xs2 xs3).1, y ∈ pc.1.set :=
  View.cover_of_tiledL _ S1x128x1.size (by sl_kernel_rfl) y
def out0_C_2 : Vec F S1x128x1 .f32 := VO0_2.read (Elt F) (VO0_2.writes (Elt F) VO0_2.junk (kernelRun0_C c i B hc0 hc1 hc2 x0 x1 xs0 xs1 xs2 xs3).1)
theorem cover0_C_3 (y : S1x128x1.Idx) : ∃ pc ∈ (kernelRun0_C c i B hc0 hc1 hc2 x0 x1 xs0 xs1 xs2 xs3).2.1, y ∈ pc.1.set :=
  View.cover_of_tiledL _ S1x128x1.size (by sl_kernel_rfl) y
def out0_C_3 : Vec F S1x128x1 .f32 := VO0_3.read (Elt F) (VO0_3.writes (Elt F) VO0_3.junk (kernelRun0_C c i B hc0 hc1 hc2 x0 x1 xs0 xs1 xs2 xs3).2.1)
theorem scover0_C_0 (y : S128x1.Idx) : ∃ pc ∈ (kernelRun0_C c i B hc0 hc1 hc2 x0 x1 xs0 xs1 xs2 xs3).2.2.1, y ∈ pc.1.set :=
  View.cover_of_tiledL _ S128x1.size (by sl_kernel_rfl) y
def sout0_C_0 : Vec F S128x1 .f32 := VS0_0.read (Elt F) (VS0_0.writes (Elt F) VS0_0.junk (kernelRun0_C c i B hc0 hc1 hc2 x0 x1 xs0 xs1 xs2 xs3).2.2.1)
theorem scover0_C_1 (y : S128x1.Idx) : ∃ pc ∈ (kernelRun0_C c i B hc0 hc1 hc2 x0 x1 xs0 xs1 xs2 xs3).2.2.2.1, y ∈ pc.1.set :=
  View.cover_of_tiledL _ S128x1.size (by sl_kernel_rfl) y
def sout0_C_1 : Vec F S128x1 .f32 := VS0_1.read (Elt F) (VS0_1.writes (Elt F) VS0_1.junk (kernelRun0_C c i B hc0 hc1 hc2 x0 x1 xs0 xs1 xs2 xs3).2.2.2.1)
theorem scover0_C_2 (y : S128x1.Idx) : ∃ pc ∈ (kernelRun0_C c i B hc0 hc1 hc2 x0 x1 xs0 xs1 xs2 xs3).2.2.2.2.1, y ∈ pc.1.set :=
  View.cover_of_tiledL _ S128x1.size (by sl_kernel_rfl) y
def sout0_C_2 : Vec F S128x1 .f32 := VS0_2.read (Elt F) (VS0_2.writes (Elt F) VS0_2.junk (kernelRun0_C c i B hc0 hc1 hc2 x0 x1 xs0 xs1 xs2 xs3).2.2.2.2.1)
theorem scover0_C_3 (y : S128x1.Idx) : ∃ pc ∈ (kernelRun0_C c i B hc0 hc1 hc2 x0 x1 xs0 xs1 xs2 xs3).2.2.2.2.2.1, y ∈ pc.1.set :=
  View.cover_of_tiledL _ S128x1.size (by sl_kernel_rfl) y
def sout0_C_3 : Vec F S128x1 .f32 := VS0_3.read (Elt F) (VS0_3.writes (Elt F) VS0_3.junk (kernelRun0_C c i B hc0 hc1 hc2 x0 x1 xs0 xs1 xs2 xs3).2.2.2.2.2.1)
def outsC : Outs6 F :=
  (out0_C_2 c i B hc0 hc1 hc2 x0 x1 xs0 xs1 xs2 xs3, out0_C_3 c i B hc0 hc1 hc2 x0 x1 xs0 xs1 xs2 xs3, sout0_C_0 c i B hc0 hc1 hc2 x0 x1 xs0 xs1 xs2 xs3,
   sout0_C_1 c i B hc0 hc1 hc2 x0 x1 xs0 xs1 xs2 xs3, sout0_C_2 c i B hc0 hc1 hc2 x0 x1 xs0 xs1 xs2 xs3, sout0_C_3 c i B hc0 hc1 hc2 x0 x1 xs0 xs1 xs2 xs3)

end C

end Cert.KernelIdeal.Fr

end
-- ==== Proof.KI.Around.lean ====
import proofs.«429975_j11527692223274_3_alg».proof.Proof.Gen.KernelIdeal.Launch
import proofs.«429975_j11527692223274_3_alg».proof.Proof.Gen.KernelIdeal.Skeleton
import proofs.«429975_j11527692223274_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev tailOpss : List (List (HloOp τ sig (Elt F))) :=
  [hostOps1, hostOps1_1, hostOps1_2, hostOps1_3, hostOps1_4, hostOps1_5, hostOps1_6, hostOps1_7, hostOps1_8]

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [hostOps0] tailOpss (by simp only [List.Forall]; exact hostOps0_sub)
    (by simp only [List.Forall]; exact hostOps0_fresh) main_chain

theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

theorem sfx_fresh : ∀ ops ∈ (tailOpss : List (List (HloOp τ sig (Elt F)))), ∀ op ∈ ops, op.fresh = ∅ := by
  intro ops hops
  simp only [List.mem_cons, List.mem_nil_iff, or_false] at hops
  rcases hops with rfl | rfl | rfl | rfl | rfl | rfl | rfl | rfl | rfl <;>
    (refine List.forall_iff_forall_mem.mp ?_; simp only [List.Forall]; repeat' constructor)

/-- Each operation after the region writes its own result only, and those are the buffers numbered from 7 up. -/
theorem tail_keeps (b : Ref sig .tc) (hb : b.idx.val < 7) :
    ∀ op ∈ (tailOpss : List (List (HloOp τ sig (Elt F)))).flatten, Proc.devRef .tc b ∉ op.writes := by
  refine List.forall_iff_forall_mem.mp ?_
  simp only [tailOpss, hostOps1, hostOps1_1, hostOps1_2, hostOps1_3, hostOps1_4, hostOps1_5, hostOps1_6, hostOps1_7, hostOps1_8, List.flatten_cons, List.flatten_nil, List.append_nil, List.cons_append,
    List.nil_append, List.Forall, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton]
  repeat' apply And.intro
  all_goals
    intro e
    have h := Proc.devRef_injective _ e
    subst h
    exact absurd hb (by decide)

theorem sfx_keeps : ∀ ops ∈ (tailOpss : List (List (HloOp τ sig (Elt F)))), ∀ op ∈ ops,
    ∀ w, Proc.devRef .tc (Pipeline.arrRef spec0 w) ∉ op.writes :=
  fun ops hops op hop w => tail_keeps _ ((by decide : ∀ w, (Pipeline.arrRef spec0 w).idx.val < 7) w) op (List.mem_flatten.mpr ⟨ops, hops, hop⟩)

set_option maxHeartbeats 1000000 in
theorem V_main_arg0 (c : Dev nD) : V m c main_arg0 = m ((c : Thread nD τ).loc main_arg0) := by
  dsimp only [V, V0]; simp only [hostOps0, List.flatten_cons, List.flatten_nil, List.append_nil]; after_results
set_option maxHeartbeats 1000000 in
theorem V_main_arg1 (c : Dev nD) : V m c main_arg1 = m ((c : Thread nD τ).loc main_arg1) := by
  dsimp only [V, V0]; simp only [hostOps0, List.flatten_cons, List.flatten_nil, List.append_nil]; after_results
set_option maxHeartbeats 1000000 in
theorem V_main_arg2 (c : Dev nD) : V m c main_arg2 = m ((c : Thread nD τ).loc main_arg2) := by
  dsimp only [V, V0]; simp only [hostOps0, List.flatten_cons, List.flatten_nil, List.append_nil]; after_results
set_option maxHeartbeats 1000000 in
theorem V_main_arg3 (c : Dev nD) : V m c main_arg3 = m ((c : Thread nD τ).loc main_arg3) := by
  dsimp only [V, V0]; simp only [hostOps0, List.flatten_cons, List.flatten_nil, List.append_nil]; after_results

theorem V_main_v0 (c : Dev nD) : (V m c main_v0 : S512x1.Idx → Elt F .f32)
    = broadcastInDim S512x1 ![0] bcast_S512_S512x1_0 (m ((c : Thread nD τ).loc main_arg1)) := by
  dsimp only [V, V0]; simp only [hostOps0, List.flatten_cons, List.flatten_nil, List.append_nil]; after_results

theorem W_keeps (dats : (p : Fin _) → (c : Dev nD) → Dat τ (Elt F) Unit ℕ (UR sig nD τ) ℕ (cfgs p) c) (c : Dev nD) (b : Ref sig .tc)
    (hb : b.idx.val < 7) (hne : ∀ w, Pipeline.arrRef spec0 w ≠ b) :
    Pipeline.afterTail₀ cfgs dats 0 (V0 m) tailOpss c b = V m c b := by
  unfold Pipeline.afterTail₀
  rw [StableHlo.after_of_forall_not_mem _ _ (tail_keeps b hb), Pipeline.withArrays_of_ne _ c (V0 m c) _ b hne]

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans ((W_keeps m dats c main_arg1 (by decide) (by decide)).trans (V_main_arg1 m c)),
     ((h c).2 main_arg2 (Pipeline.mem_restRefs_of main_arg2 (by decide) (by decide))).trans ((W_keeps m dats c main_arg2 (by decide) (by decide)).trans (V_main_arg2 m c)),
     ((h c).2 main_arg3 (Pipeline.mem_restRefs_of main_arg3 (by decide) (by decide))).trans ((W_keeps m dats c main_arg3 (by decide) (by decide)).trans (V_main_arg3 m c))⟩) h

end Cert.KernelIdeal.Fr

end
-- ==== Proof.KI.FrameDefs.lean ====
import proofs.«429975_j11527692223274_3_alg».proof.Proof.KI.Outs
import proofs.«429975_j11527692223274_3_alg».proof.Proof.KI.Around

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

def xfill (c : Dev nD) (t : Fin cfg0.N) : Vec F S1x128x12288 .f32 :=
  win0_0.fill (grid0.coords t) (fun _ => Scalar.ofBits .f32 0#32) (iblk m c 0 t)

def stepA (c : Dev nD) (t : Fin cfg0.N) (h0 : t.val % 13 = 0) : Outs6 F :=
  outsA c (grid0.coords t) (bufsAt t) ((hcond0_0 t).mpr h0) ((hcond0_1 t).mpr (by omega)) (fun h => by have := (hcond0_2 t).mp h; omega) (xfill m c t) (iblk m c 1 t)

def stepB (c : Dev nD) (t : Fin cfg0.N) (h0 : ¬t.val % 13 = 0) (h1 : t.val % 13 < 12) (prev : Outs6 F) : Outs6 F :=
  outsB c (grid0.coords t) (bufsAt t) (fun h => h0 ((hcond0_0 t).mp h)) ((hcond0_1 t).mpr h1) (fun h => by have := (hcond0_2 t).mp h; omega) (xfill m c t) (iblk m c 1 t) prev.2.2.1 prev.2.2.2.1 prev.2.2.2.2.1 prev.2.2.2.2.2

def stepC (c : Dev nD) (t : Fin cfg0.N) (h2 : t.val % 13 = 12) (prev : Outs6 F) : Outs6 F :=
  outsC c (grid0.coords t) (bufsAt t) (fun h => by have := (hcond0_0 t).mp h; omega) (fun h => by have := (hcond0_1 t).mp h; omega) ((hcond0_2 t).mpr h2) (xfill m c t) (iblk m c 1 t) prev.2.2.1 prev.2.2.2.1 prev.2.2.2.2.1 prev.2.2.2.2.2

def outsAt0 (c : Dev nD) : (n : ℕ) → n < cfg0.N → Outs6 F
  | 0, hn => stepA m c ⟨0, hn⟩ (Nat.zero_mod _)
  | n + 1, hn =>
    if h0 : (n + 1) % 13 = 0 then stepA m c ⟨n + 1, hn⟩ h0
    else if h2 : (n + 1) % 13 = 12 then stepC m c ⟨n + 1, hn⟩ h2 (outsAt0 c n (Nat.lt_of_succ_lt hn))
    else stepB m c ⟨n + 1, hn⟩ h0 (by show (n + 1) % 13 < 12; have := Nat.mod_lt (n + 1) (show 0 < 13 by decide); omega) (outsAt0 c n (Nat.lt_of_succ_lt hn))

theorem outsAt0_A (c : Dev nD) (t : Fin cfg0.N) (h0 : t.val % 13 = 0) :
    outsAt0 m c t.val t.isLt = stepA m c t h0 := by
  obtain ⟨n, hn⟩ := t
  cases n with
  | zero => rfl
  | succ n => exact dif_pos h0

theorem outsAt0_B (c : Dev nD) (t : Fin cfg0.N) (h0 : ¬t.val % 13 = 0) (h1 : t.val % 13 < 12) :
    outsAt0 m c t.val t.isLt = stepB m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_neg (by dsimp only at h1 ⊢; omega))

theorem outsAt0_C (c : Dev nD) (t : Fin cfg0.N) (h2 : t.val % 13 = 12) :
    outsAt0 m c t.val t.isLt = stepC m c t h2 (outsAt0 m c (t.val - 1) (Nat.lt_of_le_of_lt (Nat.sub_le _ _) t.isLt)) := by
  obtain ⟨n, hn⟩ := t
  cases n with
  | zero => exact absurd h2 (by show ¬(0 % 13 = 12); decide)
  | succ n => exact (dif_neg (by dsimp only at h2 ⊢; omega)).trans (dif_pos h2)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2.1) ∗ owns (c : Thread nD τ) scM0_3 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2.1) ∗ owns (c : Thread nD τ) scM0_3 fullShare ((outsAt0 m c n hn).2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1) ∗ owns (c : Thread nD τ) scM0_2 fullShare ((outsAt0 m c (n - 1) (by omega)).2.2.2.2.1) ∗ owns (c : Thread nD τ) scM0_3 fullShare ((outsAt0 m c (n - 1) (by omega)).2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => xfill m c t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = xfill m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

theorem before0_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk; rw [A_eq]

theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

end Cert.KernelIdeal.Fr

end
-- ==== Proof.KI.Pieces.lean ====
import proofs.«429975_j11527692223274_3_alg».proof.Proof.KI.Outs
import Idealize.ShloMosaic.Lib.Pipeline.Value
import Mathlib.Tactic.FinCases

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := funext fun a => by fin_cases a <;> rfl

theorem hz3 : (![0, 0, 0] : Fin 3 → Nat) = fun _ => 0 := funext fun a => by fin_cases a <;> rfl

abbrev v5of (i : grid0.Coords) : BitVec 32 := Scalar.muli (BitVec.ofNat 32 (i 2).val) 12288#32

variable (c : Dev nD) (i : grid0.Coords) (B : Bufs)

-- Each buffer's pieces, read back, are one payload of the loaded blocks and of the statistics the step before left:
-- a buffer stored once holds that store's payload; one reset and then updated holds the update, which read the reset value.

section C
variable (hc0 : ¬cond0_0 i) (hc1 : ¬cond0_1 i) (hc2 : cond0_2 i) (x0 : Vec F S1x128x12288 .f32) (x1 : Vec F S128x1 .f32) (xs0 xs1 xs2 xs3 : Vec F S128x1 .f32)

theorem sout0_C_0_eq :
    sout0_C_0 c i B hc0 hc1 hc2 x0 x1 xs0 xs1 xs2 xs3 = k0_pay20 (k0_pay15 (k0_pay5 x0) (v5of i) xs0) := by
  unfold sout0_C_0
  rw [View.read_writes_eq_canon _ _ _ (scover0_C_0 c i B hc0 hc1 hc2 x0 x1 xs0 xs1 xs2 xs3)]
  unfold kernelRun0_C
  dsimp only
  sl_unfold_words
  rw [View.canon_unit_zero hz2]
  simp only [View.readAt_eq_ld, B.harg3.read_unread, B.harg7.read_unread, View.ld_unit_zero (S := S128x1) hz2, View.ld_unit_zero (S := S1x128x12288) hz3]

theorem sout0_C_1_eq :
    sout0_C_1 c i B hc0 hc1 hc2 x0 x1 xs0 xs1 xs2 xs3 = k0_pay17 (k0_pay5 x0) (v5of i) xs0 xs0 xs1 := by
  unfold sout0_C_1
  rw [View.read_writes_eq_canon _ _ _ (scover0_C_1 c i B hc0 hc1 hc2 x0 x1 xs0 xs1 xs2 xs3)]
  unfold kernelRun0_C
  dsimp only
  sl_unfold_words
  rw [View.canon_unit_zero hz2]
  simp only [View.readAt_eq_ld, B.harg3.read_unread, B.harg7.read_unread, B.harg8.read_unread, View.ld_unit_zero (S := S128x1) hz2, View.ld_unit_zero (S := S1x128x12288) hz3]

theorem sout0_C_2_eq :
    sout0_C_2 c i B hc0 hc1 hc2 x0 x1 xs0 xs1 xs2 xs3 = k0_pay19 (k0_pay18 (k0_pay5 x0) (v5of i) xs0 xs0 xs2) := by
  unfold sout0_C_2
  rw [View.read_writes_eq_canon _ _ _ (scover0_C_2 c i B hc0 hc1 hc2 x0 x1 xs0 xs1 xs2 xs3)]
  unfold kernelRun0_C
  dsimp only
  sl_unfold_words
  rw [View.canon_unit_zero hz2]
  simp only [View.readAt_eq_ld, B.harg3.read_unread, B.harg7.read_unread, B.harg9.read_unread, View.ld_unit_zero (S := S128x1) hz2, View.ld_unit_zero (S := S1x128x12288) hz3]

theorem sout0_C_3_eq :
    sout0_C_3 c i B hc0 hc1 hc2 x0 x1 xs0 xs1 xs2 xs3 = k0_pay21 (k0_pay5 x0) (k0_pay13 (v5of i)) xs3 := by
  unfold sout0_C_3
  rw [View.read_writes_eq_canon _ _ _ (scover0_C_3 c i B hc0 hc1 hc2 x0 x1 xs0 xs1 xs2 xs3)]
  unfold kernelRun0_C
  dsimp only
  sl_unfold_words
  rw [View.canon_unit_zero hz2]
  simp only [View.readAt_eq_ld, B.harg3.read_unread, B.harg10.read_unread, View.ld_unit_zero (S := S128x1) hz2, View.ld_unit_zero (S := S1x128x12288) hz3]

theorem out0_C_2_eq :
    out0_C_2 c i B hc0 hc1 hc2 x0 x1 xs0 xs1 xs2 xs3 = k0_pay22 (k0_pay20 (k0_pay15 (k0_pay5 x0) (v5of i) xs0)) (k0_pay17 (k0_pay5 x0) (v5of i) xs0 xs0 xs1) := by
  unfold out0_C_2
  rw [View.read_writes_eq_canon _ _ _ (cover0_C_2 c i B hc0 hc1 hc2 x0 x1 xs0 xs1 xs2 xs3)]
  unfold kernelRun0_C
  dsimp only
  sl_unfold_words
  rw [View.canon_unit_zero hz3]
  simp only [View.readAt_eq_ld, B.harg3.read_unread, B.harg7.read_unread, B.harg8.read_unread, View.ld_unit_zero (S := S128x1) hz2, View.ld_unit_zero (S := S1x128x12288) hz3, View.readCov_unit_zero (S := S128x1) _ hz2]

theorem out0_C_3_eq :
    out0_C_3 c i B hc0 hc1 hc2 x0 x1 xs0 xs1 xs2 xs3 = k0_pay7 (k0_pay23 (k0_pay20 (k0_pay15 (k0_pay5 x0) (v5of i) xs0)) (k0_pay19 (k0_pay18 (k0_pay5 x0) (v5of i) xs0 xs0 xs2))) (k0_pay24 (k0_pay21 (k0_pay5 x0) (k0_pay13 (v5of i)) xs3)) (k0_pay25 (F := F)) x1 := by
  unfold out0_C_3
  rw [View.read_writes_eq_canon _ _ _ (cover0_C_3 c i B hc0 hc1 hc2 x0 x1 xs0 xs1 xs2 xs3)]
  unfold kernelRun0_C
  dsimp only
  sl_unfold_words
  rw [View.canon_unit_zero hz3]
  simp only [View.readAt_eq_ld, B.harg3.read_unread, B.harg4.read_unread, B.harg7.read_unread, B.harg9.read_unread, B.harg10.read_unread, View.ld_unit_zero (S := S128x1) hz2, View.ld_unit_zero (S := S1x128x12288) hz3, View.readCov_unit_zero (S := S128x1) _ hz2]

end C

section B
variable (hc0 : ¬cond0_0 i) (hc1 : cond0_1 i) (hc2 : ¬cond0_2 i) (x0 : Vec F S1x128x12288 .f32) (x1 : Vec F S128x1 .f32) (xs0 xs1 xs2 xs3 : Vec F S128x1 .f32)

theorem sout0_B_0_eq :
    sout0_B_0 c i B hc0 hc1 hc2 x0 x1 xs0 xs1 xs2 xs3 = k0_pay12 (k0_pay5 x0) xs0 := by
  unfold sout0_B_0
  rw [View.read_writes_eq_canon _ _ _ (scover0_B_0 c i B hc0 hc1 hc2 x0 x1 xs0 xs1 xs2 xs3)]
  unfold kernelRun0_B
  dsimp only
  sl_unfold_words
  rw [View.canon_unit_zero hz2]
  simp only [View.readAt_eq_ld, B.harg3.read_unread, B.harg7.read_unread, View.ld_unit_zero (S := S128x1) hz2, View.ld_unit_zero (S := S1x128x12288) hz3]

theorem sout0_B_1_eq :
    sout0_B_1 c i B hc0 hc1 hc2 x0 x1 xs0 xs1 xs2 xs3 = k0_pay10 (k0_pay5 x0) xs0 xs0 xs1 := by
  unfold sout0_B_1
  rw [View.read_writes_eq_canon _ _ _ (scover0_B_1 c i B hc0 hc1 hc2 x0 x1 xs0 xs1 xs2 xs3)]
  unfold kernelRun0_B
  dsimp only
  sl_unfold_words
  rw [View.canon_unit_zero hz2]
  simp only [View.readAt_eq_ld, B.harg3.read_unread, B.harg7.read_unread, B.harg8.read_unread, View.ld_unit_zero (S := S128x1) hz2, View.ld_unit_zero (S := S1x128x12288) hz3]

theorem sout0_B_2_eq :
    sout0_B_2 c i B hc0 hc1 hc2 x0 x1 xs0 xs1 xs2 xs3 = k0_pay11 (k0_pay5 x0) xs0 xs0 xs2 := by
  unfold sout0_B_2
  rw [View.read_writes_eq_canon _ _ _ (scover0_B_2 c i B hc0 hc1 hc2 x0 x1 xs0 xs1 xs2 xs3)]
  unfold kernelRun0_B
  dsimp only
  sl_unfold_words
  rw [View.canon_unit_zero hz2]
  simp only [View.readAt_eq_ld, B.harg3.read_unread, B.harg7.read_unread, B.harg9.read_unread, View.ld_unit_zero (S := S128x1) hz2, View.ld_unit_zero (S := S1x128x12288) hz3]

theorem sout0_B_3_eq :
    sout0_B_3 c i B hc0 hc1 hc2 x0 x1 xs0 xs1 xs2 xs3 = k0_pay6 x0 xs3 := by
  unfold sout0_B_3
  rw [View.read_writes_eq_canon _ _ _ (scover0_B_3 c i B hc0 hc1 hc2 x0 x1 xs0 xs1 xs2 xs3)]
  unfold kernelRun0_B
  dsimp only
  sl_unfold_words
  rw [View.canon_unit_zero hz2]
  simp only [View.readAt_eq_ld, B.harg3.read_unread, B.harg10.read_unread, View.ld_unit_zero (S := S128x1) hz2, View.ld_unit_zero (S := S1x128x12288) hz3]

end B

section A
variable (hc0 : cond0_0 i) (hc1 : cond0_1 i) (hc2 : ¬cond0_2 i) (x0 : Vec F S1x128x12288 .f32) (x1 : Vec F S128x1 .f32)

theorem sout0_A_0_eq :
    sout0_A_0 c i B hc0 hc1 hc2 x0 x1 = k0_pay12 (k0_pay5 x0) (k0_pay1 (F := F)) := by
  unfold sout0_A_0
  rw [View.read_writes_eq_canon _ _ _ (scover0_A_0 c i B hc0 hc1 hc2 x0 x1)]
  unfold kernelRun0_A
  dsimp only
  sl_unfold_words
  rw [View.canon_cons_unit_zero (S := S128x1) hz2]
  simp only [View.readAt_eq_ld, B.harg3.read_unread, View.ld_unit_zero (S := S128x1) hz2, View.ld_unit_zero (S := S1x128x12288) hz3, View.readCov_unit_zero (S := S128x1) _ hz2]

theorem sout0_A_1_eq :
    sout0_A_1 c i B hc0 hc1 hc2 x0 x1 = k0_pay10 (k0_pay5 x0) (k0_pay1 (F := F)) (k0_pay1 (F := F)) (k0_pay2 (F := F)) := by
  unfold sout0_A_1
  rw [View.read_writes_eq_canon _ _ _ (scover0_A_1 c i B hc0 hc1 hc2 x0 x1)]
  unfold kernelRun0_A
  dsimp only
  sl_unfold_words
  rw [View.canon_cons_unit_zero (S := S128x1) hz2]
  simp only [View.readAt_eq_ld, B.harg3.read_unread, View.ld_unit_zero (S := S128x1) hz2, View.ld_unit_zero (S := S1x128x12288) hz3, View.readCov_unit_zero (S := S128x1) _ hz2]

theorem sout0_A_2_eq :
    sout0_A_2 c i B hc0 hc1 hc2 x0 x1 = k0_pay11 (k0_pay5 x0) (k0_pay1 (F := F)) (k0_pay1 (F := F)) (k0_pay3 (F := F)) := by
  unfold sout0_A_2
  rw [View.read_writes_eq_canon _ _ _ (scover0_A_2 c i B hc0 hc1 hc2 x0 x1)]
  unfold kernelRun0_A
  dsimp only
  sl_unfold_words
  rw [View.canon_cons_unit_zero (S := S128x1) hz2]
  simp only [View.readAt_eq_ld, B.harg3.read_unread, View.ld_unit_zero (S := S128x1) hz2, View.ld_unit_zero (S := S1x128x12288) hz3, View.readCov_unit_zero (S := S128x1) _ hz2]

theorem sout0_A_3_eq :
    sout0_A_3 c i B hc0 hc1 hc2 x0 x1 = k0_pay6 x0 (k0_pay4 (F := F)) := by
  unfold sout0_A_3
  rw [View.read_writes_eq_canon _ _ _ (scover0_A_3 c i B hc0 hc1 hc2 x0 x1)]
  unfold kernelRun0_A
  dsimp only
  sl_unfold_words
  rw [View.canon_cons_unit_zero (S := S128x1) hz2]
  simp only [View.readAt_eq_ld, B.harg3.read_unread, View.ld_unit_zero (S := S128x1) hz2, View.ld_unit_zero (S := S1x128x12288) hz3, View.readCov_unit_zero (S := S128x1) _ hz2]

end A

end Cert.KernelIdeal.Fr

end
-- ==== Proof.KI.Mask.lean ====
import proofs.«429975_j11527692223274_3_alg».proof.Proof.Gen.KernelIdeal.Skeleton
import proofs.«429975_j11527692223274_3_alg».proof.Proof.Gen.KernelIdeal.Launch
import proofs.«429975_j11527692223274_3_alg».proof.Proof.Gen.KernelIdeal.Points
import Idealize.ShloMosaic.Lib.Pipeline.Kit
import Idealize.ShloMosaic.Lib.ValueIdx
import Idealize.ShloMosaic.Lib.StableHlo.Predicate
import Idealize.ShloMosaic.Lib.Pipeline.Value

noncomputable section

namespace Cert.KernelIdeal.Msk

open Idealize.ShloMosaic Idealize.SL.Sem
open Cert.KernelIdeal Cert.KernelIdeal.Gen
open Idealize.ShloMosaic.ValueIdx

variable {F : FTy → Type} [FloatOps F]

theorem clip_none_of_ne (t : Fin cfg0.N) (h : t.val % 13 ≠ 12) : ∀ a, (cfg0.win 0).clip (grid0.coords t) a = none :=
  (by decide +kernel : ∀ t : Fin grid0.N, t.val % 13 ≠ 12 → ∀ a, win0_0.clip (grid0.coords t) a = none) t h

theorem fill_eq_of_moved {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

theorem fill_eq_of_clip_none {G : Pipeline.Grid} (w : Pipeline.Window sig G) {α : Type} (i : G.Coords) (hn : ∀ a, w.clip i a = none)
    (d d' : w.block.Idx → α) (g : (w.xblock i).Idx → α) : w.fill i d g = w.fill i d' g := by
  funext j
  refine fill_eq_of_moved w i d d' g j ((w.moved_iff i j).mpr fun a => ?_)
  show (j a).val < (w.clip i a).extent (w.size a)
  rw [hn a]; exact (j a).isLt

theorem fill_of_ne (t : Fin cfg0.N) (h : t.val % 13 ≠ 12) {α : Type} (d d' : (cfg0.win 0).block.Idx → α)
    (g : ((cfg0.win 0).xblock (grid0.coords t)).Idx → α) :
    (cfg0.win 0).fill (grid0.coords t) d g = (cfg0.win 0).fill (grid0.coords t) d' g :=
  fill_eq_of_clip_none (cfg0.win 0) (grid0.coords t) (clip_none_of_ne t h) d d' g

theorem coord2_last (t : Fin cfg0.N) (h : t.val % 13 = 12) : ((grid0.coords t) 2).val = 12 :=
  (by decide +kernel : ∀ t : Fin grid0.N, t.val % 13 = 12 → ((grid0.coords t) 2).val = 12) t h

theorem xsize_last (t : Fin cfg0.N) (h : t.val % 13 = 12) :
    ∀ a, (cfg0.win 0).xsize (grid0.coords t) a = (![1, 128, 4187] : Fin 3 → Nat) a :=
  (by decide +kernel : ∀ t : Fin grid0.N, t.val % 13 = 12 → ∀ a, win0_0.xsize (grid0.coords t) a = (![1, 128, 4187] : Fin 3 → Nat) a) t h

theorem moved_last (t : Fin cfg0.N) (h : t.val % 13 = 12) (j : (cfg0.win 0).block.Idx) :
    (cfg0.win 0).moved (grid0.coords t) j = true ↔ (j 2).val < 4187 := by
  rw [Pipeline.Window.moved_iff]
  constructor
  · intro hm
    have := hm 2
    rw [xsize_last t h 2] at this
    exact this
  · intro hj a
    rw [xsize_last t h a]
    match a with
    | ⟨0, _⟩ => exact (j 0).isLt
    | ⟨1, _⟩ => exact (j 1).isLt
    | ⟨2, _⟩ => exact hj

theorem iota_col (r : Fin 128) (j : Fin 12288) :
    iota .tc S128x12288 32 [1] iota_S128x12288_d1_w32 (ix2 r j) = BitVec.ofNat 32 j.val := by
  simp [iota]

theorem pay13_apply (v5 : BitVec 32) (r : Fin 128) (j : Fin 12288) :
    k0_pay13 v5 (ix2 r j) = IntOp.cmpi .slt (IntOp.addi v5 (BitVec.ofNat 32 j.val)) 151643#32 := by
  unfold k0_pay13
  show IntOp.cmpi .slt (IntOp.addi v5 (iota .tc S128x12288 32 [1] iota_S128x12288_d1_w32 (ix2 r j))) 151643#32 = _
  rw [iota_col]

theorem off_last : Scalar.muli (BitVec.ofNat 32 12) 12288#32 = 147456#32 := by decide

theorem mask_last (r : Fin 128) (j : Fin 12288) :
    k0_pay13 (Scalar.muli (BitVec.ofNat 32 12) 12288#32) (ix2 r j) = 1#1 ↔ j.val < 4187 := by
  rw [pay13_apply, off_last]
  have hj := j.isLt
  have hsum : (IntOp.addi 147456#32 (BitVec.ofNat 32 j.val)).toNat = 147456 + j.val := by
    unfold IntOp.addi
    rw [BitVec.toNat_add, BitVec.toNat_ofNat, BitVec.toNat_ofNat]
    omega
  have hc : (151643#32 : BitVec 32).toNat = 151643 := by decide
  rw [StableHlo.Predicate.slt_iff_toNat (by rw [hsum]; omega) (by rw [hc]; omega), hsum, hc]
  omega

theorem mask_last_at (i : grid0.Coords) (hi : (i 2).val = 12) (r : Fin 128) (j : Fin 12288) :
    k0_pay13 (Scalar.muli (BitVec.ofNat 32 (i 2).val) 12288#32) (ix2 r j) = 1#1 ↔ j.val < 4187 := by
  rw [hi]; exact mask_last r j

theorem select_indep {α : Type} (c : IVec S128x12288 1)
    (hc : ∀ (r : Fin 128) (j : Fin 12288), c (ix2 r j) = 1#1 → j.val < 4187)
    (v4 v4' z : S128x12288.Idx → α)
    (hagree : ∀ (r : Fin 128) (j : Fin 12288), j.val < 4187 → v4 (ix2 r j) = v4' (ix2 r j)) :
    select c v4 z = select c v4' z := by
  funext x
  obtain ⟨r, j, rfl⟩ : ∃ (r : Fin 128) (j : Fin 12288), x = ix2 r j := ⟨x 0, x 1, eq_ix2 x⟩
  rw [select_apply, select_apply]
  by_cases h : c (ix2 r j) = 1#1
  · rw [h, select_one, select_one]; exact hagree r j (hc r j h)
  · rw [eq_zero_of_ne_one h, select_zero, select_zero]

section Indep

variable (v5 : BitVec 32)
  (hmask : ∀ (r : Fin 128) (j : Fin 12288), k0_pay13 v5 (ix2 r j) = 1#1 ↔ j.val < 4187)
  (v4 v4' : FVec F S128x12288 .f32)
  (hagree : ∀ (r : Fin 128) (j : Fin 12288), j.val < 4187 → v4 (ix2 r j) = v4' (ix2 r j))

include hmask hagree

theorem pay14_indep : k0_pay14 v4 v5 = k0_pay14 v4' v5 := by
  unfold k0_pay14
  exact select_indep (k0_pay13 v5) (fun r j h => (hmask r j).mp h) v4 v4' _ hagree

theorem pay15_indep (v21 : Vec F S128x1 .f32) : k0_pay15 v4 v5 v21 = k0_pay15 v4' v5 v21 := by
  unfold k0_pay15
  rw [pay14_indep v5 hmask v4 v4' hagree]

theorem pay16_indep (v21 : Vec F S128x1 .f32) : k0_pay16 v4 v5 v21 = k0_pay16 v4' v5 v21 := by
  unfold k0_pay16
  rw [pay15_indep v5 hmask v4 v4' hagree, pay14_indep v5 hmask v4 v4' hagree]

theorem pay17_indep (v21 v29 v37 : Vec F S128x1 .f32) : k0_pay17 v4 v5 v21 v29 v37 = k0_pay17 v4' v5 v21 v29 v37 := by
  unfold k0_pay17
  rw [pay16_indep v5 hmask v4 v4' hagree, pay15_indep v5 hmask v4 v4' hagree]

theorem pay18_indep (v21 v32 v45 : Vec F S128x1 .f32) : k0_pay18 v4 v5 v21 v32 v45 = k0_pay18 v4' v5 v21 v32 v45 := by
  unfold k0_pay18
  rw [pay16_indep v5 hmask v4 v4' hagree, pay15_indep v5 hmask v4 v4' hagree]

theorem pay21_indep (v58 : Vec F S128x1 .f32) : k0_pay21 v4 (k0_pay13 v5) v58 = k0_pay21 v4' (k0_pay13 v5) v58 := by
  unfold k0_pay21
  dsimp only
  rw [select_indep (k0_pay13 v5) (fun r j h => (hmask r j).mp h) v4 v4' _ hagree]

end Indep

theorem pay5_apply (X : Vec F S1x128x12288 .f32) (r : Fin 128) (j : Fin 12288) :
    k0_pay5 X (ix2 r j) = X (ix3 (0 : Fin 1) r j) := by
  unfold k0_pay5
  refine (shapeCast_dropUnit_apply ![128, 12288] X shapeCasts_S1x128x12288_S128x12288 (ix2 r j)).trans ?_
  refine congrArg X ?_
  funext a
  match a with
  | ⟨0, _⟩ => rfl
  | ⟨1, _⟩ => rfl
  | ⟨2, _⟩ => rfl

theorem pay5_agree (t : Fin cfg0.N) (h : t.val % 13 = 12) (X X' : Vec F S1x128x12288 .f32)
    (hX : ∀ j : (cfg0.win 0).block.Idx, (cfg0.win 0).moved (grid0.coords t) j = true → X j = X' j)
    (r : Fin 128) (j : Fin 12288) (hj : j.val < 4187) : k0_pay5 X (ix2 r j) = k0_pay5 X' (ix2 r j) := by
  rw [pay5_apply, pay5_apply]
  exact hX _ ((moved_last t h _).mpr hj)

theorem pay5_fill_agree (t : Fin cfg0.N) (h : t.val % 13 = 12) (d d' : (cfg0.win 0).block.Idx → F .f32)
    (g : ((cfg0.win 0).xblock (grid0.coords t)).Idx → F .f32) (r : Fin 128) (j : Fin 12288) (hj : j.val < 4187) :
    k0_pay5 ((cfg0.win 0).fill (grid0.coords t) d g) (ix2 r j) = k0_pay5 ((cfg0.win 0).fill (grid0.coords t) d' g) (ix2 r j) :=
  pay5_agree t h _ _ (fun j hm => fill_eq_of_moved (cfg0.win 0) (grid0.coords t) d d' g j hm) r j hj

section Fill

variable (t : Fin cfg0.N) (h : t.val % 13 = 12) (d d' : (cfg0.win 0).block.Idx → F .f32)
  (g : ((cfg0.win 0).xblock (grid0.coords t)).Idx → F .f32)

include h

-- The lane mask of the last vocab step keeps the lanes below 4187, and those lie inside the array.
theorem pay15_fill (v21 : Vec F S128x1 .f32) :
    k0_pay15 (k0_pay5 ((cfg0.win 0).fill (grid0.coords t) d g)) (Scalar.muli (BitVec.ofNat 32 ((grid0.coords t) 2).val) 12288#32) v21 = k0_pay15 (k0_pay5 ((cfg0.win 0).fill (grid0.coords t) d' g)) (Scalar.muli (BitVec.ofNat 32 ((grid0.coords t) 2).val) 12288#32) v21 :=
  pay15_indep _ (mask_last_at (grid0.coords t) (coord2_last t h)) _ _ (pay5_fill_agree t h d d' g) v21

theorem pay17_fill (v21 v29 v37 : Vec F S128x1 .f32) :
    k0_pay17 (k0_pay5 ((cfg0.win 0).fill (grid0.coords t) d g)) (Scalar.muli (BitVec.ofNat 32 ((grid0.coords t) 2).val) 12288#32) v21 v29 v37 = k0_pay17 (k0_pay5 ((cfg0.win 0).fill (grid0.coords t) d' g)) (Scalar.muli (BitVec.ofNat 32 ((grid0.coords t) 2).val) 12288#32) v21 v29 v37 :=
  pay17_indep _ (mask_last_at (grid0.coords t) (coord2_last t h)) _ _ (pay5_fill_agree t h d d' g) v21 v29 v37

theorem pay18_fill (v21 v32 v45 : Vec F S128x1 .f32) :
    k0_pay18 (k0_pay5 ((cfg0.win 0).fill (grid0.coords t) d g)) (Scalar.muli (BitVec.ofNat 32 ((grid0.coords t) 2).val) 12288#32) v21 v32 v45 = k0_pay18 (k0_pay5 ((cfg0.win 0).fill (grid0.coords t) d' g)) (Scalar.muli (BitVec.ofNat 32 ((grid0.coords t) 2).val) 12288#32) v21 v32 v45 :=
  pay18_indep _ (mask_last_at (grid0.coords t) (coord2_last t h)) _ _ (pay5_fill_agree t h d d' g) v21 v32 v45

theorem pay21_fill (v58 : Vec F S128x1 .f32) :
    k0_pay21 (k0_pay5 ((cfg0.win 0).fill (grid0.coords t) d g)) (k0_pay13 (Scalar.muli (BitVec.ofNat 32 ((grid0.coords t) 2).val) 12288#32)) v58 = k0_pay21 (k0_pay5 ((cfg0.win 0).fill (grid0.coords t) d' g)) (k0_pay13 (Scalar.muli (BitVec.ofNat 32 ((grid0.coords t) 2).val) 12288#32)) v58 :=
  pay21_indep _ (mask_last_at (grid0.coords t) (coord2_last t h)) _ _ (pay5_fill_agree t h d d' g) v58

end Fill

end Cert.KernelIdeal.Msk

end
-- ==== Proof.KI.Frame.lean ====
import proofs.«429975_j11527692223274_3_alg».proof.Proof.KI.FrameDefs
import proofs.«429975_j11527692223274_3_alg».proof.Proof.KI.Pieces
import proofs.«429975_j11527692223274_3_alg».proof.Proof.KI.Mask

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body masks exactly the lanes of the last block that lie past the array's end. -/
theorem stepC_fill (c : Dev nD) (t : Fin cfg0.N) (h2 : t.val % 13 = 12) (d : S1x128x12288.Idx → Elt F .f32)
    (x1 xs0 xs1 xs2 xs3 : Vec F S128x1 .f32) :
    outsC c (grid0.coords t) (bufsAt t) (fun h => by have := (hcond0_0 t).mp h; omega) (fun h => by have := (hcond0_1 t).mp h; omega) ((hcond0_2 t).mpr h2) (xfill m c t) x1 xs0 xs1 xs2 xs3
      = outsC c (grid0.coords t) (bufsAt t) (fun h => by have := (hcond0_0 t).mp h; omega) (fun h => by have := (hcond0_1 t).mp h; omega) ((hcond0_2 t).mpr h2) (win0_0.fill (grid0.coords t) d (iblk m c 0 t)) x1 xs0 xs1 xs2 xs3 := by
  unfold xfill outsC
  rw [out0_C_2_eq, out0_C_2_eq, out0_C_3_eq, out0_C_3_eq, sout0_C_0_eq, sout0_C_0_eq, sout0_C_1_eq, sout0_C_1_eq,
    sout0_C_2_eq, sout0_C_2_eq, sout0_C_3_eq, sout0_C_3_eq,
    Msk.pay15_fill (F := F) t h2 (fun _ => Scalar.ofBits .f32 0#32) d (iblk m c 0 t) xs0,
    Msk.pay17_fill (F := F) t h2 (fun _ => Scalar.ofBits .f32 0#32) d (iblk m c 0 t) xs0 xs0 xs1,
    Msk.pay18_fill (F := F) t h2 (fun _ => Scalar.ofBits .f32 0#32) d (iblk m c 0 t) xs0 xs0 xs2,
    Msk.pay21_fill (F := F) t h2 (fun _ => Scalar.ofBits .f32 0#32) d (iblk m c 0 t) xs3]

theorem fill_eq_xfill (c : Dev nD) (t : Fin cfg0.N) (h : t.val % 13 ≠ 12) (d : S1x128x12288.Idx → Elt F .f32) :
    win0_0.fill (grid0.coords t) d (iblk m c 0 t) = xfill m c t := by
  unfold xfill
  exact Msk.fill_of_ne t h d _ (iblk m c 0 t)

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-- Before the first point the invariant is the launch's. -/
theorem Phi_any (c : Dev nD) (t : Fin (cfg0.N + 1)) : (dats m 0 c).Φ t ⊢ Pipeline.ΦA spec0 c := by
  by_cases ht : t.val = 0
  · rw [show (dats m 0 c).Φ t = PhiS m c t.val (Nat.le_of_lt_succ t.isLt) from rfl, PhiS_zero m c _ _ ht]
  · exact Phi_out m c t ht

theorem hout (c : Dev nD) : (dats m 0 c).Φ (Fin.last cfg0.N) ⊢ Pipeline.ΦA spec0 c := Phi_any m c _

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

theorem leaves0_0 (c : Dev nD) (t : Fin cfg0.N) :
    (dats m 0 c).leaves 0 t = iprop(∃ d, owns (c : Thread nD τ) (ms0_0 t) fullShare (win0_0.fill (grid0.coords t) d (iblk m c 0 t))) := by
  unfold Dat.leaves; rw [liveAt0_0 t]; dsimp only
  rw [after0_0]; unfold xfill; rw [win0_0.cut_fill]; rfl

theorem leaves0_1 (c : Dev nD) (t : Fin cfg0.N) :
    (dats m 0 c).leaves 1 t = owns (c : Thread nD τ) (ms0_1 t) fullShare (iblk m c 1 t) := by
  unfold Dat.leaves; rw [liveAt0_1 t]; dsimp only; rw [after0_1]

set_option maxHeartbeats 4800000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_1, before0_0]
  rw [show (dats m 0 c).owesAt () t.succ = (dats m 0 c).owesAt () t.castSucc from rfl]
  rw [show (dats m 0 c).Φ t.succ = PhiS m c (t.val + 1) t.isLt from rfl, PhiS_succ]
  rw [leaves0_0, leaves0_1]
  have hN : t.val < 104 := lt_of_lt_of_eq t.isLt (show cfg0.N = 104 from N_0)
  have hlt : t.val % 13 < 13 := Nat.mod_lt _ (by decide)
  by_cases h0 : t.val % 13 = 0
  ·
    rw [Dat.leaves_idle (dats m 0 c) 2 t (idleAt0 t (by omega)).1.1 (idleAt0 t (by omega)).1.2,
      Dat.leaves_idle (dats m 0 c) 3 t (idleAt0 t (by omega)).2.1 (idleAt0 t (by omega)).2.2]
    rw [outsAt0_A m c t h0]
    unfold stepA outsA; dsimp only
    unfold sout0_A_0 sout0_A_1 sout0_A_2 sout0_A_3
    refine BIBase.Entails.trans (sep_mono_left (Phi_any m c t.castSucc)) ?_
    rw [PhiA0_eq]
    iintro ⟨⟨⟨HS0, HS1, HS2, HS3⟩, Hg⟩, Ho, ⟨%d0, H0⟩, ⟨%d1, H1⟩, ⟨%d2, H2⟩, ⟨%d3, H3⟩⟩
    rw [fill_eq_xfill m c t (by omega) d0]
    iapply ((kernelRun0_A c (grid0.coords t) (bufsAt t) ((hcond0_0 t).mpr h0) ((hcond0_1 t).mpr (by omega)) (fun h => by have := (hcond0_2 t).mp h; omega) (xfill m c t) (iblk m c 1 t)).2.2.2.2.2.2 _ _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, H2, H3, ⟨%es0, HS0⟩, ⟨%es1, HS1⟩, ⟨%es2, HS2⟩, ⟨%es3, HS3⟩⟩
    isplitl [HS0 HS1 HS2 HS3 Hg]
    · isplitl [HS0 HS1 HS2 HS3]
      ·
        isplitl [HS0]
        · unfold owns; iexists _; isplitr
          swap; · iexact HS0
          ipureintro; exact View.read_writes_of_cover _ _ _ _ _ (scover0_A_0 c _ _ _ _ _ _ _)
        isplitl [HS1]
        · unfold owns; iexists _; isplitr
          swap; · iexact HS1
          ipureintro; exact View.read_writes_of_cover _ _ _ _ _ (scover0_A_1 c _ _ _ _ _ _ _)
        isplitl [HS2]
        · unfold owns; iexists _; isplitr
          swap; · iexact HS2
          ipureintro; exact View.read_writes_of_cover _ _ _ _ _ (scover0_A_2 c _ _ _ _ _ _ _)
        · unfold owns; iexists _; isplitr
          swap; · iexact HS3
          ipureintro; exact View.read_writes_of_cover _ _ _ _ _ (scover0_A_3 c _ _ _ _ _ _ _)
      iexact Hg
    isplitl [Ho]; · iexact Ho
    isplitl [H0]
    · iexists xfill m c t; unfold xfill; rw [win0_0.fill_fill]; iexact H0
    isplitl [H1]; · iexact H1
    isplitl [H2]; · iexists _; iexact H2
    iexists _; iexact H3
  · have hz : t.val ≠ 0 := fun e => h0 (by rw [e])
    by_cases h2 : t.val % 13 = 12
    ·
      rw [show (dats m 0 c).leaves 2 t = owns (c : Thread nD τ) (ms0_2 t) fullShare ((dats m 0 c).after 2 t) from by
          unfold Dat.leaves; rw [(liveAt0 t h2).1],
        show (dats m 0 c).leaves 3 t = owns (c : Thread nD τ) (ms0_3 t) fullShare ((dats m 0 c).after 3 t) from by
          unfold Dat.leaves; rw [(liveAt0 t h2).2], after0_2, after0_3]
      rw [outsAt0_C m c t h2]
      unfold stepC
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩⟩
      rw [stepC_fill m c t h2 d0]
      unfold outsC; dsimp only
      unfold out0_C_2 out0_C_3 sout0_C_0 sout0_C_1 sout0_C_2 sout0_C_3
      iapply ((kernelRun0_C c (grid0.coords t) (bufsAt t) (fun h => by have := (hcond0_0 t).mp h; omega) (fun h => by have := (hcond0_1 t).mp h; omega) ((hcond0_2 t).mpr h2) (win0_0.fill (grid0.coords t) d0 (iblk m c 0 t)) (iblk m c 1 t) _ _ _ _).2.2.2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      isplitl [HS3]; · iexact HS3
      iintro ⟨H0, H1, ⟨%e2', H2⟩, ⟨%e3', H3⟩, ⟨%es0', HS0⟩, ⟨%es1', HS1⟩, ⟨%es2', HS2⟩, ⟨%es3', HS3⟩⟩
      isplitl [HS0 HS1 HS2 HS3 Hg]
      · isplitl [HS0 HS1 HS2 HS3]
        ·
          isplitl [HS0]
          · unfold owns; iexists _; isplitr
            swap; · iexact HS0
            ipureintro; exact View.read_writes_of_cover _ _ _ _ _ (scover0_C_0 c _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _)
          isplitl [HS2]
          · unfold owns; iexists _; isplitr
            swap; · iexact HS2
            ipureintro; exact View.read_writes_of_cover _ _ _ _ _ (scover0_C_2 c _ _ _ _ _ _ _ _ _ _ _)
          · unfold owns; iexists _; isplitr
            swap; · iexact HS3
            ipureintro; exact View.read_writes_of_cover _ _ _ _ _ (scover0_C_3 c _ _ _ _ _ _ _ _ _ _ _)
        iexact Hg
      isplitl [Ho]; · iexact Ho
      isplitl [H0]; · iexists d0; iexact H0
      isplitl [H1]; · iexact H1
      isplitl [H2]
      · unfold owns; iexists _; isplitr
        swap; · iexact H2
        ipureintro; exact View.read_writes_of_cover _ _ _ _ _ (cover0_C_2 c _ _ _ _ _ _ _ _ _ _ _)
      · unfold owns; iexists _; isplitr
        swap; · iexact H3
        ipureintro; exact View.read_writes_of_cover _ _ _ _ _ (cover0_C_3 c _ _ _ _ _ _ _ _ _ _ _)
    ·
      have h1 : t.val % 13 < 12 := by omega
      rw [Dat.leaves_idle (dats m 0 c) 2 t (idleAt0 t (by omega)).1.1 (idleAt0 t (by omega)).1.2,
        Dat.leaves_idle (dats m 0 c) 3 t (idleAt0 t (by omega)).2.1 (idleAt0 t (by omega)).2.2]
      rw [outsAt0_B m c t h0 h1]
      unfold stepB outsB; dsimp only
      unfold sout0_B_0 sout0_B_1 sout0_B_2 sout0_B_3
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩⟩
      rw [fill_eq_xfill m c t h2 d0]
      iapply ((kernelRun0_B c (grid0.coords t) (bufsAt t) (fun h => h0 ((hcond0_0 t).mp h)) ((hcond0_1 t).mpr h1) (fun h => by have := (hcond0_2 t).mp h; omega) (xfill m c t) (iblk m c 1 t) _ _ _ _).2.2.2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, ⟨%es0, HS0⟩, ⟨%es1, HS1⟩, ⟨%es2, HS2⟩, ⟨%es3, HS3⟩⟩
      isplitl [HS0 HS1 HS2 HS3 Hg]
      · isplitl [HS0 HS1 HS2 HS3]
        ·
          isplitl [HS0]
          · unfold owns; iexists _; isplitr
            swap; · iexact HS0
            ipureintro; exact View.read_writes_of_cover _ _ _ _ _ (scover0_B_0 c _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _)
          · unfold owns; iexists _; isplitr
            swap; · iexact HS3
            ipureintro; exact View.read_writes_of_cover _ _ _ _ _ (scover0_B_3 c _ _ _ _ _ _ _ _ _ _ _)
        iexact Hg
      isplitl [Ho]; · iexact Ho
      isplitl [H0]
      · iexists xfill m c t; unfold xfill; rw [win0_0.fill_fill]; iexact H0
      isplitl [H1]; · iexact H1
      isplitl [H2]; · iexists _; iexact H2
      iexists _; iexact H3

theorem body_obligation (c : Dev nD) : BodyObligationLoose (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

set_option backward.isDefEq.respectTransparency.types false in

theorem run_main : θ_run defs (onTc (τ := τ) (main (F := F))) (s₀ m ρ) (Pipeline.FramePost cfgs (dats m) 0 (Pipeline.afterTail₀ cfgs (dats m) 0 (V0 m) tailOpss)) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Fr

end
-- ==== Proof.KI.Tail.lean ====
import proofs.«429975_j11527692223274_3_alg».proof.Proof.Gen.KernelIdeal.Launch
import Idealize.ShloMosaic.Lib.StableHlo.Run
import Idealize.ShloMosaic.Lib.Pipeline.FrameSuffix
import Idealize.ShloMosaic.Lib.IdealHost
import Idealize.ShloMosaic.Lib.Pipeline.Value
import Idealize.ShloMosaic.Lib.WordArith
import Idealize.ShloMosaic.PureOps.Reduce

noncomputable section

namespace Cert.KernelIdeal.Tl

open Cert.KernelIdeal Cert.KernelIdeal.Gen Idealize.ShloMosaic Idealize.ShloMosaic.TcCoe Idealize.ShloMosaic.StableHlo

section Generic

variable {F : FTy → Type} [FloatOps F]

def safeLabels (labels : IVec S2x512 32) : IVec S2x512 32 :=
  select (cmpi .slt labels (broadcastInDim S2x512 ![] bcast_S_S2x512 (constantI S_ 32 0#32)))
    (broadcastInDim S2x512 ![] bcast_S_S2x512 (id (constantI S_ 32 0#32))) labels

def labels3 (labels : IVec S2x512 32) : IVec S2x512x1 32 :=
  broadcastInDim S2x512x1 ![0, 1] bcast_S2x512_S2x512x1_0_1 (safeLabels labels)

def gatherIdx (labels : IVec S2x512 32) : IVec S2x512x1x1 32 :=
  shapeCast S2x512x1x1
    (select (cmpi .slt (labels3 labels) (broadcastInDim S2x512x1 ![] bcast_S_S2x512x1 (constantI S_ 32 0#32)))
      (addi (labels3 labels) (broadcastInDim S2x512x1 ![] bcast_S_S2x512x1 (constantI S_ 32 151643#32)))
      (labels3 labels))
    shapeCasts_S2x512x1_S2x512x1x1

def inBounds (labels : IVec S2x512 32) : IVec S2x512x1 1 :=
  Host.reduce IntOp.andi
    (andi (cmpi .sge (gatherIdx labels) (broadcastInDim S2x512x1x1 ![] bcast_S_S2x512x1x1 (constantI S_ 32 0#32)))
      (cmpi .sle (gatherIdx labels)
        (broadcastInDim S2x512x1x1 ![0, 1, 2, 3] bcast_S1x1x1x1_S2x512x1x1_0_1_2_3
          (broadcastInDim S1x1x1x1 ![3] bcast_S1_S1x1x1x1_3 (constantI S1 32 151642#32)))))
    (constantI S_ 1 1#1) reducesTo_S2x512x1x1_S2x512x1_d3 h_S_

def takeAlong (x : FVec F S2x512x151643 .f32) (labels : IVec S2x512 32) : FVec F S2x512x1 .f32 :=
  select (inBounds labels)
    (Host.gather gather_S2x512x151643_S2x512x1x1_S2x512x1_n_2_01_01_2_3_111 x (gatherIdx labels))
    (broadcastInDim S2x512x1 ![] bcast_S_S2x512x1 (constant (F := F) S_ .f32 0x7FC00000#32))

def klG (kl3 : FVec F S2x512x1 .f32) : FVec F S2x512 .f32 :=
  shapeCast S2x512 kl3 shapeCasts_S2x512x1_S2x512

def nllG (lse3 : FVec F S2x512x1 .f32) (x : FVec F S2x512x151643 .f32) (labels : IVec S2x512 32) : FVec F S2x512 .f32 :=
  subf (shapeCast S2x512 lse3 shapeCasts_S2x512x1_S2x512)
    (shapeCast S2x512 (takeAlong x labels) shapeCasts_S2x512x1_S2x512)

def valid (labels : IVec S2x512 32) : IVec S2x512 1 :=
  cmpi .ne labels (broadcastInDim S2x512 ![] bcast_S_S2x512 (constantI S_ 32 4294967196#32))

def nValid (labels : IVec S2x512 32) : FVec F S_ .f32 :=
  sitofp (F := F) .f32
    (maxsi (Host.reduce IntOp.addi (extui 32 (valid labels) natLt_1_32) (constantI S_ 32 0#32) reducesTo_S2x512_S_d0_1 h_S_)
      (constantI S_ 32 1#32))

def ceG (nll : FVec F S2x512 .f32) (labels : IVec S2x512 32) : FVec F S_ .f32 :=
  Host.divf
    (Host.reduceAdd (F := F)
      (select (valid labels) nll (broadcastInDim S2x512 ![] bcast_S_S2x512 (constant (F := F) S_ .f32 0x00000000#32)))
      (constant (F := F) S_ .f32 0x00000000#32) reducesTo_S2x512_S_d0_1 h_S_)
    (nValid labels)

def maskF (mask : IVec S2x512 32) : FVec F S2x512 .f32 := sitofp (F := F) .f32 mask

def klSum (kl : FVec F S2x512 .f32) (mask : IVec S2x512 32) : FVec F S_ .f32 :=
  Host.reduceAdd (F := F) (mulf kl (maskF mask)) (constant (F := F) S_ .f32 0x00000000#32) reducesTo_S2x512_S_d0_1 h_S_

def maskSum (mask : IVec S2x512 32) : FVec F S_ .f32 :=
  Host.reduceAdd (F := F) (maskF mask) (constant (F := F) S_ .f32 0x00000000#32) reducesTo_S2x512_S_d0_1 h_S_

def klMean (kl : FVec F S2x512 .f32) (mask : IVec S2x512 32) : FVec F S_ .f32 :=
  select (cmpf (F := F) .ogt (maskSum mask) (constant (F := F) S_ .f32 0x00000000#32))
    (Host.divf (klSum kl mask) (maskSum mask)) (klSum kl mask)

def totalG (nll kl : FVec F S2x512 .f32) (labels mask : IVec S2x512 32) : FVec F S_ .f32 :=
  addf (mulf (constant (F := F) S_ .f32 0x3F800000#32) (ceG nll labels))
    (mulf (constant (F := F) S_ .f32 0x3F000000#32) (mulf (klMean kl mask) (constant (F := F) S_ .f32 0x40800000#32)))

set_option maxRecDepth 8192 in
set_option maxHeartbeats 4000000 in

theorem tail_eqG (W : Valuation τ sig (Elt F)) :
    StableHlo.after (List.flatten [hostOps1 (F := F), hostOps1_1, hostOps1_2, hostOps1_3, hostOps1_4, hostOps1_5, hostOps1_6, hostOps1_7, hostOps1_8]) W (Proc.devRef .tc main_v30)
      = totalG (nllG (W (Proc.devRef .tc main_v1_0)) (W (Proc.devRef .tc main_arg0)) (W (Proc.devRef .tc main_arg2)))
          (klG (W (Proc.devRef .tc main_v1_1))) (W (Proc.devRef .tc main_arg2)) (W (Proc.devRef .tc main_arg3)) := by
  simp only [hostOps1, hostOps1_1, hostOps1_2, hostOps1_3, hostOps1_4, hostOps1_5, hostOps1_6, hostOps1_7, hostOps1_8,
    List.flatten_cons, List.flatten_nil, List.append_nil, List.cons_append, List.nil_append]
  after_results_simp
  simp only [TRef.ofBuf, TRef.toBuf, cast_eq]
  rfl

end Generic

def klK (kl3 : FVec Ideal S2x512x1 .f32) : FVec Ideal S2x512 .f32 := klG kl3

def nllK (lse3 : FVec Ideal S2x512x1 .f32) (x : FVec Ideal S2x512x151643 .f32) (labels : IVec S2x512 32) :
    FVec Ideal S2x512 .f32 := nllG lse3 x labels

def total (nll kl : FVec Ideal S2x512 .f32) (labels mask : IVec S2x512 32) : FVec Ideal S_ .f32 :=
  totalG nll kl labels mask

theorem tail_eq (W : Valuation τ sig (Elt Ideal)) :
    StableHlo.after (List.flatten [hostOps1 (F := Ideal), hostOps1_1, hostOps1_2, hostOps1_3, hostOps1_4, hostOps1_5, hostOps1_6, hostOps1_7, hostOps1_8]) W (Proc.devRef .tc main_v30)
      = total (nllK (W (Proc.devRef .tc main_v1_0)) (W (Proc.devRef .tc main_arg0)) (W (Proc.devRef .tc main_arg2)))
          (klK (W (Proc.devRef .tc main_v1_1))) (W (Proc.devRef .tc main_arg2)) (W (Proc.devRef .tc main_arg3)) :=
  tail_eqG (F := Ideal) W

section Reads

open Idealize.ShloMosaic.ValueIdx

variable {α : Type}

theorem shapeCast_drop_apply (v : S2x512x1.Idx → α) (h : S2x512x1.ShapeCasts S2x512) (b : Fin 2) (s : Fin 512) :
    shapeCast S2x512 v h (ix2 b s) = v (ix3 b s (0 : Fin 1)) :=
  shapeCast_apply v h (ix2 b s) (ix3 b s (0 : Fin 1)) (by
    rw [Shape.rowMajor_val_two, Shape.rowMajor_val_three]
    show (b.val * 512 + s.val) * 1 + 0 = b.val * 512 + s.val
    omega)

theorem shapeCast_add_apply (v : S2x512x1.Idx → α) (h : S2x512x1.ShapeCasts S2x512x1x1) (b : Fin 2) (s : Fin 512) :
    shapeCast S2x512x1x1 v h (ix4 b s (0 : Fin 1) (0 : Fin 1)) = v (ix3 b s (0 : Fin 1)) :=
  shapeCast_apply v h (ix4 b s (0 : Fin 1) (0 : Fin 1)) (ix3 b s (0 : Fin 1)) (by
    rw [Shape.rowMajor_val_three, Shape.rowMajor_val_four]
    show (b.val * 512 + s.val) * 1 + 0 = ((b.val * 512 + s.val) * 1 + 0) * 1 + 0
    omega)

theorem bcast_add_apply (v : S2x512.Idx → α) (h : S2x512.BroadcastsInDim S2x512x1 ![0, 1]) (b : Fin 2) (s : Fin 512) :
    broadcastInDim S2x512x1 ![0, 1] h v (ix3 b s (0 : Fin 1)) = v (ix2 b s) :=
  broadcastInDim_apply _ h v (ix3 b s (0 : Fin 1)) (ix2 b s) (fun a => match a with | ⟨0, _⟩ => rfl | ⟨1, _⟩ => rfl)

theorem gather_apply (x : S2x512x151643.Idx → α) (idx : IVec S2x512x1x1 32) (b : Fin 2) (s : Fin 512) :
    Host.gather gather_S2x512x151643_S2x512x1x1_S2x512x1_n_2_01_01_2_3_111 x idx (ix3 b s (0 : Fin 1))
      = x (ix3 b s (⟨min (idx (ix4 b s (0 : Fin 1) (0 : Fin 1))).toInt.toNat 151642, by omega⟩ : Fin 151643)) := by
  unfold Host.gather
  congr 1
  funext a
  refine Fin.ext ?_
  have hsi : gather_S2x512x151643_S2x512x1x1_S2x512x1_n_2_01_01_2_3_111.siIdx (ix3 b s (0 : Fin 1))
      ⟨0, by decide⟩ = ix4 b s (0 : Fin 1) (0 : Fin 1) := by
    funext c; refine Fin.ext ?_
    match c with
    | ⟨0, _⟩ => rfl
    | ⟨1, _⟩ => rfl
    | ⟨2, _⟩ => rfl
    | ⟨3, _⟩ => rfl
  match a with
  | ⟨0, _⟩ =>
    show gather_S2x512x151643_S2x512x1x1_S2x512x1_n_2_01_01_2_3_111.start (ix3 b s (0 : Fin 1)) idx 0
        + gather_S2x512x151643_S2x512x1x1_S2x512x1_n_2_01_01_2_3_111.batchCoord (ix3 b s (0 : Fin 1)) 0
        + gather_S2x512x151643_S2x512x1x1_S2x512x1_n_2_01_01_2_3_111.offCoord (ix3 b s (0 : Fin 1)) 0 = b.val
    rw [GatherDims.start_batching _ _ _ _ (by decide), GatherDims.offCoord_eq_zero _ _ _ (by decide)]
    show 0 + b.val + 0 = b.val
    omega
  | ⟨1, _⟩ =>
    show gather_S2x512x151643_S2x512x1x1_S2x512x1_n_2_01_01_2_3_111.start (ix3 b s (0 : Fin 1)) idx 1
        + gather_S2x512x151643_S2x512x1x1_S2x512x1_n_2_01_01_2_3_111.batchCoord (ix3 b s (0 : Fin 1)) 1
        + gather_S2x512x151643_S2x512x1x1_S2x512x1_n_2_01_01_2_3_111.offCoord (ix3 b s (0 : Fin 1)) 1 = s.val
    rw [GatherDims.start_batching _ _ _ _ (by decide), GatherDims.offCoord_eq_zero _ _ _ (by decide)]
    show 0 + s.val + 0 = s.val
    omega
  | ⟨2, _⟩ =>
    show gather_S2x512x151643_S2x512x1x1_S2x512x1_n_2_01_01_2_3_111.start (ix3 b s (0 : Fin 1)) idx 2
        + gather_S2x512x151643_S2x512x1x1_S2x512x1_n_2_01_01_2_3_111.batchCoord (ix3 b s (0 : Fin 1)) 2
        + gather_S2x512x151643_S2x512x1x1_S2x512x1_n_2_01_01_2_3_111.offCoord (ix3 b s (0 : Fin 1)) 2
        = min (idx (ix4 b s (0 : Fin 1) (0 : Fin 1))).toInt.toNat 151642
    rw [GatherDims.batchCoord_eq_zero _ _ _ (by decide), GatherDims.offCoord_eq_zero _ _ _ (by decide)]
    unfold GatherDims.start
    rw [dif_pos (show (2 : Fin 3) ∈ gather_S2x512x151643_S2x512x1x1_S2x512x1_n_2_01_01_2_3_111.startIndexMap by decide)]
    rw [show (⟨List.idxOf (2 : Fin 3) gather_S2x512x151643_S2x512x1x1_S2x512x1_n_2_01_01_2_3_111.startIndexMap, _⟩ :
        Fin gather_S2x512x151643_S2x512x1x1_S2x512x1_n_2_01_01_2_3_111.startIndexMap.length) = ⟨0, by decide⟩ from rfl, hsi]
    rfl

instance : Std.Commutative (IntOp.andi (w := 1)) := ⟨BitVec.and_comm⟩
instance : Std.Associative (IntOp.andi (w := 1)) := ⟨BitVec.and_assoc⟩

theorem reduce_andi_apply (v : IVec S2x512x1x1 1) (init : IVec S_ 1) (h' : S2x512x1x1.ReducesTo [3] S2x512x1)
    (hu : 0 < S_.numel) (b : Fin 2) (s : Fin 512) :
    Host.reduce IntOp.andi v init h' hu (ix3 b s (0 : Fin 1))
      = IntOp.andi (v (ix4 b s (0 : Fin 1) (0 : Fin 1))) (init (Shape.Idx.first hu)) := by
  have h : S2x512x1x1.Reduces [3] S2x512x1 := by decide
  have hfold : ∀ (g : Fin 1 → BitVec 1) (i0 : BitVec 1),
      (Finset.univ : Finset (Fin 1)).fold IntOp.andi i0 g = IntOp.andi (g 0) i0 := by
    intro g i0; rw [Finset.univ_unique, Finset.fold_singleton]; rfl
  rw [Host.reduce_eq_fold_single IntOp.andi v init h' h hu (ix3 b s (0 : Fin 1))]
  refine (hfold (v ∘ h.lift (ix3 b s (0 : Fin 1))) (init (Shape.Idx.first hu))).trans ?_
  show IntOp.andi (v (h.lift (ix3 b s (0 : Fin 1)) (0 : Fin 1))) _ = _
  congr 2
  funext c; refine Fin.ext ?_
  match c with
  | ⟨0, _⟩ => rfl
  | ⟨1, _⟩ => rfl
  | ⟨2, _⟩ => rfl
  | ⟨3, _⟩ => rfl

end Reads

end Cert.KernelIdeal.Tl

end
-- ==== Proof.KI.TailApply.lean ====
import proofs.«429975_j11527692223274_3_alg».proof.Proof.KI.Tail

noncomputable section

namespace Cert.KernelIdeal.Tl

open Cert.KernelIdeal Cert.KernelIdeal.Gen Idealize.ShloMosaic Idealize.ShloMosaic.TcCoe Idealize.ShloMosaic.StableHlo

section Apply

open Idealize.ShloMosaic.ValueIdx

theorem select_ofBool {α : Type} (p : Bool) (a b : α) : Scalar.select (BitVec.ofBool p) a b = if p then a else b := by
  cases p <;> simp [Scalar.select]

def safeL (labels : IVec S2x512 32) (b : Fin 2) (s : Fin 512) : BitVec 32 :=
  if (labels (ix2 b s)).slt 0#32 then 0#32 else labels (ix2 b s)

theorem safeL_not_slt (labels : IVec S2x512 32) (b : Fin 2) (s : Fin 512) : (safeL labels b s).slt 0#32 = false := by
  unfold safeL
  split
  · decide
  · next h => simpa using h

theorem safeL_toInt (labels : IVec S2x512 32) (b : Fin 2) (s : Fin 512) :
    (safeL labels b s).toInt = ((safeL labels b s).toNat : Int) := by
  have h := safeL_not_slt labels b s
  have hc := BitVec.toInt_eq_toNat_cond (safeL labels b s)
  have hlt := (safeL labels b s).isLt
  simp only [BitVec.slt, decide_eq_false_iff_not, BitVec.toInt_zero] at h
  split at hc <;> omega

def vocab (labels : IVec S2x512 32) (b : Fin 2) (s : Fin 512) : Fin 151643 :=
  ⟨min (safeL labels b s).toNat 151642, by omega⟩

theorem safeLabels_apply (labels : IVec S2x512 32) (b : Fin 2) (s : Fin 512) :
    safeLabels labels (ix2 b s) = safeL labels b s :=
  select_ofBool ((labels (ix2 b s)).slt 0#32) 0#32 (labels (ix2 b s))

theorem labels3_apply (labels : IVec S2x512 32) (b : Fin 2) (s : Fin 512) :
    labels3 labels (ix3 b s (0 : Fin 1)) = safeL labels b s := by
  unfold labels3
  rw [bcast_add_apply]
  exact safeLabels_apply labels b s

theorem gatherIdx_apply (labels : IVec S2x512 32) (b : Fin 2) (s : Fin 512) :
    gatherIdx labels (ix4 b s (0 : Fin 1) (0 : Fin 1)) = safeL labels b s := by
  unfold gatherIdx
  rw [shapeCast_add_apply]
  show Scalar.select (BitVec.ofBool ((labels3 labels (ix3 b s (0 : Fin 1))).slt 0#32))
      (IntOp.addi (labels3 labels (ix3 b s (0 : Fin 1))) 151643#32) (labels3 labels (ix3 b s (0 : Fin 1))) = _
  rw [labels3_apply, safeL_not_slt, select_ofBool]
  rfl

theorem inBounds_apply (labels : IVec S2x512 32) (b : Fin 2) (s : Fin 512) :
    inBounds labels (ix3 b s (0 : Fin 1)) = BitVec.ofBool ((safeL labels b s).sle 151642#32) := by
  unfold inBounds
  rw [reduce_andi_apply]
  show IntOp.andi (IntOp.andi (BitVec.ofBool ((0#32 : BitVec 32).sle (gatherIdx labels (ix4 b s (0 : Fin 1) (0 : Fin 1)))))
      (BitVec.ofBool ((gatherIdx labels (ix4 b s (0 : Fin 1) (0 : Fin 1))).sle 151642#32))) 1#1 = _
  rw [gatherIdx_apply]
  have h0 : (0#32 : BitVec 32).sle (safeL labels b s) = true := by
    have h := safeL_not_slt labels b s
    simp only [BitVec.slt, decide_eq_false_iff_not] at h
    simp only [BitVec.sle, decide_eq_true_eq]
    omega
  rw [h0]
  cases (safeL labels b s).sle 151642#32 <;> decide

variable {F : FTy → Type} [FloatOps F]

theorem takeAlong_apply (x : FVec F S2x512x151643 .f32) (labels : IVec S2x512 32) (b : Fin 2) (s : Fin 512) :
    takeAlong x labels (ix3 b s (0 : Fin 1))
      = if (safeL labels b s).sle 151642#32 then x (ix3 b s (vocab labels b s))
        else (FloatOps.ofBits .f32 0x7FC00000#32 : F .f32) := by
  have hg : Host.gather gather_S2x512x151643_S2x512x1x1_S2x512x1_n_2_01_01_2_3_111 x (gatherIdx labels) (ix3 b s (0 : Fin 1))
      = x (ix3 b s (vocab labels b s)) := by
    refine (gather_apply x (gatherIdx labels) b s).trans ?_
    refine congrArg x (congrArg (ix3 b s) (Fin.ext ?_))
    show min (gatherIdx labels (ix4 b s (0 : Fin 1) (0 : Fin 1))).toInt.toNat 151642 = min (safeL labels b s).toNat 151642
    rw [gatherIdx_apply, safeL_toInt, Int.toNat_natCast]
  unfold takeAlong
  rw [select_apply, inBounds_apply, select_ofBool, hg]
  rfl

end Apply

theorem klK_apply (kl3 : FVec Ideal S2x512x1 .f32) (b : Fin 2) (s : Fin 512) :
    klK kl3 (ValueIdx.ix2 b s) = kl3 (ValueIdx.ix3 b s (0 : Fin 1)) :=
  shapeCast_drop_apply kl3 shapeCasts_S2x512x1_S2x512 b s

theorem nllK_apply (lse3 : FVec Ideal S2x512x1 .f32) (x : FVec Ideal S2x512x151643 .f32) (labels : IVec S2x512 32)
    (b : Fin 2) (s : Fin 512) :
    nllK lse3 x labels (ValueIdx.ix2 b s)
      = lse3 (ValueIdx.ix3 b s (0 : Fin 1))
        - (if (safeL labels b s).sle 151642#32 then x (ValueIdx.ix3 b s (vocab labels b s))
           else (FloatOps.ofBits .f32 0x7FC00000#32 : Ideal .f32)) := by
  show subf (shapeCast S2x512 lse3 shapeCasts_S2x512x1_S2x512)
      (shapeCast S2x512 (takeAlong x labels) shapeCasts_S2x512x1_S2x512) (ValueIdx.ix2 b s) = _
  rw [ValueIdx.subf_apply, shapeCast_drop_apply, shapeCast_drop_apply, takeAlong_apply]

end Cert.KernelIdeal.Tl

end
-- ==== Proof.KI.PayIdx.lean ====
import proofs.«429975_j11527692223274_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

abbrev hlf : Ideal .f32 := FloatOps.ofBits (F := Ideal) .f32 0x3F000000#32

abbrev ninf : Ideal .f32 := FloatOps.ofBits (F := Ideal) .f32 0xFF800000#32

abbrev zer : Ideal .f32 := FloatOps.ofBits (F := Ideal) .f32 0x00000000#32

theorem lift_row (r : Fin 128) (k : Fin 12288) :
    reduces_S128x12288_S128.lift (ix1 r) k = ix2 r k := by
  funext c
  match c with
  | ⟨0, _⟩ => rfl
  | ⟨1, _⟩ => rfl

theorem rowMax_col_apply (src : FVec Ideal S128x12288 .f32) (hφ : FKind.Formats .f32)
    (hacc : (0xFF800000#32 : BitVec 32) = 0xFF800000#32) (r : Fin 128) (u : Fin 1) :
    shapeCast S128x1 (multiReduction .maximumf [1] S128 src 0xFF800000#32 reduces_S128x12288_S128 hφ hacc)
        shapeCasts_S128_S128x1 (ix2 r u)
      = (Finset.univ : Finset (Fin 12288)).fold max ninf (fun j => src (ix2 r j)) := by
  refine (shapeCast_a_a1_apply _ _ r u).trans ?_
  refine (Ideal.multiReduction_maximumf_single src 0xFF800000#32 reduces_S128x12288_S128 hφ hacc (ix1 r)).trans ?_
  exact congrArg (fun f => (Finset.univ : Finset (Fin 12288)).fold max ninf f)
    (funext fun k => congrArg src (lift_row r k))

theorem rowSum_col_apply (src : FVec Ideal S128x12288 .f32) (hφ : FKind.Formats .f32)
    (hacc : (0x00000000#32 : BitVec 32) = 0x00000000#32) (r : Fin 128) (u : Fin 1) :
    shapeCast S128x1 (multiReduction .add [1] S128 src 0x00000000#32 reduces_S128x12288_S128 hφ hacc)
        shapeCasts_S128_S128x1 (ix2 r u)
      = ∑ j : Fin 12288, src (ix2 r j) := by
  refine (shapeCast_a_a1_apply _ _ r u).trans ?_
  refine (Ideal.multiReduction_add_single src 0x00000000#32 reduces_S128x12288_S128 hφ hacc (ix1 r)).trans ?_
  exact Finset.sum_congr rfl fun k _ => congrArg src (lift_row r k)

def blk (x : FVec Ideal S128x12288 .f32) : Fin 128 → Fin 12288 → EReal := fun r j => x (ix2 r j)

def col (m : Vec Ideal S128x1 .f32) : Fin 128 → EReal := fun r => m (ix2 r (0 : Fin 1))

def rowMax (X : Fin 128 → Fin 12288 → EReal) (r : Fin 128) : EReal :=
  (Finset.univ : Finset (Fin 12288)).fold max ninf (X r)

def mNew (X : Fin 128 → Fin 12288 → EReal) (mo : Fin 128 → EReal) (r : Fin 128) : EReal := max (mo r) (rowMax X r)

def eNew (X : Fin 128 → Fin 12288 → EReal) (mo : Fin 128 → EReal) (r : Fin 128) (j : Fin 12288) : EReal :=
  Ideal.exp ((X r j - mNew X mo r) * hlf)

def sNew (X : Fin 128 → Fin 12288 → EReal) (mo mo' so : Fin 128 → EReal) (r : Fin 128) : EReal :=
  Ideal.exp (mo' r - mNew X mo r) * so r + ∑ j : Fin 12288, eNew X mo r j * eNew X mo r j

def sTNew (X : Fin 128 → Fin 12288 → EReal) (mo mo' sTo : Fin 128 → EReal) (r : Fin 128) : EReal :=
  Ideal.exp ((mo' r - mNew X mo r) * hlf) * sTo r + ∑ j : Fin 12288, eNew X mo r j

def sxNew (X : Fin 128 → Fin 12288 → EReal) (sxo : Fin 128 → EReal) (r : Fin 128) : EReal :=
  sxo r + ∑ j : Fin 12288, X r j

theorem pay1_apply (r : Fin 128) (u : Fin 1) : (k0_pay1 (F := Ideal)) (ix2 r u) = ninf := by
  unfold k0_pay1
  exact congrFun (shapeCast_self _ shapeCasts_S128x1_S128x1) (ix2 r u)
theorem pay2_apply (r : Fin 128) (u : Fin 1) : (k0_pay2 (F := Ideal)) (ix2 r u) = zer := by
  unfold k0_pay2
  exact congrFun (shapeCast_self _ shapeCasts_S128x1_S128x1) (ix2 r u)
theorem pay3_apply (r : Fin 128) (u : Fin 1) : (k0_pay3 (F := Ideal)) (ix2 r u) = zer := by
  unfold k0_pay3
  exact congrFun (shapeCast_self _ shapeCasts_S128x1_S128x1) (ix2 r u)
theorem pay4_apply (r : Fin 128) (u : Fin 1) : (k0_pay4 (F := Ideal)) (ix2 r u) = zer := by
  unfold k0_pay4
  exact congrFun (shapeCast_self _ shapeCasts_S128x1_S128x1) (ix2 r u)

theorem pay5_apply (v3 : Vec Ideal S1x128x12288 .f32) (r : Fin 128) (j : Fin 12288) :
    k0_pay5 v3 (ix2 r j) = v3 (ix3 (0 : Fin 1) r j) :=
  shapeCast_1ab_ab_apply v3 shapeCasts_S1x128x12288_S128x12288 r j

theorem pay8_apply (x : FVec Ideal S128x12288 .f32) (mo : Vec Ideal S128x1 .f32) (r : Fin 128) (u : Fin 1) :
    k0_pay8 x mo (ix2 r u) = mNew (blk x) (col mo) r := by
  obtain rfl : u = 0 := Subsingleton.elim _ _
  exact congrArg (fun t => max (mo (ix2 r (0 : Fin 1))) t) (rowMax_col_apply x (.inl rfl) rfl r 0)

theorem pay12_apply (x : FVec Ideal S128x12288 .f32) (mo : Vec Ideal S128x1 .f32) (r : Fin 128) (u : Fin 1) :
    k0_pay12 x mo (ix2 r u) = mNew (blk x) (col mo) r :=
  (congrFun (shapeCast_self (k0_pay8 x mo) shapeCasts_S128x1_S128x1) (ix2 r u)).trans (pay8_apply x mo r u)

theorem pay9_apply (x : FVec Ideal S128x12288 .f32) (mo : Vec Ideal S128x1 .f32) (r : Fin 128) (j : Fin 12288) :
    k0_pay9 x mo (ix2 r j) = eNew (blk x) (col mo) r j :=
  congrArg (fun t => Ideal.exp ((x (ix2 r j) - t) * hlf))
    ((broadcastTo_a1_ab_apply (k0_pay8 x mo) broadcasts_S128x1_S128x12288 r j).trans (pay8_apply x mo r 0))

theorem pay10_apply (x : FVec Ideal S128x12288 .f32) (mo mo' so : Vec Ideal S128x1 .f32) (r : Fin 128) (u : Fin 1) :
    k0_pay10 x mo mo' so (ix2 r u) = sNew (blk x) (col mo) (col mo') (col so) r := by
  obtain rfl : u = 0 := Subsingleton.elim _ _
  unfold k0_pay10
  refine (congrFun (shapeCast_self _ shapeCasts_S128x1_S128x1) (ix2 r 0)).trans ?_
  refine congrArg₂ (fun a b => Ideal.exp (mo' (ix2 r (0 : Fin 1)) - a) * so (ix2 r (0 : Fin 1)) + b)
    (pay8_apply x mo r 0) ?_
  refine (rowSum_col_apply (mulf (k0_pay9 x mo) (k0_pay9 x mo)) (.inl rfl) rfl r 0).trans ?_
  exact Finset.sum_congr rfl fun j _ => congrArg₂ (fun a b : EReal => a * b) (pay9_apply x mo r j) (pay9_apply x mo r j)

theorem pay11_apply (x : FVec Ideal S128x12288 .f32) (mo mo' sTo : Vec Ideal S128x1 .f32) (r : Fin 128) (u : Fin 1) :
    k0_pay11 x mo mo' sTo (ix2 r u) = sTNew (blk x) (col mo) (col mo') (col sTo) r := by
  obtain rfl : u = 0 := Subsingleton.elim _ _
  unfold k0_pay11
  refine (congrFun (shapeCast_self _ shapeCasts_S128x1_S128x1) (ix2 r 0)).trans ?_
  refine congrArg₂ (fun a b => Ideal.exp ((mo' (ix2 r (0 : Fin 1)) - a) * hlf) * sTo (ix2 r (0 : Fin 1)) + b)
    (pay8_apply x mo r 0) ?_
  refine (rowSum_col_apply (k0_pay9 x mo) (.inl rfl) rfl r 0).trans ?_
  exact Finset.sum_congr rfl fun j _ => pay9_apply x mo r j

theorem pay6_apply (v3 : Vec Ideal S1x128x12288 .f32) (sxo : Vec Ideal S128x1 .f32) (r : Fin 128) (u : Fin 1) :
    k0_pay6 v3 sxo (ix2 r u) = sxNew (blk (k0_pay5 v3)) (col sxo) r := by
  obtain rfl : u = 0 := Subsingleton.elim _ _
  unfold k0_pay6
  refine (congrFun (shapeCast_self _ shapeCasts_S128x1_S128x1) (ix2 r 0)).trans ?_
  exact congrArg (fun t => sxo (ix2 r (0 : Fin 1)) + t) (rowSum_col_apply (k0_pay5 v3) (.inl rfl) rfl r 0)

def maskNeg (mk : IVec S128x12288 1) (x : FVec Ideal S128x12288 .f32) : Fin 128 → Fin 12288 → EReal :=
  fun r j => Scalar.select (mk (ix2 r j)) (x (ix2 r j)) ninf

def maskZero (mk : IVec S128x12288 1) (x : FVec Ideal S128x12288 .f32) : Fin 128 → Fin 12288 → EReal :=
  fun r j => Scalar.select (mk (ix2 r j)) (x (ix2 r j)) zer

theorem pay15_apply (x : FVec Ideal S128x12288 .f32) (v5 : BitVec 32) (mo : Vec Ideal S128x1 .f32) (r : Fin 128) (u : Fin 1) :
    k0_pay15 x v5 mo (ix2 r u) = mNew (maskNeg (k0_pay13 v5) x) (col mo) r := by
  obtain rfl : u = 0 := Subsingleton.elim _ _
  exact congrArg (fun t => max (mo (ix2 r (0 : Fin 1))) t) (rowMax_col_apply (k0_pay14 x v5) (.inl rfl) rfl r 0)

theorem pay16_apply (x : FVec Ideal S128x12288 .f32) (v5 : BitVec 32) (mo : Vec Ideal S128x1 .f32) (r : Fin 128) (j : Fin 12288) :
    k0_pay16 x v5 mo (ix2 r j) = eNew (maskNeg (k0_pay13 v5) x) (col mo) r j :=
  congrArg (fun t => Ideal.exp ((k0_pay14 x v5 (ix2 r j) - t) * hlf))
    ((broadcastTo_a1_ab_apply (k0_pay15 x v5 mo) broadcasts_S128x1_S128x12288 r j).trans (pay15_apply x v5 mo r 0))

theorem pay17_apply (x : FVec Ideal S128x12288 .f32) (v5 : BitVec 32) (mo mo' so : Vec Ideal S128x1 .f32) (r : Fin 128) (u : Fin 1) :
    k0_pay17 x v5 mo mo' so (ix2 r u) = sNew (maskNeg (k0_pay13 v5) x) (col mo) (col mo') (col so) r := by
  obtain rfl : u = 0 := Subsingleton.elim _ _
  unfold k0_pay17
  refine (congrFun (shapeCast_self _ shapeCasts_S128x1_S128x1) (ix2 r 0)).trans ?_
  refine congrArg₂ (fun a b => Ideal.exp (mo' (ix2 r (0 : Fin 1)) - a) * so (ix2 r (0 : Fin 1)) + b)
    (pay15_apply x v5 mo r 0) ?_
  refine (rowSum_col_apply (mulf (k0_pay16 x v5 mo) (k0_pay16 x v5 mo)) (.inl rfl) rfl r 0).trans ?_
  exact Finset.sum_congr rfl fun j _ =>
    congrArg₂ (fun a b : EReal => a * b) (pay16_apply x v5 mo r j) (pay16_apply x v5 mo r j)

theorem pay18_apply (x : FVec Ideal S128x12288 .f32) (v5 : BitVec 32) (mo mo' sTo : Vec Ideal S128x1 .f32) (r : Fin 128) (u : Fin 1) :
    k0_pay18 x v5 mo mo' sTo (ix2 r u) = sTNew (maskNeg (k0_pay13 v5) x) (col mo) (col mo') (col sTo) r := by
  obtain rfl : u = 0 := Subsingleton.elim _ _
  refine congrArg₂ (fun a b => Ideal.exp ((mo' (ix2 r (0 : Fin 1)) - a) * hlf) * sTo (ix2 r (0 : Fin 1)) + b)
    (pay15_apply x v5 mo r 0) ?_
  refine (rowSum_col_apply (k0_pay16 x v5 mo) (.inl rfl) rfl r 0).trans ?_
  exact Finset.sum_congr rfl fun j _ => pay16_apply x v5 mo r j

theorem pay19_apply (v : FVec Ideal S128x1 .f32) (i : S128x1.Idx) : k0_pay19 v i = v i :=
  congrFun (shapeCast_self v shapeCasts_S128x1_S128x1) i

theorem pay20_apply (v : FVec Ideal S128x1 .f32) (i : S128x1.Idx) : k0_pay20 v i = v i :=
  congrFun (shapeCast_self v shapeCasts_S128x1_S128x1) i

theorem pay21_apply (x : FVec Ideal S128x12288 .f32) (mk : IVec S128x12288 1) (sxo : Vec Ideal S128x1 .f32) (r : Fin 128) (u : Fin 1) :
    k0_pay21 x mk sxo (ix2 r u) = sxNew (maskZero mk x) (col sxo) r := by
  obtain rfl : u = 0 := Subsingleton.elim _ _
  unfold k0_pay21
  refine (congrFun (shapeCast_self _ shapeCasts_S128x1_S128x1) (ix2 r 0)).trans ?_
  exact congrArg (fun t => sxo (ix2 r (0 : Fin 1)) + t)
    (rowSum_col_apply (select mk x (broadcast S128x12288 zer)) (.inl rfl) rfl r 0)

abbrev c99 : Ideal .f32 := FloatOps.ofBits (F := Ideal) .f32 0x3F7D70A4#32

abbrev one : Ideal .f32 := FloatOps.ofBits (F := Ideal) .f32 0x3F800000#32

abbrev vsz : Ideal .f32 := FloatOps.ofBits (F := Ideal) .f32 0x481416C0#32

def pSmooth (t : EReal) : EReal := Ideal.div (one - min (Ideal.exp t) c99) vsz

def klVal (a b c t : EReal) : EReal :=
  (vsz * pSmooth t) * Ideal.log (pSmooth t) - pSmooth t * (b - c * a)

theorem pay22_apply (m s : Vec Ideal S128x1 .f32) (r : Fin 128) (u u' : Fin 1) :
    k0_pay22 m s (ix3 u r u') = col m r + Ideal.log (col s r) := by
  obtain rfl : u' = 0 := Subsingleton.elim _ _
  unfold k0_pay22
  exact shapeCast_ab_1ab_apply _ shapeCasts_S128x1_S1x128x1 u r 0

theorem pay23_apply (m sT : Vec Ideal S128x1 .f32) (r : Fin 128) (u : Fin 1) :
    k0_pay23 m sT (ix2 r u) = col m r * hlf + Ideal.log (col sT r) := by
  obtain rfl : u = 0 := Subsingleton.elim _ _
  rfl

theorem pay24_apply (sx : Vec Ideal S128x1 .f32) (r : Fin 128) (u : Fin 1) :
    k0_pay24 sx (ix2 r u) = col sx r * hlf := by
  obtain rfl : u = 0 := Subsingleton.elim _ _
  rfl

theorem pay25_apply (i : S128x1.Idx) : (k0_pay25 (F := Ideal)) i = vsz := rfl

theorem pay7_apply (v77 v80 v81 : FVec Ideal S128x1 .f32) (tlp : Vec Ideal S128x1 .f32) (r : Fin 128) (u u' : Fin 1) :
    k0_pay7 v77 v80 v81 tlp (ix3 u r u')
      = klVal (v77 (ix2 r (0 : Fin 1))) (v80 (ix2 r (0 : Fin 1))) (v81 (ix2 r (0 : Fin 1))) (tlp (ix2 r (0 : Fin 1))) := by
  obtain rfl : u' = 0 := Subsingleton.elim _ _
  unfold k0_pay7
  refine (shapeCast_ab_1ab_apply _ shapeCasts_S128x1_S1x128x1 u r 0).trans ?_
  exact congrArg (fun t => klVal (v77 (ix2 r (0 : Fin 1))) (v80 (ix2 r (0 : Fin 1))) (v81 (ix2 r (0 : Fin 1))) t)
    (congrFun (shapeCast_self tlp shapeCasts_S128x1_S128x1) (ix2 r 0))

end Cert.KernelIdeal.Pay

end
-- ==== Proof.Math.lean ====
import Idealize.ShloMosaic.PureOps.Ideal
import Mathlib.Data.EReal.Basic
import Mathlib.Data.EReal.Operations
import Mathlib.Data.Finset.Fold
import Mathlib.Data.Finset.Lattice.Fold
import Mathlib.Data.Fintype.BigOperators
import Mathlib.Order.Interval.Finset.Nat
import Mathlib.Algebra.BigOperators.Group.Finset.Basic
import Mathlib.Analysis.SpecialFunctions.Exp
import Mathlib.Analysis.SpecialFunctions.Log.Basic

noncomputable section

namespace Cert.Mth

open Idealize.ShloMosaic
open scoped BigOperators

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_V : Ideal.ofBits .f32 0x481416C0#32 = ((151643 : ℝ) : EReal) := by
  simp [Ideal.ofBits, Ideal.ieee, -EReal.coe_mul]; norm_num

theorem ofBits_negInf : Ideal.ofBits .f32 0xFF800000#32 = ⊥ := by
  simp [Ideal.ofBits, Ideal.ieee]

theorem ofBits_nan : Ideal.ofBits .f32 0x7FC00000#32 = ⊥ := by
  simp [Ideal.ofBits, Ideal.ieee]

theorem ofBits_zero : Ideal.ofBits .f32 0x00000000#32 = 0 := by
  simp [Ideal.ofBits, Ideal.ieee]

def hlf : EReal := ((1 / 2 : ℝ) : EReal)

def pm (x : ℕ → ℝ) (n : ℕ) : EReal := (Finset.range n).sup fun k => ((x k : ℝ) : EReal)

def s1 (x : ℕ → ℝ) (n : ℕ) : ℝ := ∑ k ∈ Finset.range n, Real.exp (x k - (pm x n).toReal)

def sT (x : ℕ → ℝ) (n : ℕ) : ℝ := ∑ k ∈ Finset.range n, Real.exp ((x k - (pm x n).toReal) / 2)

def sx (x : ℕ → ℝ) (n : ℕ) : ℝ := ∑ k ∈ Finset.range n, x k

theorem pm_zero (x : ℕ → ℝ) : pm x 0 = ⊥ := by simp [pm]
theorem s1_zero (x : ℕ → ℝ) : s1 x 0 = 0 := by simp [s1]
theorem sT_zero (x : ℕ → ℝ) : sT x 0 = 0 := by simp [sT]
theorem sx_zero (x : ℕ → ℝ) : sx x 0 = 0 := by simp [sx]

theorem le_pm (x : ℕ → ℝ) {n k : ℕ} (hk : k < n) : ((x k : ℝ) : EReal) ≤ pm x n :=
  Finset.le_sup (f := fun k => ((x k : ℝ) : EReal)) (Finset.mem_range.mpr hk)

theorem pm_ne_top (x : ℕ → ℝ) (n : ℕ) : pm x n ≠ ⊤ := by
  apply ne_of_lt
  rw [pm, Finset.sup_lt_iff bot_lt_top]
  intro b _
  exact EReal.coe_lt_top _

theorem pm_ne_bot (x : ℕ → ℝ) {n : ℕ} (hn : 0 < n) : pm x n ≠ ⊥ := by
  intro h
  have h0 := le_pm x hn
  rw [h] at h0
  exact EReal.coe_ne_bot _ (le_bot_iff.mp h0)

theorem pm_coe (x : ℕ → ℝ) {n : ℕ} (hn : 0 < n) : (((pm x n).toReal : ℝ) : EReal) = pm x n :=
  EReal.coe_toReal (pm_ne_top x n) (pm_ne_bot x hn)

theorem pm_real (x : ℕ → ℝ) {n : ℕ} (hn : 0 < n) : ∃ r : ℝ, pm x n = (r : EReal) :=
  ⟨_, (pm_coe x hn).symm⟩

theorem pm_attained (x : ℕ → ℝ) {n : ℕ} (hn : 0 < n) :
    ∃ k, k < n ∧ pm x n = ((x k : ℝ) : EReal) := by
  obtain ⟨k, hk, h⟩ := Finset.exists_mem_eq_sup (Finset.range n)
    (Finset.nonempty_range_iff.mpr hn.ne') (fun k => ((x k : ℝ) : EReal))
  exact ⟨k, Finset.mem_range.mp hk, h⟩

theorem s1_pos (x : ℕ → ℝ) {n : ℕ} (hn : 0 < n) : 0 < s1 x n :=
  Finset.sum_pos (fun _ _ => Real.exp_pos _) (Finset.nonempty_range_iff.mpr hn.ne')

theorem sT_pos (x : ℕ → ℝ) {n : ℕ} (hn : 0 < n) : 0 < sT x n :=
  Finset.sum_pos (fun _ _ => Real.exp_pos _) (Finset.nonempty_range_iff.mpr hn.ne')

theorem pm_add (x : ℕ → ℝ) (n len : ℕ) :
    pm x (n + len) = max (pm x n) ((Finset.range len).sup fun j => ((x (n + j) : ℝ) : EReal)) := by
  unfold pm
  rw [Finset.range_add_eq_union, Finset.sup_union, Finset.sup_map]
  rfl

theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem sum_lanes (L len : ℕ) (hL : len ≤ L) (f : ℕ → ℝ) :
    ∑ j : Fin L, (if j.val < len then ((f j.val : ℝ) : EReal) else 0)
      = ((∑ k ∈ Finset.range len, f k : ℝ) : EReal) := by
  have h1 : ∀ j : Fin L, (if j.val < len then ((f j.val : ℝ) : EReal) else 0)
      = (((if j.val < len then f j.val else 0 : ℝ)) : EReal) := by
    intro j; split_ifs <;> simp
  rw [Finset.sum_congr rfl (fun j _ => h1 j), ← coe_sum]
  congr 1
  rw [Fin.sum_univ_eq_sum_range (fun k => if k < len then f k else 0) L, ← Finset.sum_filter]
  congr 1
  ext k
  simp only [Finset.mem_filter, Finset.mem_range]
  omega

theorem fold_lanes (x : ℕ → ℝ) (n L len : ℕ) (hL : len ≤ L) (X : Fin L → EReal)
    (hX : ∀ j : Fin L, X j = if j.val < len then ((x (n + j.val) : ℝ) : EReal) else ⊥) :
    (Finset.univ : Finset (Fin L)).fold max ⊥ X
      = (Finset.range len).sup fun j => ((x (n + j) : ℝ) : EReal) := by
  apply le_antisymm
  · rw [Finset.fold_max_le]
    refine ⟨bot_le, fun j _ => ?_⟩
    rw [hX j]
    split_ifs with h
    · exact Finset.le_sup (f := fun j => ((x (n + j) : ℝ) : EReal)) (Finset.mem_range.mpr h)
    · exact bot_le
  · apply Finset.sup_le
    intro k hk
    have hk' := Finset.mem_range.mp hk
    rw [Finset.le_fold_max]
    right
    refine ⟨⟨k, lt_of_lt_of_le hk' hL⟩, Finset.mem_univ _, ?_⟩
    rw [hX]
    simp [hk']

theorem old1 (x : ℕ → ℝ) (n : ℕ) (r' : ℝ) :
    Ideal.exp (pm x n - (r' : EReal)) * ((s1 x n : ℝ) : EReal)
      = ((∑ k ∈ Finset.range n, Real.exp (x k - r') : ℝ) : EReal) := by
  rcases Nat.eq_zero_or_pos n with rfl | hn
  · simp [s1]
  · obtain ⟨r, hr⟩ := pm_real x hn
    have hs : s1 x n = ∑ k ∈ Finset.range n, Real.exp (x k - r) := by simp [s1, hr]
    rw [hr, hs, ← EReal.coe_sub, Ideal.exp_coe, ← EReal.coe_mul]
    congr 1
    rw [Finset.mul_sum]
    refine Finset.sum_congr rfl fun k _ => ?_
    rw [← Real.exp_add]
    congr 1
    ring

theorem oldT (x : ℕ → ℝ) (n : ℕ) (r' : ℝ) :
    Ideal.exp ((pm x n - (r' : EReal)) * hlf) * ((sT x n : ℝ) : EReal)
      = ((∑ k ∈ Finset.range n, Real.exp ((x k - r') / 2) : ℝ) : EReal) := by
  rcases Nat.eq_zero_or_pos n with rfl | hn
  · simp [sT]
  · obtain ⟨r, hr⟩ := pm_real x hn
    have hs : sT x n = ∑ k ∈ Finset.range n, Real.exp ((x k - r) / 2) := by simp [sT, hr]
    rw [hr, hs, hlf, ← EReal.coe_sub, ← EReal.coe_mul, Ideal.exp_coe, ← EReal.coe_mul]
    congr 1
    rw [Finset.mul_sum]
    refine Finset.sum_congr rfl fun k _ => ?_
    rw [← Real.exp_add]
    congr 1
    ring

theorem lane_exp (a r' : ℝ) :
    Ideal.exp (((a : EReal) - (r' : EReal)) * hlf) = ((Real.exp ((a - r') / 2) : ℝ) : EReal) := by
  rw [hlf, ← EReal.coe_sub, ← EReal.coe_mul, Ideal.exp_coe]
  congr 2
  ring

theorem lane_exp_bot (r' : ℝ) : Ideal.exp (((⊥ : EReal) - (r' : EReal)) * hlf) = 0 := by
  rw [EReal.bot_sub, hlf, EReal.bot_mul_coe_of_pos (by norm_num), Ideal.exp_bot]

theorem newT (x : ℕ → ℝ) (n L len : ℕ) (hL : len ≤ L) (X : Fin L → EReal)
    (hX : ∀ j : Fin L, X j = if j.val < len then ((x (n + j.val) : ℝ) : EReal) else ⊥) (r' : ℝ) :
    ∑ j, Ideal.exp ((X j - (r' : EReal)) * hlf)
      = ((∑ k ∈ Finset.range len, Real.exp ((x (n + k) - r') / 2) : ℝ) : EReal) := by
  rw [← sum_lanes L len hL (fun k => Real.exp ((x (n + k) - r') / 2))]
  refine Finset.sum_congr rfl fun j _ => ?_
  rw [hX j]
  split_ifs with h
  · exact lane_exp _ _
  · exact lane_exp_bot _

theorem new1 (x : ℕ → ℝ) (n L len : ℕ) (hL : len ≤ L) (X : Fin L → EReal)
    (hX : ∀ j : Fin L, X j = if j.val < len then ((x (n + j.val) : ℝ) : EReal) else ⊥) (r' : ℝ) :
    ∑ j, Ideal.exp ((X j - (r' : EReal)) * hlf) * Ideal.exp ((X j - (r' : EReal)) * hlf)
      = ((∑ k ∈ Finset.range len, Real.exp (x (n + k) - r') : ℝ) : EReal) := by
  rw [← sum_lanes L len hL (fun k => Real.exp (x (n + k) - r'))]
  refine Finset.sum_congr rfl fun j _ => ?_
  rw [hX j]
  split_ifs with h
  · rw [lane_exp, ← EReal.coe_mul, ← Real.exp_add]
    congr 2
    ring
  · rw [lane_exp_bot, mul_zero]

theorem step (x : ℕ → ℝ) (n L len : ℕ) (hlen : 0 < len) (hL : len ≤ L) (X Z : Fin L → EReal)
    (hX : ∀ j : Fin L, X j = if j.val < len then ((x (n + j.val) : ℝ) : EReal) else ⊥)
    (hZ : ∀ j : Fin L, Z j = if j.val < len then ((x (n + j.val) : ℝ) : EReal) else 0) :
    max (pm x n) ((Finset.univ : Finset (Fin L)).fold max ⊥ X) = pm x (n + len)
    ∧ Ideal.exp (pm x n - max (pm x n) ((Finset.univ : Finset (Fin L)).fold max ⊥ X))
          * ((s1 x n : ℝ) : EReal)
        + (∑ j, Ideal.exp ((X j - max (pm x n) ((Finset.univ : Finset (Fin L)).fold max ⊥ X)) * hlf)
              * Ideal.exp ((X j - max (pm x n) ((Finset.univ : Finset (Fin L)).fold max ⊥ X)) * hlf))
        = ((s1 x (n + len) : ℝ) : EReal)
    ∧ Ideal.exp ((pm x n - max (pm x n) ((Finset.univ : Finset (Fin L)).fold max ⊥ X)) * hlf)
          * ((sT x n : ℝ) : EReal)
        + (∑ j, Ideal.exp ((X j - max (pm x n) ((Finset.univ : Finset (Fin L)).fold max ⊥ X)) * hlf))
        = ((sT x (n + len) : ℝ) : EReal)
    ∧ ((sx x n : ℝ) : EReal) + (∑ j, Z j) = ((sx x (n + len) : ℝ) : EReal) := by
  have hmn : max (pm x n) ((Finset.univ : Finset (Fin L)).fold max ⊥ X) = pm x (n + len) := by
    rw [fold_lanes x n L len hL X hX, ← pm_add]
  have hpos : 0 < n + len := by omega
  obtain ⟨r', hr'⟩ := pm_real x hpos
  have e1 : s1 x (n + len) = ∑ k ∈ Finset.range (n + len), Real.exp (x k - r') := by
    simp [s1, hr']
  have eT : sT x (n + len) = ∑ k ∈ Finset.range (n + len), Real.exp ((x k - r') / 2) := by
    simp [sT, hr']
  refine ⟨hmn, ?_, ?_, ?_⟩
  · rw [hmn, hr', old1, new1 x n L len hL X hX, ← EReal.coe_add, e1, Finset.sum_range_add]
  · rw [hmn, hr', oldT, newT x n L len hL X hX, ← EReal.coe_add, eT, Finset.sum_range_add]
  · have hz : ∑ j, Z j = ((∑ k ∈ Finset.range len, x (n + k) : ℝ) : EReal) := by
      rw [← sum_lanes L len hL (fun k => x (n + k))]
      exact Finset.sum_congr rfl fun j _ => hZ j
    rw [hz, ← EReal.coe_add, sx, sx, Finset.sum_range_add]

theorem fold_eq_pm (x : ℕ → ℝ) (V : ℕ) :
    (Finset.univ : Finset (Fin V)).fold max ⊥ (fun j => ((x j.val : ℝ) : EReal)) = pm x V := by
  rw [fold_lanes x 0 V V le_rfl (fun j => ((x j.val : ℝ) : EReal)) (fun j => by simp)]
  simp [pm]

theorem log_coe_pos {s : ℝ} (hs : 0 < s) :
    Ideal.log ((s : ℝ) : EReal) = ((Real.log s : ℝ) : EReal) := by
  rw [Ideal.log_coe, if_neg (not_le.mpr hs)]

theorem sum_exp_eq (x : ℕ → ℝ) (V : ℕ) (hV : 0 < V) :
    ∑ j : Fin V, Ideal.exp (((x j.val : ℝ) : EReal) - pm x V) = ((s1 x V : ℝ) : EReal) := by
  obtain ⟨r, hr⟩ := pm_real x hV
  have hs : s1 x V = ∑ k ∈ Finset.range V, Real.exp (x k - r) := by simp [s1, hr]
  rw [hr, hs, ← Fin.sum_univ_eq_sum_range (fun k => Real.exp (x k - r)) V, coe_sum]
  refine Finset.sum_congr rfl fun j _ => ?_
  rw [← EReal.coe_sub, Ideal.exp_coe]

theorem nll_in_pm (x : ℕ → ℝ) (V : ℕ) (hV : 0 < V) (l : ℕ) :
    (pm x V + Ideal.log ((s1 x V : ℝ) : EReal)) - ((x l : ℝ) : EReal)
      = -((((x l : ℝ) : EReal) - pm x V)
          - Ideal.log (0 + ∑ j : Fin V, Ideal.exp (((x j.val : ℝ) : EReal) - pm x V))) := by
  rw [zero_add, sum_exp_eq x V hV, log_coe_pos (s1_pos x hV)]
  obtain ⟨r, hr⟩ := pm_real x hV
  rw [hr, ← EReal.coe_add, ← EReal.coe_sub, ← EReal.coe_sub, ← EReal.coe_sub, ← EReal.coe_neg]
  congr 1
  ring

theorem nll_out (x : ℕ → ℝ) (V : ℕ) (hV : 0 < V) :
    (pm x V + Ideal.log ((s1 x V : ℝ) : EReal)) - ⊥ = -(⊥ : EReal) := by
  obtain ⟨r, hr⟩ := pm_real x hV
  rw [hr, log_coe_pos (s1_pos x hV), ← EReal.coe_add, EReal.coe_sub_bot, EReal.neg_bot]

theorem half_coe (a : ℝ) :
    Ideal.div ((a : ℝ) : EReal) ((2 : ℝ) : EReal) = ((a / 2 : ℝ) : EReal) := by
  rw [Ideal.div_coe (by norm_num : (2 : ℝ) ≠ 0), ← EReal.coe_mul]
  congr 1
  ring

theorem pm_half (x : ℕ → ℝ) (V : ℕ) (hV : 0 < V) :
    pm (fun k => x k / 2) V = pm x V * hlf := by
  obtain ⟨k0, hk0, hk⟩ := pm_attained x hV
  rw [hk, hlf, ← EReal.coe_mul]
  apply le_antisymm
  · apply Finset.sup_le
    intro k hk'
    have h1 : ((x k : ℝ) : EReal) ≤ ((x k0 : ℝ) : EReal) := hk ▸ le_pm x (Finset.mem_range.mp hk')
    have h2 : x k ≤ x k0 := EReal.coe_le_coe_iff.mp h1
    apply EReal.coe_le_coe_iff.mpr
    linarith
  · have h3 := le_pm (fun k => x k / 2) hk0
    have h4 : x k0 * (1 / 2) = x k0 / 2 := by ring
    rw [h4]
    exact h3

theorem fold_half_eq (x : ℕ → ℝ) (V : ℕ) (hV : 0 < V) :
    (Finset.univ : Finset (Fin V)).fold max ⊥
        (fun j => Ideal.div ((x j.val : ℝ) : EReal) ((2 : ℝ) : EReal)) = pm x V * hlf := by
  have h : (fun j : Fin V => Ideal.div ((x j.val : ℝ) : EReal) ((2 : ℝ) : EReal))
      = fun j : Fin V => (((fun k => x k / 2) j.val : ℝ) : EReal) := funext fun j => half_coe _
  rw [h, fold_eq_pm (fun k => x k / 2) V, pm_half x V hV]

theorem sum_expT_eq (x : ℕ → ℝ) (V : ℕ) (hV : 0 < V) :
    ∑ k : Fin V, Ideal.exp (Ideal.div ((x k.val : ℝ) : EReal) ((2 : ℝ) : EReal) - pm x V * hlf)
      = ((sT x V : ℝ) : EReal) := by
  obtain ⟨r, hr⟩ := pm_real x hV
  have hs : sT x V = ∑ k ∈ Finset.range V, Real.exp ((x k - r) / 2) := by simp [sT, hr]
  rw [hr, hs, ← Fin.sum_univ_eq_sum_range (fun k => Real.exp ((x k - r) / 2)) V, coe_sum]
  refine Finset.sum_congr rfl fun j _ => ?_
  rw [half_coe, hlf, ← EReal.coe_mul, ← EReal.coe_sub, Ideal.exp_coe]
  congr 2
  ring

theorem kl_sum_pm (x : ℕ → ℝ) (V : ℕ) (hV : 0 < V) (c : ℝ) (hc : (V : ℝ) = c) :
    ((sx x V : ℝ) : EReal) * hlf
        - (c : EReal) * (pm x V * hlf + Ideal.log ((sT x V : ℝ) : EReal))
      = 0 + ∑ j : Fin V,
          ((Ideal.div ((x j.val : ℝ) : EReal) ((2 : ℝ) : EReal) - pm x V * hlf)
            - Ideal.log (0 + ∑ k : Fin V,
                Ideal.exp (Ideal.div ((x k.val : ℝ) : EReal) ((2 : ℝ) : EReal) - pm x V * hlf))) := by
  rw [zero_add, zero_add, sum_expT_eq x V hV, log_coe_pos (sT_pos x hV)]
  obtain ⟨r, hr⟩ := pm_real x hV
  have hterm : ∀ j : Fin V,
      (Ideal.div ((x j.val : ℝ) : EReal) ((2 : ℝ) : EReal) - (r : EReal) * hlf)
          - ((Real.log (sT x V) : ℝ) : EReal)
        = (((fun k => x k / 2 - r * (1 / 2) - Real.log (sT x V)) j.val : ℝ) : EReal) := by
    intro j
    rw [half_coe, hlf, ← EReal.coe_mul, ← EReal.coe_sub, ← EReal.coe_sub]
  rw [hr, Finset.sum_congr rfl (fun j _ => hterm j), ← coe_sum,
    Fin.sum_univ_eq_sum_range (fun k => x k / 2 - r * (1 / 2) - Real.log (sT x V)) V,
    hlf, ← EReal.coe_mul, ← EReal.coe_mul, ← EReal.coe_add, ← EReal.coe_mul, ← EReal.coe_sub]
  congr 1
  rw [Finset.sum_sub_distrib, Finset.sum_sub_distrib, ← Finset.sum_div, Finset.sum_const,
    Finset.sum_const, Finset.card_range, nsmul_eq_mul, nsmul_eq_mul, hc, sx]
  ring

theorem M_eq (x : ℕ → ℝ) :
    (Finset.univ : Finset (Fin 151643)).fold max ⊥ (fun j => ((x j.val : ℝ) : EReal))
      = pm x 151643 :=
  fold_eq_pm x 151643

theorem M2_eq (x : ℕ → ℝ) :
    (Finset.univ : Finset (Fin 151643)).fold max ⊥
        (fun j => Ideal.div ((x j.val : ℝ) : EReal) ((2 : ℝ) : EReal))
      = pm x 151643 * hlf :=
  fold_half_eq x 151643 (by norm_num)

theorem nll_in (x : ℕ → ℝ) (l : ℕ) :
    (pm x 151643 + Ideal.log ((s1 x 151643 : ℝ) : EReal)) - ((x l : ℝ) : EReal)
      = -((((x l : ℝ) : EReal)
            - (Finset.univ : Finset (Fin 151643)).fold max ⊥ (fun j => ((x j.val : ℝ) : EReal)))
          - Ideal.log (0 + ∑ j : Fin 151643, Ideal.exp (((x j.val : ℝ) : EReal)
              - (Finset.univ : Finset (Fin 151643)).fold max ⊥
                  (fun j => ((x j.val : ℝ) : EReal))))) := by
  rw [M_eq]
  exact nll_in_pm x 151643 (by norm_num) l

theorem nll_in_maxbot (x : ℕ → ℝ) (l : ℕ) :
    (pm x 151643 + Ideal.log ((s1 x 151643 : ℝ) : EReal)) - ((x l : ℝ) : EReal)
      = -((((x l : ℝ) : EReal)
            - max ⊥ ((Finset.univ : Finset (Fin 151643)).fold max ⊥
                (fun j => ((x j.val : ℝ) : EReal))))
          - Ideal.log (0 + ∑ j : Fin 151643, Ideal.exp (((x j.val : ℝ) : EReal)
              - max ⊥ ((Finset.univ : Finset (Fin 151643)).fold max ⊥
                  (fun j => ((x j.val : ℝ) : EReal)))))) := by
  rw [bot_sup_eq]
  exact nll_in x l

theorem nll_out_V (x : ℕ → ℝ) :
    (pm x 151643 + Ideal.log ((s1 x 151643 : ℝ) : EReal)) - ⊥ = -(⊥ : EReal) :=
  nll_out x 151643 (by norm_num)

theorem kl_sum (x : ℕ → ℝ) :
    ((sx x 151643 : ℝ) : EReal) * hlf
        - ((151643 : ℝ) : EReal)
            * (pm x 151643 * hlf + Ideal.log ((sT x 151643 : ℝ) : EReal))
      = 0 + ∑ j : Fin 151643,
          ((Ideal.div ((x j.val : ℝ) : EReal) ((2 : ℝ) : EReal)
              - (Finset.univ : Finset (Fin 151643)).fold max ⊥
                  (fun j => Ideal.div ((x j.val : ℝ) : EReal) ((2 : ℝ) : EReal)))
            - Ideal.log (0 + ∑ k : Fin 151643,
                Ideal.exp (Ideal.div ((x k.val : ℝ) : EReal) ((2 : ℝ) : EReal)
                  - (Finset.univ : Finset (Fin 151643)).fold max ⊥
                      (fun j => Ideal.div ((x j.val : ℝ) : EReal) ((2 : ℝ) : EReal))))) := by
  rw [M2_eq]
  exact kl_sum_pm x 151643 (by norm_num) 151643 (by norm_num)

theorem kl_sum_maxbot (x : ℕ → ℝ) :
    ((sx x 151643 : ℝ) : EReal) * hlf
        - ((151643 : ℝ) : EReal)
            * (pm x 151643 * hlf + Ideal.log ((sT x 151643 : ℝ) : EReal))
      = 0 + ∑ j : Fin 151643,
          ((Ideal.div ((x j.val : ℝ) : EReal) ((2 : ℝ) : EReal)
              - max ⊥ ((Finset.univ : Finset (Fin 151643)).fold max ⊥
                  (fun j => Ideal.div ((x j.val : ℝ) : EReal) ((2 : ℝ) : EReal))))
            - Ideal.log (0 + ∑ k : Fin 151643,
                Ideal.exp (Ideal.div ((x k.val : ℝ) : EReal) ((2 : ℝ) : EReal)
                  - max ⊥ ((Finset.univ : Finset (Fin 151643)).fold max ⊥
                      (fun j => Ideal.div ((x j.val : ℝ) : EReal) ((2 : ℝ) : EReal)))))) := by
  rw [bot_sup_eq]
  exact kl_sum x

end Cert.Mth

end
-- ==== Proof.KI.InvCore.lean ====
import proofs.«429975_j11527692223274_3_alg».proof.Proof.KI.PayIdx
import proofs.«429975_j11527692223274_3_alg».proof.Proof.KI.Mask
import proofs.«429975_j11527692223274_3_alg».proof.Proof.Math

noncomputable section

open scoped BigOperators

namespace Cert.KernelIdeal.Val

open Idealize.ShloMosaic Idealize.ShloMosaic.ValueIdx Idealize.SL.Sem
open Cert.KernelIdeal Cert.KernelIdeal.Gen

theorem index0 (t : Fin cfg0.N) :
    win0_0.index t 0 = t.val / 52 ∧ win0_0.index t 1 = (t.val / 13) % 4 ∧ win0_0.index t 2 = t.val % 13 :=
  (by decide +kernel : ∀ t : Fin grid0.N,
    win0_0.index t 0 = t.val / 52 ∧ win0_0.index t 1 = (t.val / 13) % 4 ∧ win0_0.index t 2 = t.val % 13) t

theorem index1 (t : Fin cfg0.N) : win0_1.index t 0 = (t.val / 13) % 4 ∧ win0_1.index t 1 = 0 :=
  (by decide +kernel : ∀ t : Fin grid0.N, win0_1.index t 0 = (t.val / 13) % 4 ∧ win0_1.index t 1 = 0) t

theorem xblk_read (A : S2x512x151643.Idx → Elt Ideal .f32) (t : Fin cfg0.N)
    (y : ((cfg0.win 0).xblock (grid0.coords t)).Idx) (k : S2x512x151643.Idx)
    (h0 : (k 0).val = t.val / 52 + (y 0).val) (h1 : (k 1).val = 128 * ((t.val / 13) % 4) + (y 1).val)
    (h2 : (k 2).val = 12288 * (t.val % 13) + (y 2).val) :
    ((cfg0.win 0).blk t).view.read (Elt Ideal) A y = A k := by
  obtain ⟨i0, i1, i2⟩ := index0 t
  rw [View.read_apply]
  show A _ = A _
  congr 1
  funext a
  apply Fin.ext
  match a with
  | ⟨0, _⟩ => show win0_0.index t 0 * 1 + 1 * (y 0).val = (k 0).val; rw [i0, h0]; omega
  | ⟨1, _⟩ => show win0_0.index t 1 * 128 + 1 * (y 1).val = (k 1).val; rw [i1, h1]; omega
  | ⟨2, _⟩ => show win0_0.index t 2 * 12288 + 1 * (y 2).val = (k 2).val; rw [i2, h2]; omega

theorem tblk_read (B : S512x1.Idx → Elt Ideal .f32) (t : Fin cfg0.N) (r : Fin 128) (s : Fin 512)
    (hs : s.val = 128 * ((t.val / 13) % 4) + r.val) :
    ((cfg0.win 1).blk t).view.read (Elt Ideal) B (ix2 r (0 : Fin 1)) = B (ix2 s (0 : Fin 1)) := by
  obtain ⟨i0, i1⟩ := index1 t
  rw [View.read_apply]
  show B _ = B _
  congr 1
  funext a
  apply Fin.ext
  match a with
  | ⟨0, _⟩ => show win0_1.index t 0 * 128 + 1 * r.val = s.val; rw [i0, hs]; omega
  | ⟨1, _⟩ => show win0_1.index t 1 * 1 + 1 * 0 = 0; rw [i1]

theorem moved_iff_col (t : Fin cfg0.N) (j' : (cfg0.win 0).block.Idx) :
    (cfg0.win 0).moved (grid0.coords t) j' = true ↔ 12288 * (t.val % 13) + (j' 2).val < 151643 := by
  have hj : (j' 2).val < 12288 := (j' 2).isLt
  by_cases h : t.val % 13 = 12
  · rw [Msk.moved_last t h j', h]; omega
  · have hlt : t.val % 13 < 12 := by have := Nat.mod_lt t.val (show 0 < 13 by decide); omega
    constructor
    · intro _; omega
    · intro _
      refine ((cfg0.win 0).moved_iff (grid0.coords t) j').mpr fun a => ?_
      show (j' a).val < ((cfg0.win 0).clip (grid0.coords t) a).extent ((cfg0.win 0).size a)
      rw [Msk.clip_none_of_ne t h a]; exact (j' a).isLt

theorem xfill_read (A : S2x512x151643.Idx → Elt Ideal .f32) (d : (cfg0.win 0).block.Idx → Elt Ideal .f32)
    (t : Fin cfg0.N) (r : Fin 128) (j : Fin 12288) (k : S2x512x151643.Idx)
    (h0 : (k 0).val = t.val / 52) (h1 : (k 1).val = 128 * ((t.val / 13) % 4) + r.val)
    (h2 : (k 2).val = 12288 * (t.val % 13) + j.val) :
    win0_0.fill (grid0.coords t) d (((cfg0.win 0).blk t).view.read (Elt Ideal) A) (ix3 (0 : Fin 1) r j) = A k := by
  have hk : 12288 * (t.val % 13) + j.val < 151643 := by rw [← h2]; exact (k 2).isLt
  have hm : (cfg0.win 0).moved (grid0.coords t) (ix3 (0 : Fin 1) r j) = true := (moved_iff_col t _).mpr hk
  unfold Pipeline.Window.fill
  rw [dif_pos hm]
  exact xblk_read A t _ k (by rw [h0]; rfl) h1 h2

def rowOf (A : S2x512x151643.Idx → EReal) (b : Fin 2) (s : Fin 512) : ℕ → ℝ :=
  fun k => if h : k < 151643 then (A (ix3 b s ⟨k, h⟩)).toReal else 0

theorem rowOf_coe (A : S2x512x151643.Idx → EReal) (hfin : ∀ i, ∃ q : ℝ, A i = ((q : ℝ) : EReal)) (b : Fin 2) (s : Fin 512)
    (k : ℕ) (h : k < 151643) : ((rowOf A b s k : ℝ) : EReal) = A (ix3 b s ⟨k, h⟩) := by
  obtain ⟨q, hq⟩ := hfin (ix3 b s ⟨k, h⟩)
  unfold rowOf
  rw [dif_pos h, hq, EReal.toReal_coe]

theorem ninf_eq : Pay.ninf = ⊥ := Cert.Mth.ofBits_negInf
theorem zer_eq : Pay.zer = 0 := Cert.Mth.ofBits_zero
theorem hlf_eq : Pay.hlf = Cert.Mth.hlf := Cert.Mth.ofBits_half

theorem row_step (x : ℕ → ℝ) (n len : ℕ) (hlen : 0 < len) (hL : len ≤ 12288)
    (X Z : Fin 128 → Fin 12288 → EReal) (mo so sTo sxo : Fin 128 → EReal) (r : Fin 128)
    (hX : ∀ j : Fin 12288, X r j = if j.val < len then ((x (n + j.val) : ℝ) : EReal) else ⊥)
    (hZ : ∀ j : Fin 12288, Z r j = if j.val < len then ((x (n + j.val) : ℝ) : EReal) else 0)
    (hm : mo r = Cert.Mth.pm x n) (hs : so r = ((Cert.Mth.s1 x n : ℝ) : EReal))
    (hT : sTo r = ((Cert.Mth.sT x n : ℝ) : EReal)) (hx : sxo r = ((Cert.Mth.sx x n : ℝ) : EReal)) :
    Pay.mNew X mo r = Cert.Mth.pm x (n + len)
    ∧ Pay.sNew X mo mo so r = ((Cert.Mth.s1 x (n + len) : ℝ) : EReal)
    ∧ Pay.sTNew X mo mo sTo r = ((Cert.Mth.sT x (n + len) : ℝ) : EReal)
    ∧ Pay.sxNew Z sxo r = ((Cert.Mth.sx x (n + len) : ℝ) : EReal) := by
  obtain ⟨e1, e2, e3, e4⟩ := Cert.Mth.step x n 12288 len hlen hL (X r) (Z r) hX hZ
  refine ⟨?_, ?_, ?_, ?_⟩
  · unfold Pay.mNew Pay.rowMax; rw [hm, ninf_eq]; exact e1
  · unfold Pay.sNew Pay.eNew Pay.mNew Pay.rowMax; rw [hm, hs, ninf_eq, hlf_eq]; exact e2
  · unfold Pay.sTNew Pay.eNew Pay.mNew Pay.rowMax; rw [hm, hT, ninf_eq, hlf_eq]; exact e3
  · unfold Pay.sxNew; rw [hx]; exact e4

theorem fast_row (x : ℕ → ℝ) (n : ℕ) (X0 : Vec Ideal S1x128x12288 .f32) (r : Fin 128)
    (hX0 : ∀ j : Fin 12288, X0 (ix3 (0 : Fin 1) r j) = ((x (n + j.val) : ℝ) : EReal))
    (mo so sTo sxo : Vec Ideal S128x1 .f32)
    (hm : mo (ix2 r (0 : Fin 1)) = Cert.Mth.pm x n) (hs : so (ix2 r (0 : Fin 1)) = ((Cert.Mth.s1 x n : ℝ) : EReal))
    (hT : sTo (ix2 r (0 : Fin 1)) = ((Cert.Mth.sT x n : ℝ) : EReal))
    (hx : sxo (ix2 r (0 : Fin 1)) = ((Cert.Mth.sx x n : ℝ) : EReal)) :
    k0_pay12 (k0_pay5 X0) mo (ix2 r (0 : Fin 1)) = Cert.Mth.pm x (n + 12288)
    ∧ k0_pay10 (k0_pay5 X0) mo mo so (ix2 r (0 : Fin 1)) = ((Cert.Mth.s1 x (n + 12288) : ℝ) : EReal)
    ∧ k0_pay11 (k0_pay5 X0) mo mo sTo (ix2 r (0 : Fin 1)) = ((Cert.Mth.sT x (n + 12288) : ℝ) : EReal)
    ∧ k0_pay6 X0 sxo (ix2 r (0 : Fin 1)) = ((Cert.Mth.sx x (n + 12288) : ℝ) : EReal) := by
  have hX : ∀ j : Fin 12288, Pay.blk (k0_pay5 X0) r j = if j.val < 12288 then ((x (n + j.val) : ℝ) : EReal) else ⊥ :=
    fun j => by rw [if_pos j.isLt]; exact (Pay.pay5_apply X0 r j).trans (hX0 j)
  have hZ : ∀ j : Fin 12288, Pay.blk (k0_pay5 X0) r j = if j.val < 12288 then ((x (n + j.val) : ℝ) : EReal) else 0 :=
    fun j => by rw [if_pos j.isLt]; exact (Pay.pay5_apply X0 r j).trans (hX0 j)
  rw [Pay.pay12_apply, Pay.pay10_apply, Pay.pay11_apply, Pay.pay6_apply]
  exact row_step x n 12288 (by decide) le_rfl _ _ (Pay.col mo) (Pay.col so) (Pay.col sTo) (Pay.col sxo) r hX hZ hm hs hT hx

theorem last_row (x : ℕ → ℝ) (n : ℕ) (v5 : BitVec 32)
    (hmask : ∀ (r : Fin 128) (j : Fin 12288), k0_pay13 v5 (ix2 r j) = 1#1 ↔ j.val < 4187)
    (X0 : Vec Ideal S1x128x12288 .f32) (r : Fin 128)
    (hX0 : ∀ j : Fin 12288, j.val < 4187 → X0 (ix3 (0 : Fin 1) r j) = ((x (n + j.val) : ℝ) : EReal))
    (mo so sTo sxo : Vec Ideal S128x1 .f32)
    (hm : mo (ix2 r (0 : Fin 1)) = Cert.Mth.pm x n) (hs : so (ix2 r (0 : Fin 1)) = ((Cert.Mth.s1 x n : ℝ) : EReal))
    (hT : sTo (ix2 r (0 : Fin 1)) = ((Cert.Mth.sT x n : ℝ) : EReal))
    (hx : sxo (ix2 r (0 : Fin 1)) = ((Cert.Mth.sx x n : ℝ) : EReal)) :
    k0_pay20 (k0_pay15 (k0_pay5 X0) v5 mo) (ix2 r (0 : Fin 1)) = Cert.Mth.pm x (n + 4187)
    ∧ k0_pay17 (k0_pay5 X0) v5 mo mo so (ix2 r (0 : Fin 1)) = ((Cert.Mth.s1 x (n + 4187) : ℝ) : EReal)
    ∧ k0_pay19 (k0_pay18 (k0_pay5 X0) v5 mo mo sTo) (ix2 r (0 : Fin 1)) = ((Cert.Mth.sT x (n + 4187) : ℝ) : EReal)
    ∧ k0_pay21 (k0_pay5 X0) (k0_pay13 v5) sxo (ix2 r (0 : Fin 1)) = ((Cert.Mth.sx x (n + 4187) : ℝ) : EReal) := by
  have hX : ∀ j : Fin 12288, Pay.maskNeg (k0_pay13 v5) (k0_pay5 X0) r j
      = if j.val < 4187 then ((x (n + j.val) : ℝ) : EReal) else ⊥ := fun j => by
    unfold Pay.maskNeg
    by_cases hj : j.val < 4187
    · rw [(hmask r j).mpr hj, select_one, if_pos hj]; exact (Pay.pay5_apply X0 r j).trans (hX0 j hj)
    · rw [eq_zero_of_ne_one (fun h => hj ((hmask r j).mp h)), select_zero, if_neg hj]; exact ninf_eq
  have hZ : ∀ j : Fin 12288, Pay.maskZero (k0_pay13 v5) (k0_pay5 X0) r j
      = if j.val < 4187 then ((x (n + j.val) : ℝ) : EReal) else 0 := fun j => by
    unfold Pay.maskZero
    by_cases hj : j.val < 4187
    · rw [(hmask r j).mpr hj, select_one, if_pos hj]; exact (Pay.pay5_apply X0 r j).trans (hX0 j hj)
    · rw [eq_zero_of_ne_one (fun h => hj ((hmask r j).mp h)), select_zero, if_neg hj]; exact zer_eq
  rw [Pay.pay20_apply, Pay.pay19_apply, Pay.pay15_apply, Pay.pay17_apply, Pay.pay18_apply, Pay.pay21_apply]
  exact row_step x n 4187 (by decide) (by decide) _ _ (Pay.col mo) (Pay.col so) (Pay.col sTo) (Pay.col sxo) r hX hZ hm hs hT hx

theorem lse_row (x : ℕ → ℝ) (N : ℕ) (mC s1C : Vec Ideal S128x1 .f32) (r : Fin 128)
    (hm : mC (ix2 r (0 : Fin 1)) = Cert.Mth.pm x N) (hs : s1C (ix2 r (0 : Fin 1)) = ((Cert.Mth.s1 x N : ℝ) : EReal)) :
    k0_pay22 mC s1C (ix3 (0 : Fin 1) r (0 : Fin 1)) = Cert.Mth.pm x N + Ideal.log ((Cert.Mth.s1 x N : ℝ) : EReal) := by
  rw [Pay.pay22_apply]; unfold Pay.col; rw [hm, hs]

theorem kl_row (x : ℕ → ℝ) (N : ℕ) (mC sTC sxC tl : Vec Ideal S128x1 .f32) (r : Fin 128)
    (hm : mC (ix2 r (0 : Fin 1)) = Cert.Mth.pm x N) (hT : sTC (ix2 r (0 : Fin 1)) = ((Cert.Mth.sT x N : ℝ) : EReal))
    (hx : sxC (ix2 r (0 : Fin 1)) = ((Cert.Mth.sx x N : ℝ) : EReal)) :
    k0_pay7 (k0_pay23 mC sTC) (k0_pay24 sxC) (k0_pay25 (F := Ideal)) tl (ix3 (0 : Fin 1) r (0 : Fin 1))
      = Pay.klVal (Cert.Mth.pm x N * Pay.hlf + Ideal.log ((Cert.Mth.sT x N : ℝ) : EReal))
          (((Cert.Mth.sx x N : ℝ) : EReal) * Pay.hlf) Pay.vsz (tl (ix2 r (0 : Fin 1))) := by
  rw [Pay.pay7_apply, Pay.pay23_apply, Pay.pay24_apply, Pay.pay25_apply]; unfold Pay.col; rw [hm, hT, hx]

end Cert.KernelIdeal.Val

end
-- ==== Proof.KI.Inv.lean ====
import proofs.«429975_j11527692223274_3_alg».proof.Proof.KI.FrameDefs
import proofs.«429975_j11527692223274_3_alg».proof.Proof.KI.Pieces
import proofs.«429975_j11527692223274_3_alg».proof.Proof.KI.InvCore

set_option maxRecDepth 16384

noncomputable section

open scoped BigOperators

namespace Cert.KernelIdeal.Val

open Idealize.ShloMosaic Idealize.ShloMosaic.TcCoe Idealize.ShloMosaic.ValueIdx Idealize.SL.Sem
open Cert.KernelIdeal Cert.KernelIdeal.Gen Cert.KernelIdeal.Fr

variable (m : (ℓ : Loc nD τ sig) → Buf (Elt Ideal) ℓ) (c : Dev nD)

abbrev xarr : S2x512x151643.Idx → EReal := V m c main_arg0

abbrev tarr : S512x1.Idx → EReal := V m c main_v0

def xrow (b : Fin 2) (s : Fin 512) : ℕ → ℝ := rowOf (xarr m c) b s

def ncols (v : ℕ) : ℕ := min ((v + 1) * 12288) 151643

theorem b_lt (t : Fin cfg0.N) : t.val / 52 < 2 := by have h : t.val < 104 := t.isLt; omega
theorem s_lt (t : Fin cfg0.N) (r : Fin 128) : 128 * ((t.val / 13) % 4) + r.val < 512 := by have := r.isLt; omega

theorem xfill_row (hfin : ∀ i, ∃ q : ℝ, xarr m c i = ((q : ℝ) : EReal)) (t : Fin cfg0.N) (r : Fin 128) (b : Fin 2) (s : Fin 512)
    (hb : b.val = t.val / 52) (hs : s.val = 128 * ((t.val / 13) % 4) + r.val) (j : Fin 12288)
    (hj : 12288 * (t.val % 13) + j.val < 151643) :
    xfill m c t (ix3 (0 : Fin 1) r j) = ((xrow m c b s (12288 * (t.val % 13) + j.val) : ℝ) : EReal) := by
  unfold xrow
  rw [rowOf_coe (xarr m c) hfin b s _ hj]
  unfold xfill iblk
  exact xfill_read (xarr m c) _ t r j (ix3 b s ⟨_, hj⟩) hb hs rfl

theorem tblk_row (t : Fin cfg0.N) (r : Fin 128) (s : Fin 512) (hs : s.val = 128 * ((t.val / 13) % 4) + r.val) :
    iblk m c 1 t (ix2 r (0 : Fin 1)) = tarr m c (ix2 s (0 : Fin 1)) := by
  unfold iblk
  exact tblk_read (tarr m c) t r s hs

section Components
variable (t : Fin cfg0.N)

theorem stA_0 (h0 : t.val % 13 = 0) : (stepA m c t h0).2.2.1 = k0_pay12 (k0_pay5 (xfill m c t)) (k0_pay1 (F := Ideal)) := by
  unfold stepA outsA; dsimp only; rw [sout0_A_0_eq]
theorem stA_1 (h0 : t.val % 13 = 0) : (stepA m c t h0).2.2.2.1 = k0_pay10 (k0_pay5 (xfill m c t)) (k0_pay1 (F := Ideal)) (k0_pay1 (F := Ideal)) (k0_pay2 (F := Ideal)) := by
  unfold stepA outsA; dsimp only; rw [sout0_A_1_eq]
theorem stA_2 (h0 : t.val % 13 = 0) : (stepA m c t h0).2.2.2.2.1 = k0_pay11 (k0_pay5 (xfill m c t)) (k0_pay1 (F := Ideal)) (k0_pay1 (F := Ideal)) (k0_pay3 (F := Ideal)) := by
  unfold stepA outsA; dsimp only; rw [sout0_A_2_eq]
theorem stA_3 (h0 : t.val % 13 = 0) : (stepA m c t h0).2.2.2.2.2 = k0_pay6 (xfill m c t) (k0_pay4 (F := Ideal)) := by
  unfold stepA outsA; dsimp only; rw [sout0_A_3_eq]

variable (prev : Outs6 Ideal)

theorem stB_0 (h0 : ¬t.val % 13 = 0) (h1 : t.val % 13 < 12) : (stepB m c t h0 h1 prev).2.2.1 = k0_pay12 (k0_pay5 (xfill m c t)) prev.2.2.1 := by
  unfold stepB outsB; dsimp only; rw [sout0_B_0_eq]
theorem stB_1 (h0 : ¬t.val % 13 = 0) (h1 : t.val % 13 < 12) : (stepB m c t h0 h1 prev).2.2.2.1 = k0_pay10 (k0_pay5 (xfill m c t)) prev.2.2.1 prev.2.2.1 prev.2.2.2.1 := by
  unfold stepB outsB; dsimp only; rw [sout0_B_1_eq]
theorem stB_2 (h0 : ¬t.val % 13 = 0) (h1 : t.val % 13 < 12) : (stepB m c t h0 h1 prev).2.2.2.2.1 = k0_pay11 (k0_pay5 (xfill m c t)) prev.2.2.1 prev.2.2.1 prev.2.2.2.2.1 := by
  unfold stepB outsB; dsimp only; rw [sout0_B_2_eq]
theorem stB_3 (h0 : ¬t.val % 13 = 0) (h1 : t.val % 13 < 12) : (stepB m c t h0 h1 prev).2.2.2.2.2 = k0_pay6 (xfill m c t) prev.2.2.2.2.2 := by
  unfold stepB outsB; dsimp only; rw [sout0_B_3_eq]

theorem stC_0 (h2 : t.val % 13 = 12) : (stepC m c t h2 prev).2.2.1 = k0_pay20 (k0_pay15 (k0_pay5 (xfill m c t)) (v5of (grid0.coords t)) prev.2.2.1) := by
  unfold stepC outsC; dsimp only; rw [sout0_C_0_eq]
theorem stC_1 (h2 : t.val % 13 = 12) : (stepC m c t h2 prev).2.2.2.1 = k0_pay17 (k0_pay5 (xfill m c t)) (v5of (grid0.coords t)) prev.2.2.1 prev.2.2.1 prev.2.2.2.1 := by
  unfold stepC outsC; dsimp only; rw [sout0_C_1_eq]
theorem stC_2 (h2 : t.val % 13 = 12) : (stepC m c t h2 prev).2.2.2.2.1 = k0_pay19 (k0_pay18 (k0_pay5 (xfill m c t)) (v5of (grid0.coords t)) prev.2.2.1 prev.2.2.1 prev.2.2.2.2.1) := by
  unfold stepC outsC; dsimp only; rw [sout0_C_2_eq]
theorem stC_3 (h2 : t.val % 13 = 12) : (stepC m c t h2 prev).2.2.2.2.2 = k0_pay21 (k0_pay5 (xfill m c t)) (k0_pay13 (v5of (grid0.coords t))) prev.2.2.2.2.2 := by
  unfold stepC outsC; dsimp only; rw [sout0_C_3_eq]

theorem stC_lse (h2 : t.val % 13 = 12) : (stepC m c t h2 prev).1 = k0_pay22 (stepC m c t h2 prev).2.2.1 (stepC m c t h2 prev).2.2.2.1 := by
  rw [stC_0, stC_1]; unfold stepC outsC; dsimp only; rw [out0_C_2_eq]

theorem stC_kl (h2 : t.val % 13 = 12) : (stepC m c t h2 prev).2.1
      = k0_pay7 (k0_pay23 (stepC m c t h2 prev).2.2.1 (stepC m c t h2 prev).2.2.2.2.1) (k0_pay24 (stepC m c t h2 prev).2.2.2.2.2) (k0_pay25 (F := Ideal)) (iblk m c 1 t) := by
  rw [stC_0, stC_2, stC_3]; unfold stepC outsC; dsimp only; rw [out0_C_3_eq]

end Components

def RowInv (n : ℕ) (hn : n < cfg0.N) (r : Fin 128) (b : Fin 2) (s : Fin 512) : Prop :=
  (outsAt0 m c n hn).2.2.1 (ix2 r (0 : Fin 1)) = Cert.Mth.pm (xrow m c b s) (ncols (n % 13))
  ∧ (outsAt0 m c n hn).2.2.2.1 (ix2 r (0 : Fin 1)) = ((Cert.Mth.s1 (xrow m c b s) (ncols (n % 13)) : ℝ) : EReal)
  ∧ (outsAt0 m c n hn).2.2.2.2.1 (ix2 r (0 : Fin 1)) = ((Cert.Mth.sT (xrow m c b s) (ncols (n % 13)) : ℝ) : EReal)
  ∧ (outsAt0 m c n hn).2.2.2.2.2 (ix2 r (0 : Fin 1)) = ((Cert.Mth.sx (xrow m c b s) (ncols (n % 13)) : ℝ) : EReal)

variable (hfin : ∀ i, ∃ q : ℝ, xarr m c i = ((q : ℝ) : EReal))
include hfin

theorem caseA (t : Fin cfg0.N) (h0 : t.val % 13 = 0) (r : Fin 128) (b : Fin 2) (s : Fin 512)
    (hb : b.val = t.val / 52) (hs : s.val = 128 * ((t.val / 13) % 4) + r.val) : RowInv m c t.val t.isLt r b s := by
  unfold RowInv
  rw [outsAt0_A m c t h0, stA_0, stA_1, stA_2, stA_3]
  have hn : ncols (t.val % 13) = 12288 * (t.val % 13) + 12288 := by rw [h0]; rfl
  have e0 : 12288 * (t.val % 13) = 0 := by rw [h0]
  rw [hn]
  refine fast_row (xrow m c b s) (12288 * (t.val % 13)) (xfill m c t) r
    (fun j => xfill_row m c hfin t r b s hb hs j (by have := j.isLt; omega)) _ _ _ _ ?_ ?_ ?_ ?_
  · rw [e0, Pay.pay1_apply, ninf_eq, Cert.Mth.pm_zero]
  · rw [e0, Pay.pay2_apply, zer_eq, Cert.Mth.s1_zero, EReal.coe_zero]
  · rw [e0, Pay.pay3_apply, zer_eq, Cert.Mth.sT_zero, EReal.coe_zero]
  · rw [e0, Pay.pay4_apply, zer_eq, Cert.Mth.sx_zero, EReal.coe_zero]

theorem caseB (t : Fin cfg0.N) (h0 : ¬t.val % 13 = 0) (h1 : t.val % 13 < 12) (r : Fin 128) (b : Fin 2) (s : Fin 512)
    (hb : b.val = t.val / 52) (hs : s.val = 128 * ((t.val / 13) % 4) + r.val)
    (ih : RowInv m c (t.val - 1) (Nat.lt_of_le_of_lt (Nat.sub_le _ _) t.isLt) r b s) : RowInv m c t.val t.isLt r b s := by
  unfold RowInv at ih ⊢
  have hp : ncols ((t.val - 1) % 13) = 12288 * (t.val % 13) := by unfold ncols; omega
  have hn : ncols (t.val % 13) = 12288 * (t.val % 13) + 12288 := by unfold ncols; omega
  rw [hp] at ih
  obtain ⟨im, is1, isT, isx⟩ := ih
  rw [outsAt0_B m c t h0 h1, stB_0, stB_1, stB_2, stB_3, hn]
  exact fast_row (xrow m c b s) (12288 * (t.val % 13)) (xfill m c t) r
    (fun j => xfill_row m c hfin t r b s hb hs j (by have := j.isLt; omega)) _ _ _ _ im is1 isT isx

theorem caseC (t : Fin cfg0.N) (h2 : t.val % 13 = 12) (r : Fin 128) (b : Fin 2) (s : Fin 512)
    (hb : b.val = t.val / 52) (hs : s.val = 128 * ((t.val / 13) % 4) + r.val)
    (ih : RowInv m c (t.val - 1) (Nat.lt_of_le_of_lt (Nat.sub_le _ _) t.isLt) r b s) : RowInv m c t.val t.isLt r b s := by
  unfold RowInv at ih ⊢
  have hp : ncols ((t.val - 1) % 13) = 12288 * (t.val % 13) := by unfold ncols; omega
  have hn : ncols (t.val % 13) = 12288 * (t.val % 13) + 4187 := by unfold ncols; omega
  rw [hp] at ih
  obtain ⟨im, is1, isT, isx⟩ := ih
  rw [outsAt0_C m c t h2, stC_0, stC_1, stC_2, stC_3, hn]
  exact last_row (xrow m c b s) (12288 * (t.val % 13)) (v5of (grid0.coords t))
    (Msk.mask_last_at (grid0.coords t) (Msk.coord2_last t h2)) (xfill m c t) r
    (fun j hj => xfill_row m c hfin t r b s hb hs j (by omega)) _ _ _ _ im is1 isT isx

theorem inv_nat : ∀ (n : ℕ) (hn : n < cfg0.N) (r : Fin 128) (b : Fin 2) (s : Fin 512),
    b.val = n / 52 → s.val = 128 * ((n / 13) % 4) + r.val → RowInv m c n hn r b s
  | 0, hn, r, b, s, hb, hs => caseA m c hfin ⟨0, hn⟩ (Nat.zero_mod _) r b s hb hs
  | n + 1, hn, r, b, s, hb, hs => by
    by_cases h0 : (n + 1) % 13 = 0
    · exact caseA m c hfin ⟨n + 1, hn⟩ h0 r b s hb hs
    · have ih := inv_nat n (Nat.lt_of_succ_lt hn) r b s (by omega) (by omega)
      by_cases h2 : (n + 1) % 13 = 12
      · exact caseC m c hfin ⟨n + 1, hn⟩ h2 r b s hb hs ih
      · exact caseB m c hfin ⟨n + 1, hn⟩ h0 (by show (n + 1) % 13 < 12; have := Nat.mod_lt (n + 1) (show 0 < 13 by decide); omega) r b s hb hs ih

theorem inv (t : Fin cfg0.N) (r : Fin 128) :
    (outsAt0 m c t.val t.isLt).2.2.1 (ix2 r (0 : Fin 1))
        = Cert.Mth.pm (xrow m c ⟨t.val / 52, b_lt t⟩ ⟨128 * ((t.val / 13) % 4) + r.val, s_lt t r⟩) (ncols (t.val % 13))
    ∧ (outsAt0 m c t.val t.isLt).2.2.2.1 (ix2 r (0 : Fin 1))
        = ((Cert.Mth.s1 (xrow m c ⟨t.val / 52, b_lt t⟩ ⟨128 * ((t.val / 13) % 4) + r.val, s_lt t r⟩) (ncols (t.val % 13)) : ℝ) : EReal)
    ∧ (outsAt0 m c t.val t.isLt).2.2.2.2.1 (ix2 r (0 : Fin 1))
        = ((Cert.Mth.sT (xrow m c ⟨t.val / 52, b_lt t⟩ ⟨128 * ((t.val / 13) % 4) + r.val, s_lt t r⟩) (ncols (t.val % 13)) : ℝ) : EReal)
    ∧ (outsAt0 m c t.val t.isLt).2.2.2.2.2 (ix2 r (0 : Fin 1))
        = ((Cert.Mth.sx (xrow m c ⟨t.val / 52, b_lt t⟩ ⟨128 * ((t.val / 13) % 4) + r.val, s_lt t r⟩) (ncols (t.val % 13)) : ℝ) : EReal) :=
  inv_nat m c hfin t.val t.isLt r ⟨t.val / 52, b_lt t⟩ ⟨128 * ((t.val / 13) % 4) + r.val, s_lt t r⟩ rfl rfl

theorem out_lse (t : Fin cfg0.N) (h2 : t.val % 13 = 12) (r : Fin 128) :
    (outsAt0 m c t.val t.isLt).1 (ix3 (0 : Fin 1) r (0 : Fin 1))
      = Cert.Mth.pm (xrow m c ⟨t.val / 52, b_lt t⟩ ⟨128 * ((t.val / 13) % 4) + r.val, s_lt t r⟩) 151643
        + Ideal.log ((Cert.Mth.s1 (xrow m c ⟨t.val / 52, b_lt t⟩ ⟨128 * ((t.val / 13) % 4) + r.val, s_lt t r⟩) 151643 : ℝ) : EReal) := by
  obtain ⟨im, is1, isT, isx⟩ := inv m c hfin t r
  have hN : ncols (t.val % 13) = 151643 := by rw [h2]; rfl
  rw [hN] at im is1 isT isx
  rw [outsAt0_C m c t h2] at im is1 ⊢
  rw [stC_lse]
  exact lse_row _ 151643 _ _ r im is1

theorem out_kl (t : Fin cfg0.N) (h2 : t.val % 13 = 12) (r : Fin 128) :
    (outsAt0 m c t.val t.isLt).2.1 (ix3 (0 : Fin 1) r (0 : Fin 1))
      = Pay.klVal
          (Cert.Mth.pm (xrow m c ⟨t.val / 52, b_lt t⟩ ⟨128 * ((t.val / 13) % 4) + r.val, s_lt t r⟩) 151643 * Pay.hlf
            + Ideal.log ((Cert.Mth.sT (xrow m c ⟨t.val / 52, b_lt t⟩ ⟨128 * ((t.val / 13) % 4) + r.val, s_lt t r⟩) 151643 : ℝ) : EReal))
          (((Cert.Mth.sx (xrow m c ⟨t.val / 52, b_lt t⟩ ⟨128 * ((t.val / 13) % 4) + r.val, s_lt t r⟩) 151643 : ℝ) : EReal) * Pay.hlf)
          Pay.vsz (tarr m c (ix2 (⟨128 * ((t.val / 13) % 4) + r.val, s_lt t r⟩ : Fin 512) (0 : Fin 1))) := by
  obtain ⟨im, is1, isT, isx⟩ := inv m c hfin t r
  have hN : ncols (t.val % 13) = 151643 := by rw [h2]; rfl
  rw [hN] at im is1 isT isx
  rw [outsAt0_C m c t h2] at im isT isx ⊢
  rw [stC_kl, ← tblk_row m c t r ⟨128 * ((t.val / 13) % 4) + r.val, s_lt t r⟩ rfl]
  exact kl_row _ 151643 _ _ _ _ r im isT isx

end Cert.KernelIdeal.Val

end
-- ==== Proof.KI.FinalGeom.lean ====
import proofs.«429975_j11527692223274_3_alg».proof.Proof.Gen.KernelIdeal.Launch
import proofs.«429975_j11527692223274_3_alg».proof.Proof.Gen.KernelIdeal.Points
import Idealize.ShloMosaic.Lib.Pipeline.Value
import Idealize.ShloMosaic.Lib.ValueIdx

noncomputable section

namespace Cert.KernelIdeal.Val

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

def lastPt (b : Fin 2) (s : Fin 512) : Fin cfg0.N :=
  ⟨52 * b.val + 13 * (s.val / 128) + 12, by
    show _ < grid0.N
    rw [N_0]
    have hb := b.isLt
    have hs := s.isLt
    omega⟩

theorem lastPt_val (b : Fin 2) (s : Fin 512) : (lastPt b s).val = 52 * b.val + 13 * (s.val / 128) + 12 := rfl

theorem lastPt_mod (b : Fin 2) (s : Fin 512) : (lastPt b s).val % 13 = 12 := by
  rw [lastPt_val]; omega

def rowIn (s : Fin 512) : Fin 128 := ⟨s.val % 128, Nat.mod_lt _ (by decide)⟩

def arrOf (L : Fin cfg0.N → Vec F S1x128x1 .f32) : S2x512x1.Idx → Elt F .f32 :=
  fun i => L (lastPt (i 0) (i 1)) (ix3 (0 : Fin 1) (rowIn (i 1)) (0 : Fin 1))

theorem arrOf_at (L : Fin cfg0.N → Vec F S1x128x1 .f32) (t : Fin cfg0.N) (i : S2x512x1.Idx) (y : S1x128x1.Idx)
    (h0 : 52 * (i 0).val + 13 * ((i 1).val / 128) + 12 = t.val) (h1 : (i 1).val % 128 = (y 1).val) :
    arrOf L i = L t y := by
  have hT : lastPt (i 0) (i 1) = t := Fin.ext h0
  have hy : (ix3 (0 : Fin 1) (rowIn (i 1)) (0 : Fin 1) : S1x128x1.Idx) = y := by
    funext a
    match a with
    | ⟨0, _⟩ =>
      apply Fin.ext
      have hy0 : (y 0).val < 1 := (y 0).isLt
      show 0 = (y 0).val
      omega
    | ⟨1, _⟩ => exact Fin.ext h1
    | ⟨2, _⟩ =>
      apply Fin.ext
      have hy2 : (y 2).val < 1 := (y 2).isLt
      show 0 = (y 2).val
      omega
  unfold arrOf
  rw [hT, hy]

theorem idx_last2 : ∀ t : Fin cfg0.N, t.val % 13 = 12 →
    t.val = 52 * win0_2.index t (0 : Fin 3) + 13 * win0_2.index t (1 : Fin 3) + 12
    ∧ win0_2.index t (0 : Fin 3) ≤ 1 ∧ win0_2.index t (1 : Fin 3) ≤ 3 ∧ win0_2.index t (2 : Fin 3) = 0 :=
  (by decide +kernel : ∀ t : Fin grid0.N, t.val % 13 = 12 →
    t.val = 52 * win0_2.index t (0 : Fin 3) + 13 * win0_2.index t (1 : Fin 3) + 12
    ∧ win0_2.index t (0 : Fin 3) ≤ 1 ∧ win0_2.index t (1 : Fin 3) ≤ 3 ∧ win0_2.index t (2 : Fin 3) = 0)

theorem mem_blk2 (t : Fin cfg0.N) (i : S2x512x1.Idx) :
    i ∈ ((cfg0.win 2).blk t).view.set ↔ ∀ a : Fin 3, win0_2.index t a * S1x128x1.size a ≤ (i a).val ∧ (i a).val < win0_2.index t a * S1x128x1.size a + S1x128x1.size a := by
  show i ∈ ((View.whole main_v1_0).slice (win0_2.rect t)).set ↔ _
  rw [View.set_slice_whole, Rect.mem_set_unit]
  exact Iff.rfl

section
variable {c : Dev nD} (dat : Dat τ (Elt F) Unit ℕ (UR sig nD τ) ℕ cfg0 c)
  (L : Fin cfg0.N → Vec F S1x128x1 .f32) (hL : ∀ t, dat.after 2 t = L t)

include hL

theorem flushed2_eq (t : Fin cfg0.N) (h2 : t.val % 13 = 12) :
    dat.flushed 2 t = ((cfg0.win 2).blk t).view.read (Elt F) (arrOf L) := by
  show (cfg0.win 2).cut (grid0.coords t) (dat.after 2 t) = _
  rw [hL t]
  obtain ⟨e, e0, e1, e2⟩ := idx_last2 t h2
  funext y
  show L t y = arrOf L (((cfg0.win 2).blk t).view.emb y)
  refine (arrOf_at L t _ y ?_ ?_).symm
  · show 52 * (win0_2.index t (0 : Fin 3) * 1 + 1 * (y 0).val) + 13 * ((win0_2.index t (1 : Fin 3) * 128 + 1 * (y 1).val) / 128) + 12 = t.val
    have hy0 : (y 0).val < 1 := (y 0).isLt
    have hy1 : (y 1).val < 128 := (y 1).isLt
    omega
  · show (win0_2.index t (1 : Fin 3) * 128 + 1 * (y 1).val) % 128 = (y 1).val
    have hy1 : (y 1).val < 128 := (y 1).isLt
    omega

theorem final2 (b : Fin 2) (s : Fin 512) :
    dat.arrAt 2 cfg0.N (ix3 b s (0 : Fin 1)) = L (lastPt b s) (ix3 (0 : Fin 1) (rowIn s) (0 : Fin 1)) := by
  have h2 := lastPt_mod b s
  obtain ⟨e, e0, e1, e2⟩ := idx_last2 (lastPt b s) h2
  rw [lastPt_val] at e
  have hb := b.isLt
  have hs := s.isLt
  have hmem : (ix3 b s (0 : Fin 1) : S2x512x1.Idx) ∈ ((cfg0.win 2).blk (lastPt b s)).view.set := by
    rw [mem_blk2]
    intro a
    match a with
    | ⟨0, _⟩ => show win0_2.index (lastPt b s) (0 : Fin 3) * 1 ≤ b.val ∧ b.val < win0_2.index (lastPt b s) (0 : Fin 3) * 1 + 1; omega
    | ⟨1, _⟩ => show win0_2.index (lastPt b s) (1 : Fin 3) * 128 ≤ s.val ∧ s.val < win0_2.index (lastPt b s) (1 : Fin 3) * 128 + 128; omega
    | ⟨2, _⟩ => show win0_2.index (lastPt b s) (2 : Fin 3) * 1 ≤ 0 ∧ 0 < win0_2.index (lastPt b s) (2 : Fin 3) * 1 + 1; omega
  refine (dat.arrAt_apply_of_mem 2 (arrOf L) (fun t hf => flushed2_eq dat L hL t ((flush0_2 t).mp hf)) cfg0.N (lastPt b s) _
    (lastPt b s).isLt ((flush0_2 _).mpr h2) hmem).trans ?_
  exact arrOf_at L (lastPt b s) _ _ rfl rfl

end

theorem idx_last3 : ∀ t : Fin cfg0.N, t.val % 13 = 12 →
    t.val = 52 * win0_3.index t (0 : Fin 3) + 13 * win0_3.index t (1 : Fin 3) + 12
    ∧ win0_3.index t (0 : Fin 3) ≤ 1 ∧ win0_3.index t (1 : Fin 3) ≤ 3 ∧ win0_3.index t (2 : Fin 3) = 0 :=
  (by decide +kernel : ∀ t : Fin grid0.N, t.val % 13 = 12 →
    t.val = 52 * win0_3.index t (0 : Fin 3) + 13 * win0_3.index t (1 : Fin 3) + 12
    ∧ win0_3.index t (0 : Fin 3) ≤ 1 ∧ win0_3.index t (1 : Fin 3) ≤ 3 ∧ win0_3.index t (2 : Fin 3) = 0)

theorem mem_blk3 (t : Fin cfg0.N) (i : S2x512x1.Idx) :
    i ∈ ((cfg0.win 3).blk t).view.set ↔ ∀ a : Fin 3, win0_3.index t a * S1x128x1.size a ≤ (i a).val ∧ (i a).val < win0_3.index t a * S1x128x1.size a + S1x128x1.size a := by
  show i ∈ ((View.whole main_v1_1).slice (win0_3.rect t)).set ↔ _
  rw [View.set_slice_whole, Rect.mem_set_unit]
  exact Iff.rfl

section
variable {c : Dev nD} (dat : Dat τ (Elt F) Unit ℕ (UR sig nD τ) ℕ cfg0 c)
  (L : Fin cfg0.N → Vec F S1x128x1 .f32) (hL : ∀ t, dat.after 3 t = L t)

include hL

theorem flushed3_eq (t : Fin cfg0.N) (h2 : t.val % 13 = 12) :
    dat.flushed 3 t = ((cfg0.win 3).blk t).view.read (Elt F) (arrOf L) := by
  show (cfg0.win 3).cut (grid0.coords t) (dat.after 3 t) = _
  rw [hL t]
  obtain ⟨e, e0, e1, e2⟩ := idx_last3 t h2
  funext y
  show L t y = arrOf L (((cfg0.win 3).blk t).view.emb y)
  refine (arrOf_at L t _ y ?_ ?_).symm
  · show 52 * (win0_3.index t (0 : Fin 3) * 1 + 1 * (y 0).val) + 13 * ((win0_3.index t (1 : Fin 3) * 128 + 1 * (y 1).val) / 128) + 12 = t.val
    have hy0 : (y 0).val < 1 := (y 0).isLt
    have hy1 : (y 1).val < 128 := (y 1).isLt
    omega
  · show (win0_3.index t (1 : Fin 3) * 128 + 1 * (y 1).val) % 128 = (y 1).val
    have hy1 : (y 1).val < 128 := (y 1).isLt
    omega

theorem final3 (b : Fin 2) (s : Fin 512) :
    dat.arrAt 3 cfg0.N (ix3 b s (0 : Fin 1)) = L (lastPt b s) (ix3 (0 : Fin 1) (rowIn s) (0 : Fin 1)) := by
  have h2 := lastPt_mod b s
  obtain ⟨e, e0, e1, e2⟩ := idx_last3 (lastPt b s) h2
  rw [lastPt_val] at e
  have hb := b.isLt
  have hs := s.isLt
  have hmem : (ix3 b s (0 : Fin 1) : S2x512x1.Idx) ∈ ((cfg0.win 3).blk (lastPt b s)).view.set := by
    rw [mem_blk3]
    intro a
    match a with
    | ⟨0, _⟩ => show win0_3.index (lastPt b s) (0 : Fin 3) * 1 ≤ b.val ∧ b.val < win0_3.index (lastPt b s) (0 : Fin 3) * 1 + 1; omega
    | ⟨1, _⟩ => show win0_3.index (lastPt b s) (1 : Fin 3) * 128 ≤ s.val ∧ s.val < win0_3.index (lastPt b s) (1 : Fin 3) * 128 + 128; omega
    | ⟨2, _⟩ => show win0_3.index (lastPt b s) (2 : Fin 3) * 1 ≤ 0 ∧ 0 < win0_3.index (lastPt b s) (2 : Fin 3) * 1 + 1; omega
  refine (dat.arrAt_apply_of_mem 3 (arrOf L) (fun t hf => flushed3_eq dat L hL t ((flush0_3 t).mp hf)) cfg0.N (lastPt b s) _
    (lastPt b s).isLt ((flush0_3 _).mpr h2) hmem).trans ?_
  exact arrOf_at L (lastPt b s) _ _ rfl rfl

end

end Cert.KernelIdeal.Val

end
-- ==== Proof.KI.Final.lean ====
import proofs.«429975_j11527692223274_3_alg».proof.Proof.KI.FrameDefs
import proofs.«429975_j11527692223274_3_alg».proof.Proof.KI.FinalGeom

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.ValueIdx

variable {F : FTy → Type} [FloatOps F]

variable (m : (ℓ : Loc nD τ sig) → Buf (Elt F) ℓ) (c : Dev nD)

theorem lse_final (b : Fin 2) (s : Fin 512) :
    (dats m 0 c).arrAt 2 cfg0.N (ix3 b s (0 : Fin 1))
      = (outsAt0 m c (lastPt b s).val (lastPt b s).isLt).1 (ix3 (0 : Fin 1) (rowIn s) (0 : Fin 1)) :=
  final2 (dats m 0 c) (fun t => (outsAt0 m c t.val t.isLt).1) (fun t => after0_2 m c t) b s

theorem kl_final (b : Fin 2) (s : Fin 512) :
    (dats m 0 c).arrAt 3 cfg0.N (ix3 b s (0 : Fin 1))
      = (outsAt0 m c (lastPt b s).val (lastPt b s).isLt).2.1 (ix3 (0 : Fin 1) (rowIn s) (0 : Fin 1)) :=
  final3 (dats m 0 c) (fun t => (outsAt0 m c t.val t.isLt).2.1) (fun t => after0_3 m c t) b s

end Cert.KernelIdeal.Val

end
-- ==== Proof.KI.Canon.lean ====
import proofs.«429975_j11527692223274_3_alg».proof.Proof.KI.Inv
import proofs.«429975_j11527692223274_3_alg».proof.Proof.KI.Final
import proofs.«429975_j11527692223274_3_alg».proof.Proof.KI.TailApply

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Fr

variable (m : (ℓ : Loc nD τ sig) → Buf (Elt Ideal) ℓ) (c : Dev nD)

abbrev lse3 : FVec Ideal S2x512x1 .f32 := (dats m 0 c).arrAt 2 cfg0.N

abbrev kl3 : FVec Ideal S2x512x1 .f32 := (dats m 0 c).arrAt 3 cfg0.N

theorem lastPt_b (b : Fin 2) (s : Fin 512) : (⟨(lastPt b s).val / 52, b_lt (lastPt b s)⟩ : Fin 2) = b :=
  Fin.ext (by
    have hb := b.isLt
    have hs := s.isLt
    show (52 * b.val + 13 * (s.val / 128) + 12) / 52 = b.val
    omega)

theorem lastPt_s (b : Fin 2) (s : Fin 512) :
    (⟨128 * (((lastPt b s).val / 13) % 4) + (rowIn s).val, s_lt (lastPt b s) (rowIn s)⟩ : Fin 512) = s :=
  Fin.ext (by
    have hb := b.isLt
    have hs := s.isLt
    show 128 * (((52 * b.val + 13 * (s.val / 128) + 12) / 13) % 4) + s.val % 128 = s.val
    omega)

theorem tarr_apply (s : Fin 512) :
    tarr m c (ix2 s (0 : Fin 1)) = (m ((c : Thread nD τ).loc main_arg1) : S512.Idx → EReal) (ix1 s) := by
  show (V m c main_v0 : S512x1.Idx → Elt Ideal .f32) (ix2 s (0 : Fin 1)) = _
  rw [V_main_v0]
  exact broadcastInDim_apply _ _ _ (ix2 s (0 : Fin 1)) (ix1 s) (fun a => match a with | ⟨0, _⟩ => rfl)

variable (hfin : ∀ i, ∃ q : ℝ, xarr m c i = ((q : ℝ) : EReal))
include hfin

theorem x_at (b : Fin 2) (s : Fin 512) (k : Fin 151643) :
    (m ((c : Thread nD τ).loc main_arg0) : S2x512x151643.Idx → EReal) (ix3 b s k) = ((xrow m c b s k.val : ℝ) : EReal) := by
  unfold xrow
  rw [rowOf_coe (xarr m c) hfin b s k.val k.isLt]
  show _ = (V m c main_arg0 : S2x512x151643.Idx → EReal) (ix3 b s k)
  rw [V_main_arg0]

theorem lse3_apply (b : Fin 2) (s : Fin 512) :
    lse3 m c (ix3 b s (0 : Fin 1))
      = Cert.Mth.pm (xrow m c b s) 151643 + Ideal.log ((Cert.Mth.s1 (xrow m c b s) 151643 : ℝ) : EReal) := by
  have h := out_lse m c hfin (lastPt b s) (lastPt_mod b s) (rowIn s)
  rw [lastPt_b, lastPt_s] at h
  exact (lse_final m c b s).trans h

theorem kl3_apply (b : Fin 2) (s : Fin 512) :
    kl3 m c (ix3 b s (0 : Fin 1))
      = Pay.klVal (Cert.Mth.pm (xrow m c b s) 151643 * Pay.hlf + Ideal.log ((Cert.Mth.sT (xrow m c b s) 151643 : ℝ) : EReal))
          (((Cert.Mth.sx (xrow m c b s) 151643 : ℝ) : EReal) * Pay.hlf) Pay.vsz
          ((m ((c : Thread nD τ).loc main_arg1) : S512.Idx → EReal) (ix1 s)) := by
  have h := out_kl m c hfin (lastPt b s) (lastPt_mod b s) (rowIn s)
  rw [lastPt_b, lastPt_s, tarr_apply] at h
  exact (kl_final m c b s).trans h

theorem nllK_canon (b : Fin 2) (s : Fin 512) :
    Tl.nllK (lse3 m c) (m ((c : Thread nD τ).loc main_arg0)) (m ((c : Thread nD τ).loc main_arg2)) (ix2 b s)
      = (Cert.Mth.pm (xrow m c b s) 151643 + Ideal.log ((Cert.Mth.s1 (xrow m c b s) 151643 : ℝ) : EReal))
        - (if (Tl.safeL (m ((c : Thread nD τ).loc main_arg2)) b s).sle 151642#32
           then ((xrow m c b s (Tl.vocab (m ((c : Thread nD τ).loc main_arg2)) b s).val : ℝ) : EReal)
           else (FloatOps.ofBits .f32 0x7FC00000#32 : Ideal .f32)) := by
  rw [Tl.nllK_apply, lse3_apply m c hfin b s, x_at m c hfin b s]

theorem klK_canon (b : Fin 2) (s : Fin 512) :
    Tl.klK (kl3 m c) (ix2 b s)
      = Pay.klVal (Cert.Mth.pm (xrow m c b s) 151643 * Pay.hlf + Ideal.log ((Cert.Mth.sT (xrow m c b s) 151643 : ℝ) : EReal))
          (((Cert.Mth.sx (xrow m c b s) 151643 : ℝ) : EReal) * Pay.hlf) Pay.vsz
          ((m ((c : Thread nD τ).loc main_arg1) : S512.Idx → EReal) (ix1 s)) := by
  rw [Tl.klK_apply, kl3_apply m c hfin b s]

end Cert.KernelIdeal.Val

end
-- ==== Proof.KI.Value.lean ====
import proofs.«429975_j11527692223274_3_alg».proof.Proof.KI.Frame
import proofs.«429975_j11527692223274_3_alg».proof.Proof.KI.TailApply
import proofs.«429975_j11527692223274_3_alg».proof.Proof.KI.Canon

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat Cfg)

variable (m : (ℓ : Loc nD τ sig) → Buf (Elt Ideal) ℓ) (ρ : Dev nD → PrngReg)

theorem W_main_v30 (c : Dev nD) :
    Pipeline.afterTail₀ cfgs (dats m) 0 (V0 m) tailOpss c main_v30
      = Tl.total (Tl.nllK (lse3 m c) (m ((c : Thread nD τ).loc main_arg0)) (m ((c : Thread nD τ).loc main_arg2)))
          (Tl.klK (kl3 m c)) (m ((c : Thread nD τ).loc main_arg2)) (m ((c : Thread nD τ).loc main_arg3)) := by
  unfold Pipeline.afterTail₀
  rw [show (tailOpss (F := Ideal)).flatten = List.flatten [hostOps1, hostOps1_1, hostOps1_2, hostOps1_3, hostOps1_4, hostOps1_5, hostOps1_6, hostOps1_7, hostOps1_8] from rfl, Tl.tail_eq]
  have h2 : Pipeline.withArrays spec0 c (V0 m c) (fun w => (dats m 0 c).arrAt w cfg0.N) (Proc.devRef .tc main_v1_0) = (dats m 0 c).arrAt 2 cfg0.N :=
    Pipeline.withArrays_arr spec0 launch0.win.arr_inj c (V0 m c) (fun w => (dats m 0 c).arrAt w cfg0.N) 2
  have h3 : Pipeline.withArrays spec0 c (V0 m c) (fun w => (dats m 0 c).arrAt w cfg0.N) (Proc.devRef .tc main_v1_1) = (dats m 0 c).arrAt 3 cfg0.N :=
    Pipeline.withArrays_arr spec0 launch0.win.arr_inj c (V0 m c) (fun w => (dats m 0 c).arrAt w cfg0.N) 3
  have h0 : Pipeline.withArrays spec0 c (V0 m c) (fun w => (dats m 0 c).arrAt w cfg0.N) (Proc.devRef .tc main_arg0) = m ((c : Thread nD τ).loc main_arg0) :=
    (Pipeline.withArrays_arr spec0 launch0.win.arr_inj c (V0 m c) (fun w => (dats m 0 c).arrAt w cfg0.N) 0).trans
      (((dats m 0 c).arrAt_in 0 rfl _).trans ((A_eq m c 0).trans (V_main_arg0 m c)))
  have ha2 : Pipeline.withArrays spec0 c (V0 m c) (fun w => (dats m 0 c).arrAt w cfg0.N) (Proc.devRef .tc main_arg2) = m ((c : Thread nD τ).loc main_arg2) :=
    (Pipeline.withArrays_of_ne spec0 c (V0 m c) (fun w => (dats m 0 c).arrAt w cfg0.N) main_arg2 (by exact (by decide : ∀ w, Pipeline.arrRef spec0 w ≠ main_arg2))).trans (V_main_arg2 m c)
  have ha3 : Pipeline.withArrays spec0 c (V0 m c) (fun w => (dats m 0 c).arrAt w cfg0.N) (Proc.devRef .tc main_arg3) = m ((c : Thread nD τ).loc main_arg3) :=
    (Pipeline.withArrays_of_ne spec0 c (V0 m c) (fun w => (dats m 0 c).arrAt w cfg0.N) main_arg3 (by exact (by decide : ∀ w, Pipeline.arrRef spec0 w ≠ main_arg3))).trans (V_main_arg3 m c)
  rw [h2, h3, h0, ha2, ha3]

theorem kernel_result : θ_run defs (onTc (τ := τ) (main (F := Ideal))) ⟨m, fun _ => 0, ρ⟩ (fun r => ∀ c : Dev nD,
      r.2.mem ((c.tc : Thread nD τ).loc main_v30)
        = Tl.total (Tl.nllK (lse3 m c) (m ((c : Thread nD τ).loc main_arg0)) (m ((c : Thread nD τ).loc main_arg2)))
            (Tl.klK (kl3 m c)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v30 (Pipeline.mem_restRefs_of main_v30 (by decide) (by decide))).trans (W_main_v30 m c),
     ((h c).1 0).trans (((dats m 0 c).arrAt_in 0 rfl _).trans ((A_eq m c 0).trans (V_main_arg0 m c))),
     ((h c).2 main_arg1 (Pipeline.mem_restRefs_of main_arg1 (by decide) (by decide))).trans ((W_keeps m (dats m) c main_arg1 (by decide) (by decide)).trans (V_main_arg1 m c)),
     ((h c).2 main_arg2 (Pipeline.mem_restRefs_of main_arg2 (by decide) (by decide))).trans ((W_keeps m (dats m) c main_arg2 (by decide) (by decide)).trans (V_main_arg2 m c)),
     ((h c).2 main_arg3 (Pipeline.mem_restRefs_of main_arg3 (by decide) (by decide))).trans ((W_keeps m (dats m) c main_arg3 (by decide) (by decide)).trans (V_main_arg3 m c))⟩)
    (run_main m ρ)

end Cert.KernelIdeal.Val

end
-- ==== Proof.RefRead.lean ====
import proofs.«429975_j11527692223274_3_alg».proof.Proof.Gen.ReferenceIdeal
import Idealize.ShloMosaic.Lib.StableHlo.Run
import Idealize.ShloMosaic.Lib.Pipeline.Value
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S2x512x151643, .f32⟩ : BufTy).Contents (Elt F)) (x1 : (⟨S512, .f32⟩ : BufTy).Contents (Elt F))
  (x2 x3 : (⟨S2x512, .i32⟩ : BufTy).Contents (Elt F))

theorem cast_cast_self {α β : Sort _} (h : β = α) (h' : α = β) (a : α) : cast h (cast h' a) = a := by
  subst h'; rfl

def val_main_call0_cst : (⟨S_, .f32⟩ : BufTy).Contents (Elt F) :=
  constant S_ .f32 0xFF800000#32
def val_main_call0_v0 : (⟨S2x512, .f32⟩ : BufTy).Contents (Elt F) :=
  Host.reduce FloatOps.maximumf (x0) (val_main_call0_cst (F := F)) reducesTo_S2x512x151643_S2x512_d2 h_S_

def val_main_call0_cst_0 : (⟨S_, .f32⟩ : BufTy).Contents (Elt F) :=
  constant S_ .f32 0xFF800000#32
theorem val_main_call0_cst_0_apply (i : S_.Idx) :
    val_main_call0_cst_0 (F := F) i = FloatOps.ofBits .f32 0xFF800000#32 := rfl

def val_main_call0_v1 : (⟨S2x512, .f32⟩ : BufTy).Contents (Elt F) :=
  broadcastInDim S2x512 ![] bcast_S_S2x512 (val_main_call0_cst_0 (F := F))
abbrev idx_main_call0_v1 (i : S2x512.Idx) : S_.Idx := fun a => a.elim0
theorem val_main_call0_v1_apply (i : S2x512.Idx) :
    val_main_call0_v1 (F := F) i = val_main_call0_cst_0 (F := F) (idx_main_call0_v1 i) := by
  unfold val_main_call0_v1
  generalize val_main_call0_cst_0 (F := F) = y
  exact broadcastInDim_apply _ bcast_S_S2x512 y i (idx_main_call0_v1 i) (fun a => a.elim0)

def val_main_call0_v2 : (⟨S2x512, .f32⟩ : BufTy).Contents (Elt F) :=
  maximumf (val_main_call0_v1 (F := F)) (val_main_call0_v0 (F := F) x0)
theorem val_main_call0_v2_apply (i : S2x512.Idx) :
    val_main_call0_v2 (F := F) x0 i = FloatOps.maximumf (val_main_call0_v1 (F := F) i) (val_main_call0_v0 (F := F) x0 i) := rfl

def val_main_call0_v3 : (⟨S2x512x1, .f32⟩ : BufTy).Contents (Elt F) :=
  broadcastInDim S2x512x1 ![0, 1] bcast_S2x512_S2x512x1_0_1 (val_main_call0_v2 (F := F) x0)
abbrev idx_main_call0_v3 (i : S2x512x1.Idx) : S2x512.Idx := fun a => match a with
  | ⟨0, _⟩ => ⟨(i 0).val, (i 0).isLt⟩
  | ⟨1, _⟩ => ⟨(i 1).val, (i 1).isLt⟩
theorem val_main_call0_v3_apply (i : S2x512x1.Idx) :
    val_main_call0_v3 (F := F) x0 i = val_main_call0_v2 (F := F) x0 (idx_main_call0_v3 i) := by
  unfold val_main_call0_v3
  generalize val_main_call0_v2 (F := F) x0 = y
  exact broadcastInDim_apply _ bcast_S2x512_S2x512x1_0_1 y i (idx_main_call0_v3 i) (fun a => match a with
    | ⟨0, _⟩ => by show (i 0).val = if (2 : Nat) = 1 then 0 else (i 0).val; rw [if_neg (by decide)]
    | ⟨1, _⟩ => by show (i 1).val = if (512 : Nat) = 1 then 0 else (i 1).val; rw [if_neg (by decide)])

def val_main_call0_v4 : (⟨S2x512x151643, .f32⟩ : BufTy).Contents (Elt F) :=
  broadcastInDim S2x512x151643 ![0, 1, 2] bcast_S2x512x1_S2x512x151643_0_1_2 (val_main_call0_v3 (F := F) x0)
abbrev idx_main_call0_v4 (i : S2x512x151643.Idx) : S2x512x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_call0_v4_apply (i : S2x512x151643.Idx) :
    val_main_call0_v4 (F := F) x0 i = val_main_call0_v3 (F := F) x0 (idx_main_call0_v4 i) := by
  unfold val_main_call0_v4
  generalize val_main_call0_v3 (F := F) x0 = y
  exact broadcastInDim_apply _ bcast_S2x512x1_S2x512x151643_0_1_2 y i (idx_main_call0_v4 i) (fun a => match a with
    | ⟨0, _⟩ => by show (i 0).val = if (2 : Nat) = 1 then 0 else (i 0).val; rw [if_neg (by decide)]
    | ⟨1, _⟩ => by show (i 1).val = if (512 : Nat) = 1 then 0 else (i 1).val; rw [if_neg (by decide)]
    | ⟨2, _⟩ => by show 0 = if (1 : Nat) = 1 then 0 else (i 2).val; rw [if_pos rfl])

def val_main_call0_v5 : (⟨S2x512x151643, .f32⟩ : BufTy).Contents (Elt F) :=
  subf (x0) (val_main_call0_v4 (F := F) x0)
theorem val_main_call0_v5_apply (i : S2x512x151643.Idx) :
    val_main_call0_v5 (F := F) x0 i = FloatOps.subf (x0 i) (val_main_call0_v4 (F := F) x0 i) := rfl

def val_main_call0_v6 : (⟨S2x512x151643, .f32⟩ : BufTy).Contents (Elt F) :=
  Host.exp (val_main_call0_v5 (F := F) x0)
theorem val_main_call0_v6_apply (i : S2x512x151643.Idx) :
    val_main_call0_v6 (F := F) x0 i = FloatOps.hostUnary .exp (val_main_call0_v5 (F := F) x0 i) := rfl

def val_main_call0_cst_1 : (⟨S_, .f32⟩ : BufTy).Contents (Elt F) :=
  constant S_ .f32 0x00000000#32
theorem val_main_call0_cst_1_apply (i : S_.Idx) :
    val_main_call0_cst_1 (F := F) i = FloatOps.ofBits .f32 0x00000000#32 := rfl

def val_main_call0_v7 : (⟨S2x512, .f32⟩ : BufTy).Contents (Elt F) :=
  Host.reduceAdd (val_main_call0_v6 (F := F) x0) (val_main_call0_cst_1 (F := F)) reducesTo_S2x512x151643_S2x512_d2 h_S_
abbrev idx_main_call0_v7 (i : S2x512.Idx) (k : Fin 151643) : S2x512x151643.Idx := fun a => match a with
  | ⟨0, _⟩ => ⟨(i 0).val, (i 0).isLt⟩
  | ⟨1, _⟩ => ⟨(i 1).val, (i 1).isLt⟩
  | ⟨2, _⟩ => ⟨k.val, k.isLt⟩

theorem val_main_call0_v7_apply (x0 : (⟨S2x512x151643, .f32⟩ : BufTy).Contents (Elt Ideal)) (i : S2x512.Idx) :
    val_main_call0_v7 (F := Ideal) x0 i = (val_main_call0_cst_1 (F := Ideal)) (Shape.Idx.first h_S_) + ∑ k : Fin 151643, (val_main_call0_v6 (F := Ideal) x0) (idx_main_call0_v7 i k) := by
  unfold val_main_call0_v7
  generalize val_main_call0_v6 (F := Ideal) x0 = y0
  simp only [Host.reduceAdd, Ideal.hostReduceAdd_def]
  rw [Ideal.hostReduceAdd_single reducesTo_S2x512x151643_S2x512_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_call0_v8 : (⟨S2x512x1, .f32⟩ : BufTy).Contents (Elt F) :=
  broadcastInDim S2x512x1 ![0, 1] bcast_S2x512_S2x512x1_0_1 (val_main_call0_v7 (F := F) x0)
abbrev idx_main_call0_v8 (i : S2x512x1.Idx) : S2x512.Idx := fun a => match a with
  | ⟨0, _⟩ => ⟨(i 0).val, (i 0).isLt⟩
  | ⟨1, _⟩ => ⟨(i 1).val, (i 1).isLt⟩
theorem val_main_call0_v8_apply (i : S2x512x1.Idx) :
    val_main_call0_v8 (F := F) x0 i = val_main_call0_v7 (F := F) x0 (idx_main_call0_v8 i) := by
  unfold val_main_call0_v8
  generalize val_main_call0_v7 (F := F) x0 = y
  exact broadcastInDim_apply _ bcast_S2x512_S2x512x1_0_1 y i (idx_main_call0_v8 i) (fun a => match a with
    | ⟨0, _⟩ => by show (i 0).val = if (2 : Nat) = 1 then 0 else (i 0).val; rw [if_neg (by decide)]
    | ⟨1, _⟩ => by show (i 1).val = if (512 : Nat) = 1 then 0 else (i 1).val; rw [if_neg (by decide)])

def val_main_call0_v9 : (⟨S2x512x1, .f32⟩ : BufTy).Contents (Elt F) :=
  Host.log (val_main_call0_v8 (F := F) x0)
theorem val_main_call0_v9_apply (i : S2x512x1.Idx) :
    val_main_call0_v9 (F := F) x0 i = FloatOps.hostUnary .log (val_main_call0_v8 (F := F) x0 i) := rfl

def val_main_call0_v10 : (⟨S2x512x151643, .f32⟩ : BufTy).Contents (Elt F) :=
  broadcastInDim S2x512x151643 ![0, 1, 2] bcast_S2x512x1_S2x512x151643_0_1_2 (val_main_call0_v9 (F := F) x0)
abbrev idx_main_call0_v10 (i : S2x512x151643.Idx) : S2x512x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_call0_v10_apply (i : S2x512x151643.Idx) :
    val_main_call0_v10 (F := F) x0 i = val_main_call0_v9 (F := F) x0 (idx_main_call0_v10 i) := by
  unfold val_main_call0_v10
  generalize val_main_call0_v9 (F := F) x0 = y
  exact broadcastInDim_apply _ bcast_S2x512x1_S2x512x151643_0_1_2 y i (idx_main_call0_v10 i) (fun a => match a with
    | ⟨0, _⟩ => by show (i 0).val = if (2 : Nat) = 1 then 0 else (i 0).val; rw [if_neg (by decide)]
    | ⟨1, _⟩ => by show (i 1).val = if (512 : Nat) = 1 then 0 else (i 1).val; rw [if_neg (by decide)]
    | ⟨2, _⟩ => by show 0 = if (1 : Nat) = 1 then 0 else (i 2).val; rw [if_pos rfl])

def val_main_v0 : (⟨S2x512x151643, .f32⟩ : BufTy).Contents (Elt F) :=
  subf (val_main_call0_v5 (F := F) x0) (val_main_call0_v10 (F := F) x0)
theorem val_main_v0_apply (i : S2x512x151643.Idx) :
    val_main_v0 (F := F) x0 i = FloatOps.subf (val_main_call0_v5 (F := F) x0 i) (val_main_call0_v10 (F := F) x0 i) := rfl

def val_main_c : (⟨S_, .i32⟩ : BufTy).Contents (Elt F) :=
  constantI S_ 32 0#32
def val_main_v1 : (⟨S2x512, .i32⟩ : BufTy).Contents (Elt F) :=
  broadcastInDim S2x512 ![] bcast_S_S2x512 (val_main_c (F := F))
def val_main_v2 : (⟨S2x512, .i1⟩ : BufTy).Contents (Elt F) :=
  cmpi .slt (x2) (val_main_v1 (F := F))
def val_main_c_0 : (⟨S_, .i32⟩ : BufTy).Contents (Elt F) :=
  constantI S_ 32 0#32
def val_main_call1_v0 : (⟨S_, .i32⟩ : BufTy).Contents (Elt F) :=
  id (val_main_c_0 (F := F))
def val_main_call1_v1 : (⟨S2x512, .i32⟩ : BufTy).Contents (Elt F) :=
  broadcastInDim S2x512 ![] bcast_S_S2x512 (val_main_call1_v0 (F := F))
def val_main_v3 : (⟨S2x512, .i32⟩ : BufTy).Contents (Elt F) :=
  select (val_main_v2 (F := F) x2) (val_main_call1_v1 (F := F)) (x2)
def val_main_v4 : (⟨S2x512x1, .i32⟩ : BufTy).Contents (Elt F) :=
  broadcastInDim S2x512x1 ![0, 1] bcast_S2x512_S2x512x1_0_1 (val_main_v3 (F := F) x2)
def val_main_call2_c : (⟨S_, .i32⟩ : BufTy).Contents (Elt F) :=
  constantI S_ 32 0#32
def val_main_call2_v0 : (⟨S2x512x1, .i32⟩ : BufTy).Contents (Elt F) :=
  broadcastInDim S2x512x1 ![] bcast_S_S2x512x1 (val_main_call2_c (F := F))
def val_main_call2_v1 : (⟨S2x512x1, .i1⟩ : BufTy).Contents (Elt F) :=
  cmpi .slt (val_main_v4 (F := F) x2) (val_main_call2_v0 (F := F))
def val_main_call2_c_0 : (⟨S_, .i32⟩ : BufTy).Contents (Elt F) :=
  constantI S_ 32 151643#32
def val_main_call2_v2 : (⟨S2x512x1, .i32⟩ : BufTy).Contents (Elt F) :=
  broadcastInDim S2x512x1 ![] bcast_S_S2x512x1 (val_main_call2_c_0 (F := F))
def val_main_call2_v3 : (⟨S2x512x1, .i32⟩ : BufTy).Contents (Elt F) :=
  addi (val_main_v4 (F := F) x2) (val_main_call2_v2 (F := F))
def val_main_call2_v4 : (⟨S2x512x1, .i32⟩ : BufTy).Contents (Elt F) :=
  select (val_main_call2_v1 (F := F) x2) (val_main_call2_v3 (F := F) x2) (val_main_v4 (F := F) x2)
def val_main_call2_v5 : (⟨S2x512x1x1, .i32⟩ : BufTy).Contents (Elt F) :=
  shapeCast _ (val_main_call2_v4 (F := F) x2) shapeCasts_S2x512x1_S2x512x1x1
def val_main_call2_c_1 : (⟨S1, .i32⟩ : BufTy).Contents (Elt F) :=
  constantI S1 32 151642#32
def val_main_call2_c_2 : (⟨S_, .i32⟩ : BufTy).Contents (Elt F) :=
  constantI S_ 32 0#32
def val_main_call2_v6 : (⟨S2x512x1x1, .i32⟩ : BufTy).Contents (Elt F) :=
  broadcastInDim S2x512x1x1 ![] bcast_S_S2x512x1x1 (val_main_call2_c_2 (F := F))
def val_main_call2_v7 : (⟨S2x512x1x1, .i1⟩ : BufTy).Contents (Elt F) :=
  cmpi .sge (val_main_call2_v5 (F := F) x2) (val_main_call2_v6 (F := F))
def val_main_call2_v8 : (⟨S1x1x1x1, .i32⟩ : BufTy).Contents (Elt F) :=
  broadcastInDim S1x1x1x1 ![3] bcast_S1_S1x1x1x1_3 (val_main_call2_c_1 (F := F))
def val_main_call2_v9 : (⟨S2x512x1x1, .i32⟩ : BufTy).Contents (Elt F) :=
  broadcastInDim S2x512x1x1 ![0, 1, 2, 3] bcast_S1x1x1x1_S2x512x1x1_0_1_2_3 (val_main_call2_v8 (F := F))
def val_main_call2_v10 : (⟨S2x512x1x1, .i1⟩ : BufTy).Contents (Elt F) :=
  cmpi .sle (val_main_call2_v5 (F := F) x2) (val_main_call2_v9 (F := F))
def val_main_call2_v11 : (⟨S2x512x1x1, .i1⟩ : BufTy).Contents (Elt F) :=
  andi (val_main_call2_v7 (F := F) x2) (val_main_call2_v10 (F := F) x2)
def val_main_call2_c_3 : (⟨S_, .i1⟩ : BufTy).Contents (Elt F) :=
  constantI S_ 1 1#1
def val_main_call2_v12 : (⟨S2x512x1, .i1⟩ : BufTy).Contents (Elt F) :=
  Host.reduce IntOp.andi (val_main_call2_v11 (F := F) x2) (val_main_call2_c_3 (F := F)) reducesTo_S2x512x1x1_S2x512x1_d3 h_S_

def val_main_call2_v13 : (⟨S2x512x1, .f32⟩ : BufTy).Contents (Elt F) :=
  Host.gather gather_S2x512x151643_S2x512x1x1_S2x512x1_n_2_01_01_2_3_111 (val_main_v0 (F := F) x0) (val_main_call2_v5 (F := F) x2)

def val_main_call2_cst : (⟨S_, .f32⟩ : BufTy).Contents (Elt F) :=
  constant S_ .f32 0x7FC00000#32
def val_main_call2_v14 : (⟨S2x512x1, .f32⟩ : BufTy).Contents (Elt F) :=
  broadcastInDim S2x512x1 ![] bcast_S_S2x512x1 (val_main_call2_cst (F := F))
def val_main_v5 : (⟨S2x512x1, .f32⟩ : BufTy).Contents (Elt F) :=
  select (val_main_call2_v12 (F := F) x2) (val_main_call2_v13 (F := F) x0 x2) (val_main_call2_v14 (F := F))
def val_main_v6 : (⟨S2x512, .f32⟩ : BufTy).Contents (Elt F) :=
  shapeCast _ (val_main_v5 (F := F) x0 x2) shapeCasts_S2x512x1_S2x512
def val_main_v7 : (⟨S2x512, .f32⟩ : BufTy).Contents (Elt F) :=
  Host.negf (val_main_v6 (F := F) x0 x2)
theorem val_main_v7_apply (i : S2x512.Idx) :
    val_main_v7 (F := F) x0 x2 i = FloatOps.hostNegf (val_main_v6 (F := F) x0 x2 i) := rfl

def val_main_c_1 : (⟨S_, .i32⟩ : BufTy).Contents (Elt F) :=
  constantI S_ 32 4294967196#32
def val_main_v8 : (⟨S2x512, .i32⟩ : BufTy).Contents (Elt F) :=
  broadcastInDim S2x512 ![] bcast_S_S2x512 (val_main_c_1 (F := F))
def val_main_v9 : (⟨S2x512, .i1⟩ : BufTy).Contents (Elt F) :=
  cmpi .ne (x2) (val_main_v8 (F := F))
def val_main_v10 : (⟨S2x512, .i32⟩ : BufTy).Contents (Elt F) :=
  extui 32 (val_main_v9 (F := F) x2) natLt_1_32
def val_main_c_2 : (⟨S_, .i32⟩ : BufTy).Contents (Elt F) :=
  constantI S_ 32 0#32
def val_main_v11 : (⟨S_, .i32⟩ : BufTy).Contents (Elt F) :=
  Host.reduce IntOp.addi (val_main_v10 (F := F) x2) (val_main_c_2 (F := F)) reducesTo_S2x512_S_d0_1 h_S_

def val_main_c_3 : (⟨S_, .i32⟩ : BufTy).Contents (Elt F) :=
  constantI S_ 32 1#32
def val_main_v12 : (⟨S_, .i32⟩ : BufTy).Contents (Elt F) :=
  maxsi (val_main_v11 (F := F) x2) (val_main_c_3 (F := F))
def val_main_v13 : (⟨S_, .f32⟩ : BufTy).Contents (Elt F) :=
  sitofp (F := F) .f32 (val_main_v12 (F := F) x2)
def val_main_cst : (⟨S_, .f32⟩ : BufTy).Contents (Elt F) :=
  constant S_ .f32 0x00000000#32
def val_main_call3_v0 : (⟨S2x512, .f32⟩ : BufTy).Contents (Elt F) :=
  broadcastInDim S2x512 ![] bcast_S_S2x512 (val_main_cst (F := F))
def val_main_v14 : (⟨S2x512, .f32⟩ : BufTy).Contents (Elt F) :=
  select (val_main_v9 (F := F) x2) (val_main_v7 (F := F) x0 x2) (val_main_call3_v0 (F := F))
def val_main_cst_4 : (⟨S_, .f32⟩ : BufTy).Contents (Elt F) :=
  constant S_ .f32 0x00000000#32
def val_main_v15 : (⟨S_, .f32⟩ : BufTy).Contents (Elt F) :=
  Host.reduceAdd (val_main_v14 (F := F) x0 x2) (val_main_cst_4 (F := F)) reducesTo_S2x512_S_d0_1 h_S_

def val_main_v16 : (⟨S_, .f32⟩ : BufTy).Contents (Elt F) :=
  Host.divf (val_main_v15 (F := F) x0 x2) (val_main_v13 (F := F) x2)
def val_main_cst_5 : (⟨S_, .f32⟩ : BufTy).Contents (Elt F) :=
  constant S_ .f32 0x40000000#32
theorem val_main_cst_5_apply (i : S_.Idx) :
    val_main_cst_5 (F := F) i = FloatOps.ofBits .f32 0x40000000#32 := rfl

def val_main_v17 : (⟨S2x512x151643, .f32⟩ : BufTy).Contents (Elt F) :=
  broadcastInDim S2x512x151643 ![] bcast_S_S2x512x151643 (val_main_cst_5 (F := F))
abbrev idx_main_v17 (i : S2x512x151643.Idx) : S_.Idx := fun a => a.elim0
theorem val_main_v17_apply (i : S2x512x151643.Idx) :
    val_main_v17 (F := F) i = val_main_cst_5 (F := F) (idx_main_v17 i) := by
  unfold val_main_v17
  generalize val_main_cst_5 (F := F) = y
  exact broadcastInDim_apply _ bcast_S_S2x512x151643 y i (idx_main_v17 i) (fun a => a.elim0)

def val_main_v18 : (⟨S2x512x151643, .f32⟩ : BufTy).Contents (Elt F) :=
  Host.divf (x0) (val_main_v17 (F := F))
theorem val_main_v18_apply (i : S2x512x151643.Idx) :
    val_main_v18 (F := F) x0 i = FloatOps.hostDivf (x0 i) (val_main_v17 (F := F) i) := rfl

def val_main_v19 : (⟨S2x512x151643, .f32⟩ : BufTy).Contents (Elt F) :=
  val_main_v0 (F := F) (val_main_v18 (F := F) x0)
def val_main_cst_6 : (⟨S_, .f32⟩ : BufTy).Contents (Elt F) :=
  constant S_ .f32 0x00000000#32
theorem val_main_cst_6_apply (i : S_.Idx) :
    val_main_cst_6 (F := F) i = FloatOps.ofBits .f32 0x00000000#32 := rfl

def val_main_v20 : (⟨S2x512, .f32⟩ : BufTy).Contents (Elt F) :=
  Host.reduceAdd (val_main_v19 (F := F) x0) (val_main_cst_6 (F := F)) reducesTo_S2x512x151643_S2x512_d2 h_S_
abbrev idx_main_v20 (i : S2x512.Idx) (k : Fin 151643) : S2x512x151643.Idx := fun a => match a with
  | ⟨0, _⟩ => ⟨(i 0).val, (i 0).isLt⟩
  | ⟨1, _⟩ => ⟨(i 1).val, (i 1).isLt⟩
  | ⟨2, _⟩ => ⟨k.val, k.isLt⟩

theorem val_main_v20_apply (x0 : (⟨S2x512x151643, .f32⟩ : BufTy).Contents (Elt Ideal)) (i : S2x512.Idx) :
    val_main_v20 (F := Ideal) x0 i = (val_main_cst_6 (F := Ideal)) (Shape.Idx.first h_S_) + ∑ k : Fin 151643, (val_main_v19 (F := Ideal) x0) (idx_main_v20 i k) := by
  unfold val_main_v20
  generalize val_main_v19 (F := Ideal) x0 = y0
  simp only [Host.reduceAdd, Ideal.hostReduceAdd_def]
  rw [Ideal.hostReduceAdd_single reducesTo_S2x512x151643_S2x512_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_v21 : (⟨S512, .f32⟩ : BufTy).Contents (Elt F) :=
  Host.exp (x1)
theorem val_main_v21_apply (i : S512.Idx) :
    val_main_v21 (F := F) x1 i = FloatOps.hostUnary .exp (x1 i) := rfl

def val_main_cst_7 : (⟨S_, .f32⟩ : BufTy).Contents (Elt F) :=
  constant S_ .f32 0x3F7D70A4#32
theorem val_main_cst_7_apply (i : S_.Idx) :
    val_main_cst_7 (F := F) i = FloatOps.ofBits .f32 0x3F7D70A4#32 := rfl

def val_main_v22 : (⟨S512, .f32⟩ : BufTy).Contents (Elt F) :=
  broadcastInDim S512 ![] bcast_S_S512 (val_main_cst_7 (F := F))
abbrev idx_main_v22 (i : S512.Idx) : S_.Idx := fun a => a.elim0
theorem val_main_v22_apply (i : S512.Idx) :
    val_main_v22 (F := F) i = val_main_cst_7 (F := F) (idx_main_v22 i) := by
  unfold val_main_v22
  generalize val_main_cst_7 (F := F) = y
  exact broadcastInDim_apply _ bcast_S_S512 y i (idx_main_v22 i) (fun a => a.elim0)

def val_main_v23 : (⟨S512, .f32⟩ : BufTy).Contents (Elt F) :=
  minimumf (val_main_v21 (F := F) x1) (val_main_v22 (F := F))
theorem val_main_v23_apply (i : S512.Idx) :
    val_main_v23 (F := F) x1 i = FloatOps.minimumf (val_main_v21 (F := F) x1 i) (val_main_v22 (F := F) i) := rfl

def val_main_cst_8 : (⟨S_, .f32⟩ : BufTy).Contents (Elt F) :=
  constant S_ .f32 0x3F800000#32
theorem val_main_cst_8_apply (i : S_.Idx) :
    val_main_cst_8 (F := F) i = FloatOps.ofBits .f32 0x3F800000#32 := rfl

def val_main_v24 : (⟨S512, .f32⟩ : BufTy).Contents (Elt F) :=
  broadcastInDim S512 ![] bcast_S_S512 (val_main_cst_8 (F := F))
abbrev idx_main_v24 (i : S512.Idx) : S_.Idx := fun a => a.elim0
theorem val_main_v24_apply (i : S512.Idx) :
    val_main_v24 (F := F) i = val_main_cst_8 (F := F) (idx_main_v24 i) := by
  unfold val_main_v24
  generalize val_main_cst_8 (F := F) = y
  exact broadcastInDim_apply _ bcast_S_S512 y i (idx_main_v24 i) (fun a => a.elim0)

def val_main_v25 : (⟨S512, .f32⟩ : BufTy).Contents (Elt F) :=
  subf (val_main_v24 (F := F)) (val_main_v23 (F := F) x1)
theorem val_main_v25_apply (i : S512.Idx) :
    val_main_v25 (F := F) x1 i = FloatOps.subf (val_main_v24 (F := F) i) (val_main_v23 (F := F) x1 i) := rfl

def val_main_cst_9 : (⟨S_, .f32⟩ : BufTy).Contents (Elt F) :=
  constant S_ .f32 0x481416C0#32
theorem val_main_cst_9_apply (i : S_.Idx) :
    val_main_cst_9 (F := F) i = FloatOps.ofBits .f32 0x481416C0#32 := rfl

def val_main_v26 : (⟨S512, .f32⟩ : BufTy).Contents (Elt F) :=
  broadcastInDim S512 ![] bcast_S_S512 (val_main_cst_9 (F := F))
abbrev idx_main_v26 (i : S512.Idx) : S_.Idx := fun a => a.elim0
theorem val_main_v26_apply (i : S512.Idx) :
    val_main_v26 (F := F) i = val_main_cst_9 (F := F) (idx_main_v26 i) := by
  unfold val_main_v26
  generalize val_main_cst_9 (F := F) = y
  exact broadcastInDim_apply _ bcast_S_S512 y i (idx_main_v26 i) (fun a => a.elim0)

def val_main_v27 : (⟨S512, .f32⟩ : BufTy).Contents (Elt F) :=
  Host.divf (val_main_v25 (F := F) x1) (val_main_v26 (F := F))
theorem val_main_v27_apply (i : S512.Idx) :
    val_main_v27 (F := F) x1 i = FloatOps.hostDivf (val_main_v25 (F := F) x1 i) (val_main_v26 (F := F) i) := rfl

def val_main_cst_10 : (⟨S_, .f32⟩ : BufTy).Contents (Elt F) :=
  constant S_ .f32 0x481416C0#32
theorem val_main_cst_10_apply (i : S_.Idx) :
    val_main_cst_10 (F := F) i = FloatOps.ofBits .f32 0x481416C0#32 := rfl

def val_main_v28 : (⟨S512, .f32⟩ : BufTy).Contents (Elt F) :=
  broadcastInDim S512 ![] bcast_S_S512 (val_main_cst_10 (F := F))
abbrev idx_main_v28 (i : S512.Idx) : S_.Idx := fun a => a.elim0
theorem val_main_v28_apply (i : S512.Idx) :
    val_main_v28 (F := F) i = val_main_cst_10 (F := F) (idx_main_v28 i) := by
  unfold val_main_v28
  generalize val_main_cst_10 (F := F) = y
  exact broadcastInDim_apply _ bcast_S_S512 y i (idx_main_v28 i) (fun a => a.elim0)

def val_main_v29 : (⟨S512, .f32⟩ : BufTy).Contents (Elt F) :=
  mulf (val_main_v28 (F := F)) (val_main_v27 (F := F) x1)
theorem val_main_v29_apply (i : S512.Idx) :
    val_main_v29 (F := F) x1 i = FloatOps.mulf (val_main_v28 (F := F) i) (val_main_v27 (F := F) x1 i) := rfl

def val_main_v30 : (⟨S512, .f32⟩ : BufTy).Contents (Elt F) :=
  Host.log (val_main_v27 (F := F) x1)
theorem val_main_v30_apply (i : S512.Idx) :
    val_main_v30 (F := F) x1 i = FloatOps.hostUnary .log (val_main_v27 (F := F) x1 i) := rfl

def val_main_v31 : (⟨S512, .f32⟩ : BufTy).Contents (Elt F) :=
  mulf (val_main_v29 (F := F) x1) (val_main_v30 (F := F) x1)
theorem val_main_v31_apply (i : S512.Idx) :
    val_main_v31 (F := F) x1 i = FloatOps.mulf (val_main_v29 (F := F) x1 i) (val_main_v30 (F := F) x1 i) := rfl

def val_main_v32 : (⟨S1x512, .f32⟩ : BufTy).Contents (Elt F) :=
  broadcastInDim S1x512 ![1] bcast_S512_S1x512_1 (val_main_v31 (F := F) x1)
abbrev idx_main_v32 (i : S1x512.Idx) : S512.Idx := fun a => match a with
  | ⟨0, _⟩ => ⟨(i 1).val, (i 1).isLt⟩
theorem val_main_v32_apply (i : S1x512.Idx) :
    val_main_v32 (F := F) x1 i = val_main_v31 (F := F) x1 (idx_main_v32 i) := by
  unfold val_main_v32
  generalize val_main_v31 (F := F) x1 = y
  exact broadcastInDim_apply _ bcast_S512_S1x512_1 y i (idx_main_v32 i) (fun a => match a with
    | ⟨0, _⟩ => by show (i 1).val = if (512 : Nat) = 1 then 0 else (i 1).val; rw [if_neg (by decide)])

def val_main_v33 : (⟨S1x512, .f32⟩ : BufTy).Contents (Elt F) :=
  broadcastInDim S1x512 ![1] bcast_S512_S1x512_1 (val_main_v27 (F := F) x1)
abbrev idx_main_v33 (i : S1x512.Idx) : S512.Idx := fun a => match a with
  | ⟨0, _⟩ => ⟨(i 1).val, (i 1).isLt⟩
theorem val_main_v33_apply (i : S1x512.Idx) :
    val_main_v33 (F := F) x1 i = val_main_v27 (F := F) x1 (idx_main_v33 i) := by
  unfold val_main_v33
  generalize val_main_v27 (F := F) x1 = y
  exact broadcastInDim_apply _ bcast_S512_S1x512_1 y i (idx_main_v33 i) (fun a => match a with
    | ⟨0, _⟩ => by show (i 1).val = if (512 : Nat) = 1 then 0 else (i 1).val; rw [if_neg (by decide)])

def val_main_v34 : (⟨S2x512, .f32⟩ : BufTy).Contents (Elt F) :=
  broadcastInDim S2x512 ![0, 1] bcast_S1x512_S2x512_0_1 (val_main_v33 (F := F) x1)
abbrev idx_main_v34 (i : S2x512.Idx) : S1x512.Idx := fun a => match a with
  | ⟨0, _⟩ => ⟨0, Nat.one_pos⟩
  | ⟨1, _⟩ => ⟨(i 1).val, (i 1).isLt⟩
theorem val_main_v34_apply (i : S2x512.Idx) :
    val_main_v34 (F := F) x1 i = val_main_v33 (F := F) x1 (idx_main_v34 i) := by
  unfold val_main_v34
  generalize val_main_v33 (F := F) x1 = y
  exact broadcastInDim_apply _ bcast_S1x512_S2x512_0_1 y i (idx_main_v34 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])

def val_main_v35 : (⟨S2x512, .f32⟩ : BufTy).Contents (Elt F) :=
  mulf (val_main_v34 (F := F) x1) (val_main_v20 (F := F) x0)
theorem val_main_v35_apply (i : S2x512.Idx) :
    val_main_v35 (F := F) x0 x1 i = FloatOps.mulf (val_main_v34 (F := F) x1 i) (val_main_v20 (F := F) x0 i) := rfl

def val_main_v36 : (⟨S2x512, .f32⟩ : BufTy).Contents (Elt F) :=
  broadcastInDim S2x512 ![0, 1] bcast_S1x512_S2x512_0_1 (val_main_v32 (F := F) x1)
abbrev idx_main_v36 (i : S2x512.Idx) : S1x512.Idx := fun a => match a with
  | ⟨0, _⟩ => ⟨0, Nat.one_pos⟩
  | ⟨1, _⟩ => ⟨(i 1).val, (i 1).isLt⟩
theorem val_main_v36_apply (i : S2x512.Idx) :
    val_main_v36 (F := F) x1 i = val_main_v32 (F := F) x1 (idx_main_v36 i) := by
  unfold val_main_v36
  generalize val_main_v32 (F := F) x1 = y
  exact broadcastInDim_apply _ bcast_S1x512_S2x512_0_1 y i (idx_main_v36 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])

def val_main_v37 : (⟨S2x512, .f32⟩ : BufTy).Contents (Elt F) :=
  subf (val_main_v36 (F := F) x1) (val_main_v35 (F := F) x0 x1)
theorem val_main_v37_apply (i : S2x512.Idx) :
    val_main_v37 (F := F) x0 x1 i = FloatOps.subf (val_main_v36 (F := F) x1 i) (val_main_v35 (F := F) x0 x1 i) := rfl

def val_main_v38 : (⟨S2x512, .f32⟩ : BufTy).Contents (Elt F) :=
  sitofp (F := F) .f32 (x3)
def val_main_v39 : (⟨S2x512, .f32⟩ : BufTy).Contents (Elt F) :=
  mulf (val_main_v37 (F := F) x0 x1) (val_main_v38 (F := F) x3)
def val_main_cst_11 : (⟨S_, .f32⟩ : BufTy).Contents (Elt F) :=
  constant S_ .f32 0x00000000#32
def val_main_v40 : (⟨S_, .f32⟩ : BufTy).Contents (Elt F) :=
  Host.reduceAdd (val_main_v39 (F := F) x0 x1 x3) (val_main_cst_11 (F := F)) reducesTo_S2x512_S_d0_1 h_S_

def val_main_cst_12 : (⟨S_, .f32⟩ : BufTy).Contents (Elt F) :=
  constant S_ .f32 0x00000000#32
def val_main_v41 : (⟨S_, .f32⟩ : BufTy).Contents (Elt F) :=
  Host.reduceAdd (val_main_v38 (F := F) x3) (val_main_cst_12 (F := F)) reducesTo_S2x512_S_d0_1 h_S_

def val_main_cst_13 : (⟨S_, .f32⟩ : BufTy).Contents (Elt F) :=
  constant S_ .f32 0x00000000#32
def val_main_v42 : (⟨S_, .i1⟩ : BufTy).Contents (Elt F) :=
  cmpf (F := F) .ogt (val_main_v41 (F := F) x3) (val_main_cst_13 (F := F))
def val_main_v43 : (⟨S_, .f32⟩ : BufTy).Contents (Elt F) :=
  Host.divf (val_main_v40 (F := F) x0 x1 x3) (val_main_v41 (F := F) x3)
def val_main_v44 : (⟨S_, .f32⟩ : BufTy).Contents (Elt F) :=
  select (val_main_v42 (F := F) x3) (val_main_v43 (F := F) x0 x1 x3) (val_main_v40 (F := F) x0 x1 x3)
def val_main_cst_14 : (⟨S_, .f32⟩ : BufTy).Contents (Elt F) :=
  constant S_ .f32 0x40800000#32
def val_main_v45 : (⟨S_, .f32⟩ : BufTy).Contents (Elt F) :=
  mulf (val_main_v44 (F := F) x0 x1 x3) (val_main_cst_14 (F := F))
def val_main_cst_15 : (⟨S_, .f32⟩ : BufTy).Contents (Elt F) :=
  constant S_ .f32 0x3F800000#32
def val_main_v46 : (⟨S_, .f32⟩ : BufTy).Contents (Elt F) :=
  mulf (val_main_cst_15 (F := F)) (val_main_v16 (F := F) x0 x2)
def val_main_cst_16 : (⟨S_, .f32⟩ : BufTy).Contents (Elt F) :=
  constant S_ .f32 0x3F000000#32
def val_main_v47 : (⟨S_, .f32⟩ : BufTy).Contents (Elt F) :=
  mulf (val_main_cst_16 (F := F)) (val_main_v45 (F := F) x0 x1 x3)
def val_main_v48 (x2 x3 : (⟨S2x512, .i32⟩ : BufTy).Contents (Elt F)) : (⟨S_, .f32⟩ : BufTy).Contents (Elt F) :=
  addf (val_main_v46 (F := F) x0 x2) (val_main_v47 (F := F) x0 x1 x3)
end Cert.ReferenceIdeal.Read

end
-- ==== Proof.Ref.Nll.lean ====
import proofs.«429975_j11527692223274_3_alg».proof.Proof.RefRead
import proofs.«429975_j11527692223274_3_alg».proof.Proof.KI.TailApply
import proofs.«429975_j11527692223274_3_alg».proof.Proof.Math
import Idealize.ShloMosaic.Lib.ValueIdx
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read Idealize.ShloMosaic

theorem idxRow_max (b : Fin 2) (s : Fin 512) (v : Fin 151643) :
    idx_main_call0_v3 (idx_main_call0_v4 (ValueIdx.ix3 b s v)) = ValueIdx.ix2 b s := by
  funext a
  match a with
  | ⟨0, _⟩ => rfl
  | ⟨1, _⟩ => rfl

theorem idxRow_sum (b : Fin 2) (s : Fin 512) (v : Fin 151643) :
    idx_main_call0_v8 (idx_main_call0_v10 (ValueIdx.ix3 b s v)) = ValueIdx.ix2 b s := by
  funext a
  match a with
  | ⟨0, _⟩ => rfl
  | ⟨1, _⟩ => rfl

theorem idxRow_lane (b : Fin 2) (s : Fin 512) (k : Fin 151643) :
    idx_main_call0_v7 (ValueIdx.ix2 b s) k = ValueIdx.ix3 b s k := by
  funext a
  match a with
  | ⟨0, _⟩ => rfl
  | ⟨1, _⟩ => rfl
  | ⟨2, _⟩ => rfl

abbrev rowM (x : FVec Ideal S2x512x151643 .f32) (b : Fin 2) (s : Fin 512) : Ideal .f32 :=
  max (FloatOps.ofBits .f32 0xFF800000#32 : Ideal .f32)
    ((Finset.univ : Finset (Fin 151643)).fold max (FloatOps.ofBits .f32 0xFF800000#32 : Ideal .f32)
      (fun j => x (ValueIdx.ix3 b s j)))

theorem rowFold_apply (x : FVec Ideal S2x512x151643 .f32) (b : Fin 2) (s : Fin 512) :
    val_main_call0_v0 (F := Ideal) x (ValueIdx.ix2 b s)
      = (Finset.univ : Finset (Fin 151643)).fold max (FloatOps.ofBits .f32 0xFF800000#32 : Ideal .f32)
          (fun j => x (ValueIdx.ix3 b s j)) := by
  have h : S2x512x151643.Reduces [2] S2x512 := by decide
  unfold val_main_call0_v0
  rw [Host.reduce_eq_fold_single (FloatOps.maximumf (F := Ideal) (φ := .f32)) x (val_main_call0_cst (F := Ideal))
    reducesTo_S2x512x151643_S2x512_d2 h h_S_ (ValueIdx.ix2 b s)]
  show (Finset.univ : Finset (Fin 151643)).fold max (FloatOps.ofBits .f32 0xFF800000#32 : Ideal .f32)
      (x ∘ h.lift (ValueIdx.ix2 b s)) = _
  refine congrArg (fun f => (Finset.univ : Finset (Fin 151643)).fold max
    (FloatOps.ofBits .f32 0xFF800000#32 : Ideal .f32) f) (funext fun k => ?_)
  refine congrArg x (funext fun a => Fin.ext ?_)
  match a with
  | ⟨0, _⟩ => rfl
  | ⟨1, _⟩ => rfl
  | ⟨2, _⟩ => rfl

theorem rowMax_apply (x : FVec Ideal S2x512x151643 .f32) (b : Fin 2) (s : Fin 512) (v : Fin 151643) :
    val_main_call0_v4 (F := Ideal) x (ValueIdx.ix3 b s v) = rowM x b s := by
  rw [val_main_call0_v4_apply, val_main_call0_v3_apply, idxRow_max, val_main_call0_v2_apply, val_main_call0_v1_apply,
    val_main_call0_cst_0_apply, rowFold_apply]
  try rfl

theorem rowDiff_apply (x : FVec Ideal S2x512x151643 .f32) (b : Fin 2) (s : Fin 512) (v : Fin 151643) :
    val_main_call0_v5 (F := Ideal) x (ValueIdx.ix3 b s v) = x (ValueIdx.ix3 b s v) - rowM x b s := by
  rw [val_main_call0_v5_apply, rowMax_apply]
  try rfl

theorem rowSum_apply (x : FVec Ideal S2x512x151643 .f32) (b : Fin 2) (s : Fin 512) :
    val_main_call0_v7 (F := Ideal) x (ValueIdx.ix2 b s)
      = (FloatOps.ofBits .f32 0x00000000#32 : Ideal .f32)
        + ∑ j : Fin 151643, Ideal.exp (x (ValueIdx.ix3 b s j) - rowM x b s) := by
  rw [val_main_call0_v7_apply, val_main_call0_cst_1_apply]
  refine congrArg (_ + ·) (Finset.sum_congr rfl fun k _ => ?_)
  rw [idxRow_lane, val_main_call0_v6_apply, rowDiff_apply, Ideal.hostUnary_exp_def]

theorem rowLog_apply (x : FVec Ideal S2x512x151643 .f32) (b : Fin 2) (s : Fin 512) (v : Fin 151643) :
    val_main_call0_v10 (F := Ideal) x (ValueIdx.ix3 b s v)
      = Ideal.log ((FloatOps.ofBits .f32 0x00000000#32 : Ideal .f32)
          + ∑ j : Fin 151643, Ideal.exp (x (ValueIdx.ix3 b s j) - rowM x b s)) := by
  rw [val_main_call0_v10_apply, val_main_call0_v9_apply, val_main_call0_v8_apply, idxRow_sum, rowSum_apply,
    Ideal.hostUnary_log_def]

theorem logSoftmax_apply (x : FVec Ideal S2x512x151643 .f32) (b : Fin 2) (s : Fin 512) (v : Fin 151643) :
    val_main_v0 (F := Ideal) x (ValueIdx.ix3 b s v)
      = (x (ValueIdx.ix3 b s v) - rowM x b s)
        - Ideal.log ((FloatOps.ofBits .f32 0x00000000#32 : Ideal .f32)
            + ∑ j : Fin 151643, Ideal.exp (x (ValueIdx.ix3 b s j) - rowM x b s)) := by
  rw [val_main_v0_apply, rowDiff_apply, rowLog_apply]
  try rfl

theorem nllR_apply (x : FVec Ideal S2x512x151643 .f32) (l : IVec S2x512 32) (b : Fin 2) (s : Fin 512) :
    val_main_v7 (F := Ideal) x l (ValueIdx.ix2 b s)
      = -(if (Cert.KernelIdeal.Tl.safeL l b s).sle 151642#32
          then (x (ValueIdx.ix3 b s (Cert.KernelIdeal.Tl.vocab l b s)) - rowM x b s)
            - Ideal.log ((FloatOps.ofBits .f32 0x00000000#32 : Ideal .f32)
                + ∑ j : Fin 151643, Ideal.exp (x (ValueIdx.ix3 b s j) - rowM x b s))
          else (FloatOps.ofBits .f32 0x7FC00000#32 : Ideal .f32)) := by

  have h6 : val_main_v6 (F := Ideal) x l (ValueIdx.ix2 b s)
      = val_main_v5 (F := Ideal) x l (ValueIdx.ix3 b s (0 : Fin 1)) :=
    Cert.KernelIdeal.Tl.shapeCast_drop_apply (val_main_v5 (F := Ideal) x l) shapeCasts_S2x512x1_S2x512 b s

  have h5 : val_main_v5 (F := Ideal) x l (ValueIdx.ix3 b s (0 : Fin 1))
      = if (Cert.KernelIdeal.Tl.safeL l b s).sle 151642#32
        then val_main_v0 (F := Ideal) x (ValueIdx.ix3 b s (Cert.KernelIdeal.Tl.vocab l b s))
        else (FloatOps.ofBits .f32 0x7FC00000#32 : Ideal .f32) :=
    Cert.KernelIdeal.Tl.takeAlong_apply (F := Ideal) (val_main_v0 (F := Ideal) x) l b s
  rw [val_main_v7_apply, h6, h5, logSoftmax_apply]
  try rfl

theorem nllR_apply_bot (x : FVec Ideal S2x512x151643 .f32) (l : IVec S2x512 32) (b : Fin 2) (s : Fin 512) :
    val_main_v7 (F := Ideal) x l (ValueIdx.ix2 b s)
      = -(if (Cert.KernelIdeal.Tl.safeL l b s).sle 151642#32
          then (x (ValueIdx.ix3 b s (Cert.KernelIdeal.Tl.vocab l b s))
                - max ⊥ ((Finset.univ : Finset (Fin 151643)).fold max ⊥ (fun j => x (ValueIdx.ix3 b s j))))
            - Ideal.log (0 + ∑ j : Fin 151643, Ideal.exp (x (ValueIdx.ix3 b s j)
                - max ⊥ ((Finset.univ : Finset (Fin 151643)).fold max ⊥ (fun j => x (ValueIdx.ix3 b s j)))))
          else (FloatOps.ofBits .f32 0x7FC00000#32 : Ideal .f32)) := by
  have e1 : (FloatOps.ofBits .f32 0xFF800000#32 : Ideal .f32) = (⊥ : EReal) := Cert.Mth.ofBits_negInf
  have e0 : (FloatOps.ofBits .f32 0x00000000#32 : Ideal .f32) = (0 : EReal) := Cert.Mth.ofBits_zero
  rw [nllR_apply]
  simp only [rowM, e1, e0]

end Cert.ReferenceIdeal.RefValue

end
-- ==== Proof.Ref.Kl.lean ====
import proofs.«429975_j11527692223274_3_alg».proof.Proof.Ref.Nll
import proofs.«429975_j11527692223274_3_alg».proof.Proof.KI.PayIdx
import Idealize.ShloMosaic.Lib.ValueIdx
import Idealize.ShloMosaic.PureOps.Reduce
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx

local notation "pS" => Cert.KernelIdeal.Pay.pSmooth
local notation "Vw" => Cert.KernelIdeal.Pay.vsz

def yR (x : FVec Ideal S2x512x151643 .f32) (b : Fin 2) (s : Fin 512) (j : Fin 151643) : EReal :=
  Ideal.div (x (ix3 b s j)) (Ideal.ofBits .f32 0x40000000#32)

def m2R (x : FVec Ideal S2x512x151643 .f32) (b : Fin 2) (s : Fin 512) : EReal :=
  max (Ideal.ofBits .f32 0xFF800000#32)
    ((Finset.univ : Finset (Fin 151643)).fold max (Ideal.ofBits .f32 0xFF800000#32) (fun j => yR x b s j))

def slpR (x : FVec Ideal S2x512x151643 .f32) (b : Fin 2) (s : Fin 512) : EReal :=
  Ideal.ofBits .f32 0x00000000#32 + ∑ j : Fin 151643,
    ((yR x b s j - m2R x b s)
      - Ideal.log (Ideal.ofBits .f32 0x00000000#32 + ∑ k : Fin 151643, Ideal.exp (yR x b s k - m2R x b s)))

section Row

variable (x : FVec Ideal S2x512x151643 .f32) (b : Fin 2) (s : Fin 512)

theorem v18_at (j : Fin 151643) : val_main_v18 (F := Ideal) x (ix3 b s j) = yR x b s j := by
  rw [val_main_v18_apply, val_main_v17_apply, val_main_cst_5_apply]
  rfl

/-- The second log-softmax is the first one's, of the halved logits. -/
theorem v19_at (j : Fin 151643) :
    val_main_v19 (F := Ideal) x (ix3 b s j)
      = (yR x b s j - m2R x b s)
        - Ideal.log (Ideal.ofBits .f32 0x00000000#32 + ∑ k : Fin 151643, Ideal.exp (yR x b s k - m2R x b s)) := by
  unfold val_main_v19
  rw [logSoftmax_apply]
  simp only [rowM, v18_at]
  rfl

theorem idx_v20 (k : Fin 151643) : idx_main_v20 (ix2 b s) k = ix3 b s k := by
  funext a
  match a with
  | ⟨0, _⟩ => rfl
  | ⟨1, _⟩ => rfl
  | ⟨2, _⟩ => rfl

theorem v20_at : val_main_v20 (F := Ideal) x (ix2 b s) = slpR x b s := by
  rw [val_main_v20_apply, val_main_cst_6_apply]
  unfold slpR
  refine congrArg (fun t => Ideal.ofBits .f32 0x00000000#32 + t) (Finset.sum_congr rfl fun k _ => ?_)
  rw [idx_v20, v19_at]

end Row

section Mass

variable (tlp : FVec Ideal S512 .f32) (b : Fin 2) (s : Fin 512)

theorem v27_at : val_main_v27 (F := Ideal) tlp (ix1 s) = pS (tlp (ix1 s)) := by
  rw [val_main_v27_apply, val_main_v25_apply, val_main_v24_apply, val_main_cst_8_apply, val_main_v23_apply,
    val_main_v21_apply, val_main_v22_apply, val_main_cst_7_apply, val_main_v26_apply, val_main_cst_9_apply]
  rfl

theorem v31_at :
    val_main_v31 (F := Ideal) tlp (ix1 s) = (Vw * pS (tlp (ix1 s))) * Ideal.log (pS (tlp (ix1 s))) := by
  rw [val_main_v31_apply, val_main_v29_apply, val_main_v28_apply, val_main_cst_10_apply, val_main_v30_apply, v27_at]
  rfl

theorem idx_v32_v36 : idx_main_v32 (idx_main_v36 (ix2 b s)) = ix1 s := by
  funext a
  match a with
  | ⟨0, _⟩ => rfl

theorem idx_v33_v34 : idx_main_v33 (idx_main_v34 (ix2 b s)) = ix1 s := by
  funext a
  match a with
  | ⟨0, _⟩ => rfl

theorem v36_at :
    val_main_v36 (F := Ideal) tlp (ix2 b s) = (Vw * pS (tlp (ix1 s))) * Ideal.log (pS (tlp (ix1 s))) := by
  rw [val_main_v36_apply, val_main_v32_apply, idx_v32_v36, v31_at]

theorem v34_at : val_main_v34 (F := Ideal) tlp (ix2 b s) = pS (tlp (ix1 s)) := by
  rw [val_main_v34_apply, val_main_v33_apply, idx_v33_v34, v27_at]

end Mass

theorem klR_apply (x : FVec Ideal S2x512x151643 .f32) (tlp : FVec Ideal S512 .f32) (b : Fin 2) (s : Fin 512) :
    val_main_v37 (F := Ideal) x tlp (ix2 b s)
      = (Vw * pS (tlp (ix1 s))) * Ideal.log (pS (tlp (ix1 s))) - pS (tlp (ix1 s)) * slpR x b s := by
  rw [val_main_v37_apply, val_main_v35_apply, v36_at, v34_at, v20_at]
  rfl

end Cert.ReferenceIdeal.RefValue

end
-- ==== Proof.Ref.Total.lean ====
import proofs.«429975_j11527692223274_3_alg».proof.Proof.RefRead
import proofs.«429975_j11527692223274_3_alg».proof.Proof.KI.Tail

noncomputable section

namespace Cert.ReferenceIdeal.RefValue

open Cert.ReferenceIdeal Cert.ReferenceIdeal.Gen Cert.ReferenceIdeal.Read Idealize.ShloMosaic

theorem total_eqG {F : FTy → Type} [FloatOps F] (x : FVec F S2x512x151643 .f32) (tlp : FVec F S512 .f32)
    (l mk : IVec S2x512 32) :
    val_main_v48 (F := F) x tlp l mk
      = Cert.KernelIdeal.Tl.totalG (val_main_v7 (F := F) x l) (val_main_v37 (F := F) x tlp) l mk := by
  simp only [val_main_v48, val_main_v46, val_main_v47, val_main_v45, val_main_v44, val_main_v43, val_main_v42, val_main_v41, val_main_v40, val_main_v39, val_main_v38, val_main_v16, val_main_v15, val_main_v14, val_main_call3_v0, val_main_v13, val_main_v12, val_main_v11, val_main_v10, val_main_v9, val_main_v8, val_main_c_1, val_main_c_2, val_main_c_3, val_main_cst, val_main_cst_4, val_main_cst_11, val_main_cst_12, val_main_cst_13, val_main_cst_14, val_main_cst_15, val_main_cst_16]
  generalize val_main_v7 (F := F) x l = nll
  generalize val_main_v37 (F := F) x tlp = kl
  rfl

theorem total_eq (x : FVec Ideal S2x512x151643 .f32) (tlp : FVec Ideal S512 .f32) (l mk : IVec S2x512 32) :
    val_main_v48 (F := Ideal) x tlp l mk
      = Cert.KernelIdeal.Tl.total (val_main_v7 (F := Ideal) x l) (val_main_v37 (F := Ideal) x tlp) l mk :=
  total_eqG (F := Ideal) x tlp l mk

end Cert.ReferenceIdeal.RefValue

end
-- ==== Proof.Join.lean ====
import proofs.«429975_j11527692223274_3_alg».proof.Proof.KI.Value
import proofs.«429975_j11527692223274_3_alg».proof.Proof.Ref.Nll
import proofs.«429975_j11527692223274_3_alg».proof.Proof.Ref.Kl
import proofs.«429975_j11527692223274_3_alg».proof.Proof.Ref.Total
import proofs.«429975_j11527692223274_3_alg».proof.Proof.Math

set_option maxRecDepth 16384

noncomputable section

namespace Cert.Join

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (c : Dev nD)

theorem nll_eq (hfin : ∀ i, ∃ q : ℝ, Val.xarr m c i = ((q : ℝ) : EReal)) :
    Tl.nllK (Val.lse3 m c) (m ((c : Thread nD τ).loc main_arg0)) (m ((c : Thread nD τ).loc main_arg2))
      = Cert.ReferenceIdeal.Read.val_main_v7 (F := Ideal) (m ((c : Thread nD τ).loc main_arg0)) (m ((c : Thread nD τ).loc main_arg2)) := by
  funext i
  obtain ⟨b, s, rfl⟩ : ∃ (b : Fin 2) (s : Fin 512), i = ix2 b s := ⟨i 0, i 1, eq_ix2 i⟩
  rw [Val.nllK_canon m c hfin b s]
  refine Eq.trans ?_ (Cert.ReferenceIdeal.RefValue.nllR_apply_bot (m ((c : Thread nD τ).loc main_arg0)) (m ((c : Thread nD τ).loc main_arg2)) b s).symm
  simp only [Val.x_at m c hfin b s]
  split_ifs with h
  · exact Cert.Mth.nll_in_maxbot (Val.xrow m c b s) _
  · rw [show (FloatOps.ofBits .f32 0x7FC00000#32 : Ideal .f32) = (⊥ : EReal) from Cert.Mth.ofBits_nan]
    exact Cert.Mth.nll_out_V (Val.xrow m c b s)

theorem kl_eq (hfin : ∀ i, ∃ q : ℝ, Val.xarr m c i = ((q : ℝ) : EReal)) :
    Tl.klK (Val.kl3 m c)
      = Cert.ReferenceIdeal.Read.val_main_v37 (F := Ideal) (m ((c : Thread nD τ).loc main_arg0)) (m ((c : Thread nD τ).loc main_arg1)) := by
  funext i
  obtain ⟨b, s, rfl⟩ : ∃ (b : Fin 2) (s : Fin 512), i = ix2 b s := ⟨i 0, i 1, eq_ix2 i⟩
  rw [Val.klK_canon m c hfin b s]
  refine Eq.trans ?_ (Cert.ReferenceIdeal.RefValue.klR_apply (m ((c : Thread nD τ).loc main_arg0)) (m ((c : Thread nD τ).loc main_arg1)) b s).symm
  have hs : ((Cert.Mth.sx (Val.xrow m c b s) 151643 : ℝ) : EReal) * Pay.hlf
        - Pay.vsz * (Cert.Mth.pm (Val.xrow m c b s) 151643 * Pay.hlf + Ideal.log ((Cert.Mth.sT (Val.xrow m c b s) 151643 : ℝ) : EReal))
      = Cert.ReferenceIdeal.RefValue.slpR (m ((c : Thread nD τ).loc main_arg0)) b s := by
    unfold Cert.ReferenceIdeal.RefValue.slpR Cert.ReferenceIdeal.RefValue.m2R Cert.ReferenceIdeal.RefValue.yR
    simp only [Val.x_at m c hfin b s]
    rw [Val.hlf_eq, show Pay.vsz = ((151643 : ℝ) : EReal) from Cert.Mth.ofBits_V, Cert.Mth.ofBits_zero, Cert.Mth.ofBits_two, Cert.Mth.ofBits_negInf]
    exact Cert.Mth.kl_sum_maxbot (Val.xrow m c b s)
  unfold Pay.klVal
  rw [hs]

end Cert.Join

end
-- ==== Proof.Ref.Run1.lean ====
import proofs.«429975_j11527692223274_3_alg».proof.Proof.RefRead
import Idealize.ShloMosaic.Lib.StableHlo.Run

set_option Elab.async false

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

def ops1 : List (HloOp τ sig (Elt F)) :=
  [ TRef.nullary (TRef.of (T := ⟨S_, .f32⟩) main_call0_cst) (constant S_ .f32 0xFF800000#32),
    TRef.binary (TRef.of (T := ⟨S2x512x151643, .f32⟩) main_arg0) (TRef.of (T := ⟨S_, .f32⟩) main_call0_cst) (TRef.of (T := ⟨S2x512, .f32⟩) main_call0_v0) (fun x v => Host.reduce FloatOps.maximumf x v reducesTo_S2x512x151643_S2x512_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S2x512, .f32⟩) main_call0_v1) (broadcastInDim S2x512 ![] bcast_S_S2x512),
    TRef.binary (TRef.of (T := ⟨S2x512, .f32⟩) main_call0_v1) (TRef.of (T := ⟨S2x512, .f32⟩) main_call0_v0) (TRef.of (T := ⟨S2x512, .f32⟩) main_call0_v2) maximumf,
    TRef.unary (TRef.of (T := ⟨S2x512, .f32⟩) main_call0_v2) (TRef.of (T := ⟨S2x512x1, .f32⟩) main_call0_v3) (broadcastInDim S2x512x1 ![0, 1] bcast_S2x512_S2x512x1_0_1),
    TRef.unary (TRef.of (T := ⟨S2x512x1, .f32⟩) main_call0_v3) (TRef.of (T := ⟨S2x512x151643, .f32⟩) main_call0_v4) (broadcastInDim S2x512x151643 ![0, 1, 2] bcast_S2x512x1_S2x512x151643_0_1_2),
    TRef.binary (TRef.of (T := ⟨S2x512x151643, .f32⟩) main_arg0) (TRef.of (T := ⟨S2x512x151643, .f32⟩) main_call0_v4) (TRef.of (T := ⟨S2x512x151643, .f32⟩) main_call0_v5) subf,
    TRef.unary (TRef.of (T := ⟨S2x512x151643, .f32⟩) main_call0_v5) (TRef.of (T := ⟨S2x512x151643, .f32⟩) main_call0_v6) Host.exp,
    TRef.nullary (TRef.of (T := ⟨S_, .f32⟩) main_call0_cst_1) (constant S_ .f32 0x00000000#32),
    TRef.binary (TRef.of (T := ⟨S2x512x151643, .f32⟩) main_call0_v6) (TRef.of (T := ⟨S_, .f32⟩) main_call0_cst_1) (TRef.of (T := ⟨S2x512, .f32⟩) main_call0_v7) (fun x v => Host.reduceAdd x v reducesTo_S2x512x151643_S2x512_d2 h_S_),
    TRef.unary (TRef.of (T := ⟨S2x512, .f32⟩) main_call0_v7) (TRef.of (T := ⟨S2x512x1, .f32⟩) main_call0_v8) (broadcastInDim S2x512x1 ![0, 1] bcast_S2x512_S2x512x1_0_1),
    TRef.unary (TRef.of (T := ⟨S2x512x1, .f32⟩) main_call0_v8) (TRef.of (T := ⟨S2x512x1, .f32⟩) main_call0_v9) Host.log,
    TRef.unary (TRef.of (T := ⟨S2x512x1, .f32⟩) main_call0_v9) (TRef.of (T := ⟨S2x512x151643, .f32⟩) main_call0_v10) (broadcastInDim S2x512x151643 ![0, 1, 2] bcast_S2x512x1_S2x512x151643_0_1_2),
    TRef.binary (TRef.of (T := ⟨S2x512x151643, .f32⟩) main_call0_v5) (TRef.of (T := ⟨S2x512x151643, .f32⟩) main_call0_v10) (TRef.of (T := ⟨S2x512x151643, .f32⟩) main_v0) subf ]

theorem ops1_sub : (ops1 : List (HloOp τ sig (Elt F))).Forall fun op => op.bufs ⊆ tcRefs τ sig := by
  unfold ops1
  exact ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem ops1_fresh : ∀ op ∈ (ops1 : List (HloOp τ sig (Elt F))), op.fresh = ∅ := by
  intro _ h; unfold ops1 at h
  (repeat (cases h with | head => rfl | tail _ h => ?_)); exact nomatch h

theorem keep1_arg0 (V : Valuation τ sig (Elt F)) : after ops1 V (Proc.devRef .tc main_arg0) = V (Proc.devRef .tc main_arg0) := by
  simp only [ops1]; after_results_simp
theorem keep1_arg1 (V : Valuation τ sig (Elt F)) : after ops1 V (Proc.devRef .tc main_arg1) = V (Proc.devRef .tc main_arg1) := by
  simp only [ops1]; after_results_simp
theorem keep1_arg2 (V : Valuation τ sig (Elt F)) : after ops1 V (Proc.devRef .tc main_arg2) = V (Proc.devRef .tc main_arg2) := by
  simp only [ops1]; after_results_simp
theorem keep1_arg3 (V : Valuation τ sig (Elt F)) : after ops1 V (Proc.devRef .tc main_arg3) = V (Proc.devRef .tc main_arg3) := by
  simp only [ops1]; after_results_simp

set_option maxRecDepth 8192 in
set_option maxHeartbeats 4000000 in
theorem s1_v0 (V : Valuation τ sig (Elt F)) (x0 : FVec F S2x512x151643 .f32)
    (h0 : V (Proc.devRef .tc main_arg0) = x0) :
    after ops1 V (Proc.devRef .tc main_v0) = val_main_v0 (F := F) x0 := by
  simp only [ops1]
  after_results_simp
  simp only [TRef.ofBuf, TRef.toBuf, cast_cast_self]
  rw [h0]
  rfl

end Cert.ReferenceIdeal.RefValue

end
-- ==== Proof.Ref.Run2.lean ====
import proofs.«429975_j11527692223274_3_alg».proof.Proof.RefRead
import Idealize.ShloMosaic.Lib.StableHlo.Run

set_option Elab.async false

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

def ops2 : List (HloOp τ sig (Elt F)) :=
  [ nullary main_c (constantI S_ 32 0#32),
    unary main_c main_v1 (broadcastInDim S2x512 ![] bcast_S_S2x512 : (⟨S_, .i32⟩ : BufTy).Contents (Elt F) → (⟨S2x512, .i32⟩ : BufTy).Contents (Elt F)),
    binary main_arg2 main_v1 main_v2 (cmpi .slt : (⟨S2x512, .i32⟩ : BufTy).Contents (Elt F) → (⟨S2x512, .i32⟩ : BufTy).Contents (Elt F) → (⟨S2x512, .i1⟩ : BufTy).Contents (Elt F)),
    nullary main_c_0 (constantI S_ 32 0#32),
    TRef.unary (TRef.of (T := ⟨S_, .i32⟩) main_c_0) (TRef.of (T := ⟨S_, .i32⟩) main_call1_v0) id,
    TRef.unary (TRef.of (T := ⟨S_, .i32⟩) main_call1_v0) (TRef.of (T := ⟨S2x512, .i32⟩) main_call1_v1) (broadcastInDim S2x512 ![] bcast_S_S2x512),
    TRef.ternary (TRef.of (T := ⟨S2x512, .i1⟩) main_v2) (TRef.of (T := ⟨S2x512, .i32⟩) main_call1_v1) (TRef.of (T := ⟨S2x512, .i32⟩) main_arg2) (TRef.of (T := ⟨S2x512, .i32⟩) main_v3) select,
    unary main_v3 main_v4 (broadcastInDim S2x512x1 ![0, 1] bcast_S2x512_S2x512x1_0_1 : (⟨S2x512, .i32⟩ : BufTy).Contents (Elt F) → (⟨S2x512x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S2x512x1, .i32⟩) main_call2_v0) (broadcastInDim S2x512x1 ![] bcast_S_S2x512x1),
    TRef.binary (TRef.of (T := ⟨S2x512x1, .i32⟩) main_v4) (TRef.of (T := ⟨S2x512x1, .i32⟩) main_call2_v0) (TRef.of (T := ⟨S2x512x1, .i1⟩) main_call2_v1) (cmpi .slt),
    TRef.nullary (TRef.of (T := ⟨S_, .i32⟩) main_call2_c_0) (constantI S_ 32 151643#32),
    TRef.unary (TRef.of (T := ⟨S_, .i32⟩) main_call2_c_0) (TRef.of (T := ⟨S2x512x1, .i32⟩) main_call2_v2) (broadcastInDim S2x512x1 ![] bcast_S_S2x512x1),
    TRef.binary (TRef.of (T := ⟨S2x512x1, .i32⟩) main_v4) (TRef.of (T := ⟨S2x512x1, .i32⟩) main_call2_v2) (TRef.of (T := ⟨S2x512x1, .i32⟩) main_call2_v3) addi,
    TRef.ternary (TRef.of (T := ⟨S2x512x1, .i1⟩) main_call2_v1) (TRef.of (T := ⟨S2x512x1, .i32⟩) main_call2_v3) (TRef.of (T := ⟨S2x512x1, .i32⟩) main_v4) (TRef.of (T := ⟨S2x512x1, .i32⟩) main_call2_v4) select,
    TRef.reshape (TRef.of (T := ⟨S2x512x1, .i32⟩) main_call2_v4) (TRef.of (T := ⟨S2x512x1x1, .i32⟩) main_call2_v5) rfl shapeCasts_S2x512x1_S2x512x1x1,
    TRef.nullary (TRef.of (T := ⟨S1, .i32⟩) main_call2_c_1) (constantI S1 32 151642#32),
    TRef.nullary (TRef.of (T := ⟨S_, .i32⟩) main_call2_c_2) (constantI S_ 32 0#32),
    TRef.unary (TRef.of (T := ⟨S_, .i32⟩) main_call2_c_2) (TRef.of (T := ⟨S2x512x1x1, .i32⟩) main_call2_v6) (broadcastInDim S2x512x1x1 ![] bcast_S_S2x512x1x1),
    TRef.binary (TRef.of (T := ⟨S2x512x1x1, .i32⟩) main_call2_v5) (TRef.of (T := ⟨S2x512x1x1, .i32⟩) main_call2_v6) (TRef.of (T := ⟨S2x512x1x1, .i1⟩) main_call2_v7) (cmpi .sge),
    TRef.unary (TRef.of (T := ⟨S1, .i32⟩) main_call2_c_1) (TRef.of (T := ⟨S1x1x1x1, .i32⟩) main_call2_v8) (broadcastInDim S1x1x1x1 ![3] bcast_S1_S1x1x1x1_3),
    TRef.unary (TRef.of (T := ⟨S1x1x1x1, .i32⟩) main_call2_v8) (TRef.of (T := ⟨S2x512x1x1, .i32⟩) main_call2_v9) (broadcastInDim S2x512x1x1 ![0, 1, 2, 3] bcast_S1x1x1x1_S2x512x1x1_0_1_2_3),
    TRef.binary (TRef.of (T := ⟨S2x512x1x1, .i32⟩) main_call2_v5) (TRef.of (T := ⟨S2x512x1x1, .i32⟩) main_call2_v9) (TRef.of (T := ⟨S2x512x1x1, .i1⟩) main_call2_v10) (cmpi .sle),
    TRef.binary (TRef.of (T := ⟨S2x512x1x1, .i1⟩) main_call2_v7) (TRef.of (T := ⟨S2x512x1x1, .i1⟩) main_call2_v10) (TRef.of (T := ⟨S2x512x1x1, .i1⟩) main_call2_v11) andi,
    TRef.nullary (TRef.of (T := ⟨S_, .i1⟩) main_call2_c_3) (constantI S_ 1 1#1),
    TRef.binary (TRef.of (T := ⟨S2x512x1x1, .i1⟩) main_call2_v11) (TRef.of (T := ⟨S_, .i1⟩) main_call2_c_3) (TRef.of (T := ⟨S2x512x1, .i1⟩) main_call2_v12) (fun x v => Host.reduce IntOp.andi x v reducesTo_S2x512x1x1_S2x512x1_d3 h_S_),
    TRef.binary (TRef.of (T := ⟨S2x512x151643, .f32⟩) main_v0) (TRef.of (T := ⟨S2x512x1x1, .i32⟩) main_call2_v5) (TRef.of (T := ⟨S2x512x1, .f32⟩) main_call2_v13) (fun x i => Host.gather gather_S2x512x151643_S2x512x1x1_S2x512x1_n_2_01_01_2_3_111 x i),
    TRef.nullary (TRef.of (T := ⟨S_, .f32⟩) main_call2_cst) (constant S_ .f32 0x7FC00000#32),
    TRef.unary (TRef.of (T := ⟨S_, .f32⟩) main_call2_cst) (TRef.of (T := ⟨S2x512x1, .f32⟩) main_call2_v14) (broadcastInDim S2x512x1 ![] bcast_S_S2x512x1),
    TRef.ternary (TRef.of (T := ⟨S2x512x1, .i1⟩) main_call2_v12) (TRef.of (T := ⟨S2x512x1, .f32⟩) main_call2_v13) (TRef.of (T := ⟨S2x512x1, .f32⟩) main_call2_v14) (TRef.of (T := ⟨S2x512x1, .f32⟩) main_v5) select,
    reshape main_v5 main_v6 rfl shapeCasts_S2x512x1_S2x512,
    unary main_v6 main_v7 (Host.negf : (⟨S2x512, .f32⟩ : BufTy).Contents (Elt F) → (⟨S2x512, .f32⟩ : BufTy).Contents (Elt F)) ]

theorem ops2_sub : (ops2 : List (HloOp τ sig (Elt F))).Forall fun op => op.bufs ⊆ tcRefs τ sig := by
  unfold ops2
  exact ⟨nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub ..⟩

theorem ops2_fresh : ∀ op ∈ (ops2 : List (HloOp τ sig (Elt F))), op.fresh = ∅ := by
  intro _ h; unfold ops2 at h
  (repeat (cases h with | head => rfl | tail _ h => ?_)); exact nomatch h

theorem keep2_arg0 (V : Valuation τ sig (Elt F)) : after ops2 V (Proc.devRef .tc main_arg0) = V (Proc.devRef .tc main_arg0) := by
  simp only [ops2]; after_results_simp
theorem keep2_arg1 (V : Valuation τ sig (Elt F)) : after ops2 V (Proc.devRef .tc main_arg1) = V (Proc.devRef .tc main_arg1) := by
  simp only [ops2]; after_results_simp
theorem keep2_arg2 (V : Valuation τ sig (Elt F)) : after ops2 V (Proc.devRef .tc main_arg2) = V (Proc.devRef .tc main_arg2) := by
  simp only [ops2]; after_results_simp
theorem keep2_arg3 (V : Valuation τ sig (Elt F)) : after ops2 V (Proc.devRef .tc main_arg3) = V (Proc.devRef .tc main_arg3) := by
  simp only [ops2]; after_results_simp

set_option maxRecDepth 8192 in
set_option maxHeartbeats 4000000 in
theorem s2_v7 (V : Valuation τ sig (Elt F)) (x0 : FVec F S2x512x151643 .f32) (x2 : IVec S2x512 32)
    (hv0 : V (Proc.devRef .tc main_v0) = val_main_v0 (F := F) x0) (h2 : V (Proc.devRef .tc main_arg2) = x2) :
    after ops2 V (Proc.devRef .tc main_v7) = val_main_v7 (F := F) x0 x2 := by
  simp only [ops2]
  after_results_simp
  simp only [TRef.ofBuf, TRef.toBuf, cast_cast_self]
  rw [hv0, h2]
  rfl

end Cert.ReferenceIdeal.RefValue

end
-- ==== Proof.Ref.Run3.lean ====
import proofs.«429975_j11527692223274_3_alg».proof.Proof.RefRead
import Idealize.ShloMosaic.Lib.StableHlo.Run

set_option Elab.async false

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

def ops3 : List (HloOp τ sig (Elt F)) :=
  [ nullary main_c_1 (constantI S_ 32 4294967196#32),
    unary main_c_1 main_v8 (broadcastInDim S2x512 ![] bcast_S_S2x512 : (⟨S_, .i32⟩ : BufTy).Contents (Elt F) → (⟨S2x512, .i32⟩ : BufTy).Contents (Elt F)),
    binary main_arg2 main_v8 main_v9 (cmpi .ne : (⟨S2x512, .i32⟩ : BufTy).Contents (Elt F) → (⟨S2x512, .i32⟩ : BufTy).Contents (Elt F) → (⟨S2x512, .i1⟩ : BufTy).Contents (Elt F)),
    unary main_v9 main_v10 ((extui 32 · natLt_1_32) : (⟨S2x512, .i1⟩ : BufTy).Contents (Elt F) → (⟨S2x512, .i32⟩ : BufTy).Contents (Elt F)),
    nullary main_c_2 (constantI S_ 32 0#32),
    binary main_v10 main_c_2 main_v11 ((fun x v => Host.reduce IntOp.addi x v reducesTo_S2x512_S_d0_1 h_S_) : (⟨S2x512, .i32⟩ : BufTy).Contents (Elt F) → (⟨S_, .i32⟩ : BufTy).Contents (Elt F) → (⟨S_, .i32⟩ : BufTy).Contents (Elt F)),
    nullary main_c_3 (constantI S_ 32 1#32),
    binary main_v11 main_c_3 main_v12 (maxsi : (⟨S_, .i32⟩ : BufTy).Contents (Elt F) → (⟨S_, .i32⟩ : BufTy).Contents (Elt F) → (⟨S_, .i32⟩ : BufTy).Contents (Elt F)),
    unary main_v12 main_v13 (sitofp (F := F) .f32 : (⟨S_, .i32⟩ : BufTy).Contents (Elt F) → (⟨S_, .f32⟩ : BufTy).Contents (Elt F)),
    nullary main_cst (constant S_ .f32 0x00000000#32),
    TRef.unary (TRef.of (T := ⟨S_, .f32⟩) main_cst) (TRef.of (T := ⟨S2x512, .f32⟩) main_call3_v0) (broadcastInDim S2x512 ![] bcast_S_S2x512),
    TRef.ternary (TRef.of (T := ⟨S2x512, .i1⟩) main_v9) (TRef.of (T := ⟨S2x512, .f32⟩) main_v7) (TRef.of (T := ⟨S2x512, .f32⟩) main_call3_v0) (TRef.of (T := ⟨S2x512, .f32⟩) main_v14) select,
    nullary main_cst_4 (constant S_ .f32 0x00000000#32),
    binary main_v14 main_cst_4 main_v15 ((fun x v => Host.reduceAdd x v reducesTo_S2x512_S_d0_1 h_S_) : (⟨S2x512, .f32⟩ : BufTy).Contents (Elt F) → (⟨S_, .f32⟩ : BufTy).Contents (Elt F) → (⟨S_, .f32⟩ : BufTy).Contents (Elt F)),
    binary main_v15 main_v13 main_v16 (Host.divf : (⟨S_, .f32⟩ : BufTy).Contents (Elt F) → (⟨S_, .f32⟩ : BufTy).Contents (Elt F) → (⟨S_, .f32⟩ : BufTy).Contents (Elt F)) ]

theorem ops3_sub : (ops3 : List (HloOp τ sig (Elt F))).Forall fun op => op.bufs ⊆ tcRefs τ sig := by
  unfold ops3
  exact ⟨nullary_bufs_sub .., unary_bufs_sub .., binary_bufs_sub .., unary_bufs_sub .., nullary_bufs_sub .., binary_bufs_sub .., nullary_bufs_sub .., binary_bufs_sub .., unary_bufs_sub .., nullary_bufs_sub .., unary_bufs_sub .., ternary_bufs_sub .., nullary_bufs_sub .., binary_bufs_sub .., binary_bufs_sub ..⟩

theorem ops3_fresh : ∀ op ∈ (ops3 : List (HloOp τ sig (Elt F))), op.fresh = ∅ := by
  intro _ h; unfold ops3 at h
  (repeat (cases h with | head => rfl | tail _ h => ?_)); exact nomatch h

theorem keep3_arg0 (V : Valuation τ sig (Elt F)) : after ops3 V (Proc.devRef .tc main_arg0) = V (Proc.devRef .tc main_arg0) := by
  simp only [ops3]; after_results_simp
theorem keep3_arg1 (V : Valuation τ sig (Elt F)) : after ops3 V (Proc.devRef .tc main_arg1) = V (Proc.devRef .tc main_arg1) := by
  simp only [ops3]; after_results_simp
theorem keep3_arg2 (V : Valuation τ sig (Elt F)) : after ops3 V (Proc.devRef .tc main_arg2) = V (Proc.devRef .tc main_arg2) := by
  simp only [ops3]; after_results_simp
theorem keep3_arg3 (V : Valuation τ sig (Elt F)) : after ops3 V (Proc.devRef .tc main_arg3) = V (Proc.devRef .tc main_arg3) := by
  simp only [ops3]; after_results_simp

set_option maxRecDepth 8192 in
set_option maxHeartbeats 4000000 in
theorem s3_v16 (V : Valuation τ sig (Elt F)) (x0 : FVec F S2x512x151643 .f32) (x2 : IVec S2x512 32)
    (hv7 : V (Proc.devRef .tc main_v7) = val_main_v7 (F := F) x0 x2) (h2 : V (Proc.devRef .tc main_arg2) = x2) :
    after ops3 V (Proc.devRef .tc main_v16) = val_main_v16 (F := F) x0 x2 := by
  simp only [ops3]
  after_results_simp
  simp only [TRef.ofBuf, TRef.toBuf, cast_cast_self]
  rw [hv7, h2]
  rfl

end Cert.ReferenceIdeal.RefValue

end
-- ==== Proof.Ref.Run4.lean ====
import proofs.«429975_j11527692223274_3_alg».proof.Proof.RefRead
import Idealize.ShloMosaic.Lib.StableHlo.Run

set_option Elab.async false

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

def ops4 : List (HloOp τ sig (Elt F)) :=
  [ nullary main_cst_5 (constant S_ .f32 0x40000000#32),
    unary main_cst_5 main_v17 (broadcastInDim S2x512x151643 ![] bcast_S_S2x512x151643 : (⟨S_, .f32⟩ : BufTy).Contents (Elt F) → (⟨S2x512x151643, .f32⟩ : BufTy).Contents (Elt F)),
    binary main_arg0 main_v17 main_v18 (Host.divf : (⟨S2x512x151643, .f32⟩ : BufTy).Contents (Elt F) → (⟨S2x512x151643, .f32⟩ : BufTy).Contents (Elt F) → (⟨S2x512x151643, .f32⟩ : BufTy).Contents (Elt F)),
    TRef.nullary (TRef.of (T := ⟨S_, .f32⟩) main_call4_cst) (constant S_ .f32 0xFF800000#32),
    TRef.binary (TRef.of (T := ⟨S2x512x151643, .f32⟩) main_v18) (TRef.of (T := ⟨S_, .f32⟩) main_call4_cst) (TRef.of (T := ⟨S2x512, .f32⟩) main_call4_v0) (fun x v => Host.reduce FloatOps.maximumf x v reducesTo_S2x512x151643_S2x512_d2 h_S_),
    TRef.nullary (TRef.of (T := ⟨S_, .f32⟩) main_call4_cst_0) (constant S_ .f32 0xFF800000#32),
    TRef.unary (TRef.of (T := ⟨S_, .f32⟩) main_call4_cst_0) (TRef.of (T := ⟨S2x512, .f32⟩) main_call4_v1) (broadcastInDim S2x512 ![] bcast_S_S2x512),
    TRef.binary (TRef.of (T := ⟨S2x512, .f32⟩) main_call4_v1) (TRef.of (T := ⟨S2x512, .f32⟩) main_call4_v0) (TRef.of (T := ⟨S2x512, .f32⟩) main_call4_v2) maximumf,
    TRef.unary (TRef.of (T := ⟨S2x512, .f32⟩) main_call4_v2) (TRef.of (T := ⟨S2x512x1, .f32⟩) main_call4_v3) (broadcastInDim S2x512x1 ![0, 1] bcast_S2x512_S2x512x1_0_1),
    TRef.unary (TRef.of (T := ⟨S2x512x1, .f32⟩) main_call4_v3) (TRef.of (T := ⟨S2x512x151643, .f32⟩) main_call4_v4) (broadcastInDim S2x512x151643 ![0, 1, 2] bcast_S2x512x1_S2x512x151643_0_1_2),
    TRef.binary (TRef.of (T := ⟨S2x512x151643, .f32⟩) main_v18) (TRef.of (T := ⟨S2x512x151643, .f32⟩) main_call4_v4) (TRef.of (T := ⟨S2x512x151643, .f32⟩) main_call4_v5) subf,
    TRef.unary (TRef.of (T := ⟨S2x512x151643, .f32⟩) main_call4_v5) (TRef.of (T := ⟨S2x512x151643, .f32⟩) main_call4_v6) Host.exp,
    TRef.nullary (TRef.of (T := ⟨S_, .f32⟩) main_call4_cst_1) (constant S_ .f32 0x00000000#32),
    TRef.binary (TRef.of (T := ⟨S2x512x151643, .f32⟩) main_call4_v6) (TRef.of (T := ⟨S_, .f32⟩) main_call4_cst_1) (TRef.of (T := ⟨S2x512, .f32⟩) main_call4_v7) (fun x v => Host.reduceAdd x v reducesTo_S2x512x151643_S2x512_d2 h_S_),
    TRef.unary (TRef.of (T := ⟨S2x512, .f32⟩) main_call4_v7) (TRef.of (T := ⟨S2x512x1, .f32⟩) main_call4_v8) (broadcastInDim S2x512x1 ![0, 1] bcast_S2x512_S2x512x1_0_1),
    TRef.unary (TRef.of (T := ⟨S2x512x1, .f32⟩) main_call4_v8) (TRef.of (T := ⟨S2x512x1, .f32⟩) main_call4_v9) Host.log,
    TRef.unary (TRef.of (T := ⟨S2x512x1, .f32⟩) main_call4_v9) (TRef.of (T := ⟨S2x512x151643, .f32⟩) main_call4_v10) (broadcastInDim S2x512x151643 ![0, 1, 2] bcast_S2x512x1_S2x512x151643_0_1_2),
    TRef.binary (TRef.of (T := ⟨S2x512x151643, .f32⟩) main_call4_v5) (TRef.of (T := ⟨S2x512x151643, .f32⟩) main_call4_v10) (TRef.of (T := ⟨S2x512x151643, .f32⟩) main_v19) subf,
    nullary main_cst_6 (constant S_ .f32 0x00000000#32),
    binary main_v19 main_cst_6 main_v20 ((fun x v => Host.reduceAdd x v reducesTo_S2x512x151643_S2x512_d2 h_S_) : (⟨S2x512x151643, .f32⟩ : BufTy).Contents (Elt F) → (⟨S_, .f32⟩ : BufTy).Contents (Elt F) → (⟨S2x512, .f32⟩ : BufTy).Contents (Elt F)) ]

theorem ops4_sub : (ops4 : List (HloOp τ sig (Elt F))).Forall fun op => op.bufs ⊆ tcRefs τ sig := by
  unfold ops4
  exact ⟨nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., binary_bufs_sub ..⟩

theorem ops4_fresh : ∀ op ∈ (ops4 : List (HloOp τ sig (Elt F))), op.fresh = ∅ := by
  intro _ h; unfold ops4 at h
  (repeat (cases h with | head => rfl | tail _ h => ?_)); exact nomatch h

theorem keep4_arg0 (V : Valuation τ sig (Elt F)) : after ops4 V (Proc.devRef .tc main_arg0) = V (Proc.devRef .tc main_arg0) := by
  simp only [ops4]; after_results_simp
theorem keep4_arg1 (V : Valuation τ sig (Elt F)) : after ops4 V (Proc.devRef .tc main_arg1) = V (Proc.devRef .tc main_arg1) := by
  simp only [ops4]; after_results_simp
theorem keep4_arg2 (V : Valuation τ sig (Elt F)) : after ops4 V (Proc.devRef .tc main_arg2) = V (Proc.devRef .tc main_arg2) := by
  simp only [ops4]; after_results_simp
theorem keep4_arg3 (V : Valuation τ sig (Elt F)) : after ops4 V (Proc.devRef .tc main_arg3) = V (Proc.devRef .tc main_arg3) := by
  simp only [ops4]; after_results_simp
theorem keep4_v16 (V : Valuation τ sig (Elt F)) : after ops4 V (Proc.devRef .tc main_v16) = V (Proc.devRef .tc main_v16) := by
  simp only [ops4]; after_results_simp

set_option maxRecDepth 8192 in
set_option maxHeartbeats 4000000 in
theorem s4_v20 (V : Valuation τ sig (Elt F)) (x0 : FVec F S2x512x151643 .f32)
    (h0 : V (Proc.devRef .tc main_arg0) = x0) :
    after ops4 V (Proc.devRef .tc main_v20) = val_main_v20 (F := F) x0 := by
  simp only [ops4]
  after_results_simp
  simp only [TRef.ofBuf, TRef.toBuf, cast_cast_self]
  rw [h0]
  rfl

end Cert.ReferenceIdeal.RefValue

end
-- ==== Proof.Ref.Run5.lean ====
import proofs.«429975_j11527692223274_3_alg».proof.Proof.RefRead
import Idealize.ShloMosaic.Lib.StableHlo.Run

set_option Elab.async false

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

def ops5 : List (HloOp τ sig (Elt F)) :=
  [ unary main_arg1 main_v21 (Host.exp : (⟨S512, .f32⟩ : BufTy).Contents (Elt F) → (⟨S512, .f32⟩ : BufTy).Contents (Elt F)),
    nullary main_cst_7 (constant S_ .f32 0x3F7D70A4#32),
    unary main_cst_7 main_v22 (broadcastInDim S512 ![] bcast_S_S512 : (⟨S_, .f32⟩ : BufTy).Contents (Elt F) → (⟨S512, .f32⟩ : BufTy).Contents (Elt F)),
    binary main_v21 main_v22 main_v23 (minimumf : (⟨S512, .f32⟩ : BufTy).Contents (Elt F) → (⟨S512, .f32⟩ : BufTy).Contents (Elt F) → (⟨S512, .f32⟩ : BufTy).Contents (Elt F)),
    nullary main_cst_8 (constant S_ .f32 0x3F800000#32),
    unary main_cst_8 main_v24 (broadcastInDim S512 ![] bcast_S_S512 : (⟨S_, .f32⟩ : BufTy).Contents (Elt F) → (⟨S512, .f32⟩ : BufTy).Contents (Elt F)),
    binary main_v24 main_v23 main_v25 (subf : (⟨S512, .f32⟩ : BufTy).Contents (Elt F) → (⟨S512, .f32⟩ : BufTy).Contents (Elt F) → (⟨S512, .f32⟩ : BufTy).Contents (Elt F)),
    nullary main_cst_9 (constant S_ .f32 0x481416C0#32),
    unary main_cst_9 main_v26 (broadcastInDim S512 ![] bcast_S_S512 : (⟨S_, .f32⟩ : BufTy).Contents (Elt F) → (⟨S512, .f32⟩ : BufTy).Contents (Elt F)),
    binary main_v25 main_v26 main_v27 (Host.divf : (⟨S512, .f32⟩ : BufTy).Contents (Elt F) → (⟨S512, .f32⟩ : BufTy).Contents (Elt F) → (⟨S512, .f32⟩ : BufTy).Contents (Elt F)),
    nullary main_cst_10 (constant S_ .f32 0x481416C0#32),
    unary main_cst_10 main_v28 (broadcastInDim S512 ![] bcast_S_S512 : (⟨S_, .f32⟩ : BufTy).Contents (Elt F) → (⟨S512, .f32⟩ : BufTy).Contents (Elt F)),
    binary main_v28 main_v27 main_v29 (mulf : (⟨S512, .f32⟩ : BufTy).Contents (Elt F) → (⟨S512, .f32⟩ : BufTy).Contents (Elt F) → (⟨S512, .f32⟩ : BufTy).Contents (Elt F)),
    unary main_v27 main_v30 (Host.log : (⟨S512, .f32⟩ : BufTy).Contents (Elt F) → (⟨S512, .f32⟩ : BufTy).Contents (Elt F)),
    binary main_v29 main_v30 main_v31 (mulf : (⟨S512, .f32⟩ : BufTy).Contents (Elt F) → (⟨S512, .f32⟩ : BufTy).Contents (Elt F) → (⟨S512, .f32⟩ : BufTy).Contents (Elt F)),
    unary main_v31 main_v32 (broadcastInDim S1x512 ![1] bcast_S512_S1x512_1 : (⟨S512, .f32⟩ : BufTy).Contents (Elt F) → (⟨S1x512, .f32⟩ : BufTy).Contents (Elt F)),
    unary main_v27 main_v33 (broadcastInDim S1x512 ![1] bcast_S512_S1x512_1 : (⟨S512, .f32⟩ : BufTy).Contents (Elt F) → (⟨S1x512, .f32⟩ : BufTy).Contents (Elt F)),
    unary main_v33 main_v34 (broadcastInDim S2x512 ![0, 1] bcast_S1x512_S2x512_0_1 : (⟨S1x512, .f32⟩ : BufTy).Contents (Elt F) → (⟨S2x512, .f32⟩ : BufTy).Contents (Elt F)),
    binary main_v34 main_v20 main_v35 (mulf : (⟨S2x512, .f32⟩ : BufTy).Contents (Elt F) → (⟨S2x512, .f32⟩ : BufTy).Contents (Elt F) → (⟨S2x512, .f32⟩ : BufTy).Contents (Elt F)),
    unary main_v32 main_v36 (broadcastInDim S2x512 ![0, 1] bcast_S1x512_S2x512_0_1 : (⟨S1x512, .f32⟩ : BufTy).Contents (Elt F) → (⟨S2x512, .f32⟩ : BufTy).Contents (Elt F)),
    binary main_v36 main_v35 main_v37 (subf : (⟨S2x512, .f32⟩ : BufTy).Contents (Elt F) → (⟨S2x512, .f32⟩ : BufTy).Contents (Elt F) → (⟨S2x512, .f32⟩ : BufTy).Contents (Elt F)) ]

theorem ops5_sub : (ops5 : List (HloOp τ sig (Elt F))).Forall fun op => op.bufs ⊆ tcRefs τ sig := by
  unfold ops5
  exact ⟨unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., unary_bufs_sub .., unary_bufs_sub .., unary_bufs_sub .., binary_bufs_sub .., unary_bufs_sub .., binary_bufs_sub ..⟩

theorem ops5_fresh : ∀ op ∈ (ops5 : List (HloOp τ sig (Elt F))), op.fresh = ∅ := by
  intro _ h; unfold ops5 at h
  (repeat (cases h with | head => rfl | tail _ h => ?_)); exact nomatch h

theorem keep5_arg0 (V : Valuation τ sig (Elt F)) : after ops5 V (Proc.devRef .tc main_arg0) = V (Proc.devRef .tc main_arg0) := by
  simp only [ops5]; after_results_simp
theorem keep5_arg1 (V : Valuation τ sig (Elt F)) : after ops5 V (Proc.devRef .tc main_arg1) = V (Proc.devRef .tc main_arg1) := by
  simp only [ops5]; after_results_simp
theorem keep5_arg2 (V : Valuation τ sig (Elt F)) : after ops5 V (Proc.devRef .tc main_arg2) = V (Proc.devRef .tc main_arg2) := by
  simp only [ops5]; after_results_simp
theorem keep5_arg3 (V : Valuation τ sig (Elt F)) : after ops5 V (Proc.devRef .tc main_arg3) = V (Proc.devRef .tc main_arg3) := by
  simp only [ops5]; after_results_simp
theorem keep5_v16 (V : Valuation τ sig (Elt F)) : after ops5 V (Proc.devRef .tc main_v16) = V (Proc.devRef .tc main_v16) := by
  simp only [ops5]; after_results_simp

set_option maxRecDepth 8192 in
set_option maxHeartbeats 4000000 in
theorem s5_v37 (V : Valuation τ sig (Elt F)) (x0 : FVec F S2x512x151643 .f32) (x1 : FVec F S512 .f32)
    (hv20 : V (Proc.devRef .tc main_v20) = val_main_v20 (F := F) x0) (h1 : V (Proc.devRef .tc main_arg1) = x1) :
    after ops5 V (Proc.devRef .tc main_v37) = val_main_v37 (F := F) x0 x1 := by
  simp only [ops5]
  after_results_simp
  rw [hv20, h1]
  rfl

end Cert.ReferenceIdeal.RefValue

end
-- ==== Proof.Ref.Run6.lean ====
import proofs.«429975_j11527692223274_3_alg».proof.Proof.RefRead
import Idealize.ShloMosaic.Lib.StableHlo.Run

set_option Elab.async false

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

def ops6 : List (HloOp τ sig (Elt F)) :=
  [ unary main_arg3 main_v38 (sitofp (F := F) .f32 : (⟨S2x512, .i32⟩ : BufTy).Contents (Elt F) → (⟨S2x512, .f32⟩ : BufTy).Contents (Elt F)),
    binary main_v37 main_v38 main_v39 (mulf : (⟨S2x512, .f32⟩ : BufTy).Contents (Elt F) → (⟨S2x512, .f32⟩ : BufTy).Contents (Elt F) → (⟨S2x512, .f32⟩ : BufTy).Contents (Elt F)),
    nullary main_cst_11 (constant S_ .f32 0x00000000#32),
    binary main_v39 main_cst_11 main_v40 ((fun x v => Host.reduceAdd x v reducesTo_S2x512_S_d0_1 h_S_) : (⟨S2x512, .f32⟩ : BufTy).Contents (Elt F) → (⟨S_, .f32⟩ : BufTy).Contents (Elt F) → (⟨S_, .f32⟩ : BufTy).Contents (Elt F)),
    nullary main_cst_12 (constant S_ .f32 0x00000000#32),
    binary main_v38 main_cst_12 main_v41 ((fun x v => Host.reduceAdd x v reducesTo_S2x512_S_d0_1 h_S_) : (⟨S2x512, .f32⟩ : BufTy).Contents (Elt F) → (⟨S_, .f32⟩ : BufTy).Contents (Elt F) → (⟨S_, .f32⟩ : BufTy).Contents (Elt F)),
    nullary main_cst_13 (constant S_ .f32 0x00000000#32),
    binary main_v41 main_cst_13 main_v42 (cmpf (F := F) .ogt : (⟨S_, .f32⟩ : BufTy).Contents (Elt F) → (⟨S_, .f32⟩ : BufTy).Contents (Elt F) → (⟨S_, .i1⟩ : BufTy).Contents (Elt F)),
    binary main_v40 main_v41 main_v43 (Host.divf : (⟨S_, .f32⟩ : BufTy).Contents (Elt F) → (⟨S_, .f32⟩ : BufTy).Contents (Elt F) → (⟨S_, .f32⟩ : BufTy).Contents (Elt F)),
    TRef.ternary (TRef.of (T := ⟨S_, .i1⟩) main_v42) (TRef.of (T := ⟨S_, .f32⟩) main_v43) (TRef.of (T := ⟨S_, .f32⟩) main_v40) (TRef.of (T := ⟨S_, .f32⟩) main_v44) select,
    nullary main_cst_14 (constant S_ .f32 0x40800000#32),
    binary main_v44 main_cst_14 main_v45 (mulf : (⟨S_, .f32⟩ : BufTy).Contents (Elt F) → (⟨S_, .f32⟩ : BufTy).Contents (Elt F) → (⟨S_, .f32⟩ : BufTy).Contents (Elt F)),
    nullary main_cst_15 (constant S_ .f32 0x3F800000#32),
    binary main_cst_15 main_v16 main_v46 (mulf : (⟨S_, .f32⟩ : BufTy).Contents (Elt F) → (⟨S_, .f32⟩ : BufTy).Contents (Elt F) → (⟨S_, .f32⟩ : BufTy).Contents (Elt F)),
    nullary main_cst_16 (constant S_ .f32 0x3F000000#32),
    binary main_cst_16 main_v45 main_v47 (mulf : (⟨S_, .f32⟩ : BufTy).Contents (Elt F) → (⟨S_, .f32⟩ : BufTy).Contents (Elt F) → (⟨S_, .f32⟩ : BufTy).Contents (Elt F)),
    binary main_v46 main_v47 main_v48 (addf : (⟨S_, .f32⟩ : BufTy).Contents (Elt F) → (⟨S_, .f32⟩ : BufTy).Contents (Elt F) → (⟨S_, .f32⟩ : BufTy).Contents (Elt F)) ]

theorem ops6_sub : (ops6 : List (HloOp τ sig (Elt F))).Forall fun op => op.bufs ⊆ tcRefs τ sig := by
  unfold ops6
  exact ⟨unary_bufs_sub .., binary_bufs_sub .., nullary_bufs_sub .., binary_bufs_sub .., nullary_bufs_sub .., binary_bufs_sub .., nullary_bufs_sub .., binary_bufs_sub .., binary_bufs_sub .., ternary_bufs_sub .., nullary_bufs_sub .., binary_bufs_sub .., nullary_bufs_sub .., binary_bufs_sub .., nullary_bufs_sub .., binary_bufs_sub .., binary_bufs_sub ..⟩

theorem ops6_fresh : ∀ op ∈ (ops6 : List (HloOp τ sig (Elt F))), op.fresh = ∅ := by
  intro _ h; unfold ops6 at h
  (repeat (cases h with | head => rfl | tail _ h => ?_)); exact nomatch h

theorem keep6_arg0 (V : Valuation τ sig (Elt F)) : after ops6 V (Proc.devRef .tc main_arg0) = V (Proc.devRef .tc main_arg0) := by
  simp only [ops6]; after_results_simp
theorem keep6_arg1 (V : Valuation τ sig (Elt F)) : after ops6 V (Proc.devRef .tc main_arg1) = V (Proc.devRef .tc main_arg1) := by
  simp only [ops6]; after_results_simp
theorem keep6_arg2 (V : Valuation τ sig (Elt F)) : after ops6 V (Proc.devRef .tc main_arg2) = V (Proc.devRef .tc main_arg2) := by
  simp only [ops6]; after_results_simp
theorem keep6_arg3 (V : Valuation τ sig (Elt F)) : after ops6 V (Proc.devRef .tc main_arg3) = V (Proc.devRef .tc main_arg3) := by
  simp only [ops6]; after_results_simp

set_option maxRecDepth 8192 in
set_option maxHeartbeats 4000000 in
theorem s6_v48 (V : Valuation τ sig (Elt F)) (x0 : FVec F S2x512x151643 .f32) (x1 : FVec F S512 .f32) (x2 : IVec S2x512 32) (x3 : IVec S2x512 32)
    (hv37 : V (Proc.devRef .tc main_v37) = val_main_v37 (F := F) x0 x1) (hv16 : V (Proc.devRef .tc main_v16) = val_main_v16 (F := F) x0 x2)
    (h3 : V (Proc.devRef .tc main_arg3) = x3) :
    after ops6 V (Proc.devRef .tc main_v48) = val_main_v48 (F := F) x0 x1 x2 x3 := by
  simp only [ops6]
  after_results_simp
  simp only [TRef.ofBuf, TRef.toBuf, cast_cast_self]
  rw [hv37, hv16, h3]
  rfl

end Cert.ReferenceIdeal.RefValue

end
-- ==== Proof.Ref.Run.lean ====
import proofs.«429975_j11527692223274_3_alg».proof.Proof.Ref.Run1
import proofs.«429975_j11527692223274_3_alg».proof.Proof.Ref.Run2
import proofs.«429975_j11527692223274_3_alg».proof.Proof.Ref.Run3
import proofs.«429975_j11527692223274_3_alg».proof.Proof.Ref.Run4
import proofs.«429975_j11527692223274_3_alg».proof.Proof.Ref.Run5
import proofs.«429975_j11527692223274_3_alg».proof.Proof.Ref.Run6
import Idealize.ShloMosaic.Lib.Pipeline.Regions

set_option Elab.async false

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

def ops : List (HloOp τ sig (Elt F)) := ops1 ++ (ops2 ++ (ops3 ++ (ops4 ++ (ops5 ++ ops6))))

theorem ops_sub : (ops : List (HloOp τ sig (Elt F))).Forall fun op => op.bufs ⊆ tcRefs τ sig := by
  unfold ops
  exact List.forall_append.mpr ⟨ops1_sub, List.forall_append.mpr ⟨ops2_sub, List.forall_append.mpr ⟨ops3_sub,
    List.forall_append.mpr ⟨ops4_sub, List.forall_append.mpr ⟨ops5_sub, ops6_sub⟩⟩⟩⟩⟩

theorem ops_fresh : ∀ op ∈ (ops : List (HloOp τ sig (Elt F))), op.fresh = ∅ := by
  intro op h; unfold ops at h
  rcases List.mem_append.mp h with h | h
  · exact ops1_fresh op h
  rcases List.mem_append.mp h with h | h
  · exact ops2_fresh op h
  rcases List.mem_append.mp h with h | h
  · exact ops3_fresh op h
  rcases List.mem_append.mp h with h | h
  · exact ops4_fresh op h
  rcases List.mem_append.mp h with h | h
  · exact ops5_fresh op h
  · exact ops6_fresh op h

theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

theorem after_ops (V : Valuation τ sig (Elt F)) :
    after ops V = after ops6 (after ops5 (after ops4 (after ops3 (after ops2 (after ops1 V))))) := by
  unfold ops
  rw [after_app, after_app, after_app, after_app, after_app]

theorem after_ops_v48 (W : Valuation τ sig (Elt F)) :
    after ops W (Proc.devRef .tc main_v48)
      = val_main_v48 (F := F) (W (Proc.devRef .tc main_arg0)) (W (Proc.devRef .tc main_arg1)) (W (Proc.devRef .tc main_arg2)) (W (Proc.devRef .tc main_arg3)) := by
  rw [after_ops]
  refine s6_v48 _ _ _ _ _ ?_ ?_ ?_
  · refine s5_v37 _ _ _ ?_ ?_
    · refine s4_v20 _ _ ?_
      rw [keep3_arg0, keep2_arg0, keep1_arg0]
    · rw [keep4_arg1, keep3_arg1, keep2_arg1, keep1_arg1]
  · rw [keep5_v16, keep4_v16]
    refine s3_v16 _ _ _ ?_ ?_
    · refine s2_v7 _ _ _ ?_ ?_
      · exact s1_v0 _ _ rfl
      · rw [keep1_arg2]
    · rw [keep2_arg2, keep1_arg2]
  · rw [keep5_arg3, keep4_arg3, keep3_arg3, keep2_arg3, keep1_arg3]

theorem after_ops_arg0 (W : Valuation τ sig (Elt F)) : after ops W (Proc.devRef .tc main_arg0) = W (Proc.devRef .tc main_arg0) := by
  rw [after_ops, keep6_arg0, keep5_arg0, keep4_arg0, keep3_arg0, keep2_arg0, keep1_arg0]
theorem after_ops_arg1 (W : Valuation τ sig (Elt F)) : after ops W (Proc.devRef .tc main_arg1) = W (Proc.devRef .tc main_arg1) := by
  rw [after_ops, keep6_arg1, keep5_arg1, keep4_arg1, keep3_arg1, keep2_arg1, keep1_arg1]
theorem after_ops_arg2 (W : Valuation τ sig (Elt F)) : after ops W (Proc.devRef .tc main_arg2) = W (Proc.devRef .tc main_arg2) := by
  rw [after_ops, keep6_arg2, keep5_arg2, keep4_arg2, keep3_arg2, keep2_arg2, keep1_arg2]
theorem after_ops_arg3 (W : Valuation τ sig (Elt F)) : after ops W (Proc.devRef .tc main_arg3) = W (Proc.devRef .tc main_arg3) := by
  rw [after_ops, keep6_arg3, keep5_arg3, keep4_arg3, keep3_arg3, keep2_arg3, keep1_arg3]

theorem runG (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48)
        = val_main_v48 (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v48).trans (after_ops_v48 _),
      (h c main_arg0).trans (after_ops_arg0 _),
      (h c main_arg1).trans (after_ops_arg1 _),
      (h c main_arg2).trans (after_ops_arg2 _),
      (h c main_arg3).trans (after_ops_arg3 _)⟩)
    (run_seq scopedRefs_eq scopedSems_eq defs main (fun _ => ops) main_eq (fun _ => ops_sub) m ρ (fun _ => ops_fresh))

end Cert.ReferenceIdeal.RefValue

end
-- ==== Proof.Finite.lean ====
import proofs.«429975_j11527692223274_3_alg».proof.Pre_finite_inputs
import proofs.«429975_j11527692223274_3_alg».proof.Proof.Gen.Pre_finite_inputs
import Idealize.ShloMosaic.Lib.ReduceAll
import Idealize.ShloMosaic.Lib.IdealHost
import Idealize.ShloMosaic.PureOps.Ideal
import Idealize.ShloMosaic.PureOps.Ideal.Laws

namespace Cert.Fin

open Idealize.ShloMosaic

theorem exists_real_of_abs_lt_top (a : EReal) (h : max a (-a) < ⊤) : ∃ r : ℝ, a = ((r : ℝ) : EReal) := by
  induction a using EReal.rec with
  | bot => simp at h
  | coe r => exact ⟨r, rfl⟩
  | top => simp at h

theorem ofBits_inf_f32 : Ideal.ofBits .f32 0x7F800000#32 = (⊤ : EReal) := by
  simp [Ideal.ofBits, Ideal.ieee]

theorem cmp_olt_eq_one (a b : EReal) : Ideal.cmp .olt a b = 1#1 ↔ a < b := by
  have hb : ∀ c : Bool, BitVec.ofBool c = 1#1 ↔ c = true := fun c => by cases c <;> decide
  simp only [Ideal.cmp, hb, decide_eq_true_eq]

instance : Subsingleton Cert.Pre_finite_inputs.S_.Idx := ⟨fun a b => funext fun d => d.elim0⟩

variable [hP : Cert.Pre_finite_inputs.Facts]

theorem finite_of_pre (x : FVec Ideal Cert.Pre_finite_inputs.S2x512x151643 .f32) (tlp : FVec Ideal Cert.Pre_finite_inputs.S512 .f32)
    (l mk : IVec Cert.Pre_finite_inputs.S2x512 32)
    (h : Cert.Pre_finite_inputs.fn (F := Ideal) x tlp l mk = fun _ => 1#1) :
    (∀ i, ∃ r : ℝ, x i = ((r : ℝ) : EReal)) ∧ (∀ i, ∃ r : ℝ, tlp i = ((r : ℝ) : EReal)) := by
  have h0 := congrFun h ValueIdx.ix0
  dsimp only [Cert.Pre_finite_inputs.fn] at h0
  obtain ⟨hx, ht⟩ := IntOp.andi_eq_one.1 h0
  refine ⟨fun i => ?_, fun i => ?_⟩
  · have e := Host.reduce_andi_all _ _ _ _ _ hx i
    have e' : Ideal.cmp .olt (max (x i) (-(x i))) (Ideal.ofBits .f32 0x7F800000#32) = 1#1 := e
    rw [ofBits_inf_f32] at e'
    exact exists_real_of_abs_lt_top (x i) ((cmp_olt_eq_one _ _).1 e')
  · have e := Host.reduce_andi_all _ _ _ _ _ ht i
    have e' : Ideal.cmp .olt (max (tlp i) (-(tlp i))) (Ideal.ofBits .f32 0x7F800000#32) = 1#1 := e
    rw [ofBits_inf_f32] at e'
    exact exists_real_of_abs_lt_top (tlp i) ((cmp_olt_eq_one _ _).1 e')

end Cert.Fin
-- ==== Proof.lean ====
import proofs.«429975_j11527692223274_3_alg».proof.Defs
import proofs.«429975_j11527692223274_3_alg».proof.Proof.Gen.Kernel
import proofs.«429975_j11527692223274_3_alg».proof.Proof.Gen.KernelIdeal
import proofs.«429975_j11527692223274_3_alg».proof.Proof.Gen.ReferenceIdeal
import proofs.«429975_j11527692223274_3_alg».proof.Proof.Gen.Pre_finite_inputs
import proofs.«429975_j11527692223274_3_alg».proof.Proof.K.Frame
import proofs.«429975_j11527692223274_3_alg».proof.Proof.KI.Frame
import proofs.«429975_j11527692223274_3_alg».proof.Proof.Join
import proofs.«429975_j11527692223274_3_alg».proof.Proof.Ref.Run
import proofs.«429975_j11527692223274_3_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_r : Cert.frame_ReferenceIdeal := fun m ρ _ =>
  (θ_run Cert.ReferenceIdeal.defs _ _).mono (fun _ h c => (h c).2) (Cert.ReferenceIdeal.RefValue.runG m ρ)

/-- With every logit real, both programs end in one function of a per-token negative log-likelihood array and a per-token divergence array, and those agree entry by entry. -/
theorem algebraic : Cert.algebraic_KernelIdeal_ReferenceIdeal := by
  intro m ρ m' ρ' hpre hagree
  have hfin : ∀ c i, ∃ q : ℝ, Cert.KernelIdeal.Val.xarr m c i = ((q : ℝ) : EReal) := fun c i => by
    have h := (Cert.Fin.finite_of_pre _ _ _ _ (hpre c)).1 i
    rw [show Cert.KernelIdeal.Val.xarr m c = m ((c.tc : Thread Cert.KernelIdeal.nD Cert.KernelIdeal.τ).loc Cert.KernelIdeal.main_arg0) from Cert.KernelIdeal.Fr.V_main_arg0 m c]
    exact h
  refine ⟨fun c => Cert.ReferenceIdeal.Read.val_main_v48 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Val.kernel_result m ρ)
    rw [Cert.Join.nll_eq m c (hfin c), Cert.Join.kl_eq m c (hfin c)]
    exact (Cert.ReferenceIdeal.RefValue.total_eq _ _ _ _).symm
  · refine (θ_run Cert.ReferenceIdeal.defs _ _).mono (fun r h c => ⟨(h c).1.trans ?_, (h c).2⟩)
      (Cert.ReferenceIdeal.RefValue.runG m' ρ')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
